-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x8x8x8 : Shape := ⟨5, ![128, 128, 8, 8, 8]⟩
abbrev S128x128x3x3x3 : Shape := ⟨5, ![128, 128, 3, 3, 3]⟩
abbrev S128 : Shape := ⟨1, ![128]⟩
abbrev S_ : Shape := ⟨0, ![]⟩

class Facts : Prop where
  bcast_S_S128x128x8x8x8 : S_.BroadcastsInDim S128x128x8x8x8 (![] : Fin 0 → Fin S128x128x8x8x8.rank)
  reducesTo_S128x128x8x8x8_S_d0_1_2_3_4 : S128x128x8x8x8.ReducesTo [0, 1, 2, 3, 4] S_
  h_S_ : 0 < S_.numel
  bcast_S_S128x128x3x3x3 : S_.BroadcastsInDim S128x128x3x3x3 (![] : Fin 0 → Fin S128x128x3x3x3.rank)
  reducesTo_S128x128x3x3x3_S_d0_1_2_3_4 : S128x128x3x3x3.ReducesTo [0, 1, 2, 3, 4] S_
  bcast_S_S128 : S_.BroadcastsInDim S128 (![] : Fin 0 → Fin S128.rank)
  reducesTo_S128_S_d0 : S128.ReducesTo [0] S_

variable [Facts]

def fn_part4 {F : FTy → Type} [FloatOps F] (main_arg12 : FVec F S128 .f32) (main_v67 : IVec S_ 1) : IVec S_ 1 :=
  let main_cst_26 : FVec F S_ .f32 := constant S_ .f32 0x00000000#32
  let main_v68 : FVec F S128 .f32 := broadcastInDim S128 ![] bcast_S_S128 main_cst_26
  let main_v69 : IVec S128 1 := cmpf .oge main_arg12 main_v68
  let main_c_27 : IVec S_ 1 := constantI S_ 1 1#1
  let main_v70 : IVec S_ 1 := (fun x v => Host.reduce IntOp.andi x v reducesTo_S128_S_d0 h_S_) main_v69 main_c_27
  let main_v71 : IVec S_ 1 := andi main_v67 main_v70
  main_v71

def fn_part3 {F : FTy → Type} [FloatOps F] (main_arg6 : FVec F S128 .f32) (main_arg11 : FVec F S128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_cst_24 : FVec F S_ .f32 := constant S_ .f32 0x00000000#32
  let main_v64 : FVec F S128 .f32 := broadcastInDim S128 ![] bcast_S_S128 main_cst_24
  let main_v65 : IVec S128 1 := cmpf .oge main_arg6 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v63 main_v66
  fn_part4 (F := F) main_arg12 main_v67

def fn_part2 {F : FTy → Type} [FloatOps F] (main_arg6 : FVec F S128 .f32) (main_arg7 : FVec F S128x128x3x3x3 .f32) (main_arg8 : FVec F S128 .f32) (main_arg9 : FVec F S128 .f32) (main_arg10 : FVec F S128 .f32) (main_arg11 : FVec F S128 .f32) (main_arg12 : FVec F S128 .f32) (main_v33 : IVec S_ 1) : IVec S_ 1 :=
  let main_v34 : FVec F S128x128x3x3x3 .f32 := Host.absf main_arg7
  let main_cst_12 : FVec F S_ .f32 := constant S_ .f32 0x7F800000#32
  let main_v35 : FVec F S128x128x3x3x3 .f32 := broadcastInDim S128x128x3x3x3 ![] bcast_S_S128x128x3x3x3 main_cst_12
  let main_v36 : IVec S128x128x3x3x3 1 := cmpf .olt main_v34 main_v35
  let main_c_13 : IVec S_ 1 := constantI S_ 1 1#1
  let main_v37 : IVec S_ 1 := (fun x v => Host.reduce IntOp.andi x v reducesTo_S128x128x3x3x3_S_d0_1_2_3_4 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg6 main_arg11 main_arg12 main_v48 main_v49 main_v50

def fn_part1 {F : FTy → Type} [FloatOps F] (main_arg4 : FVec F S128 .f32) (main_arg5 : FVec F S128 .f32) (main_arg6 : FVec F S128 .f32) (main_arg7 : FVec F S128x128x3x3x3 .f32) (main_arg8 : FVec F S128 .f32) (main_arg9 : FVec F S128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg6 main_arg7 main_arg8 main_arg9 main_arg10 main_arg11 main_arg12 main_v33

def fn {F : FTy → Type} [FloatOps F] (main_arg0 : FVec F S128x128x8x8x8 .f32) (main_arg1 : FVec F S128x128x3x3x3 .f32) (main_arg2 : FVec F S128 .f32) (main_arg3 : FVec F S128 .f32) (main_arg4 : FVec F S128 .f32) (main_arg5 : FVec F S128 .f32) (main_arg6 : FVec F S128 .f32) (main_arg7 : FVec F S128x128x3x3x3 .f32) (main_arg8 : FVec F S128 .f32) (main_arg9 : FVec F S128 .f32) (main_arg10 : FVec F S128 .f32) (main_arg11 : FVec F S128 .f32) (main_arg12 : FVec F S128 .f32) : IVec S_ 1 :=
  let main_v0 : FVec F S128x128x8x8x8 .f32 := Host.absf main_arg0
  let main_cst : FVec F S_ .f32 := constant S_ .f32 0x7F800000#32
  let main_v1 : FVec F S128x128x8x8x8 .f32 := broadcastInDim S128x128x8x8x8 ![] bcast_S_S128x128x8x8x8 main_cst
  let main_v2 : IVec S128x128x8x8x8 1 := cmpf .olt main_v0 main_v1
  let main_c : IVec S_ 1 := constantI S_ 1 1#1
  let main_v3 : IVec S_ 1 := (fun x v => Host.reduce IntOp.andi x v reducesTo_S128x128x8x8x8_S_d0_1_2_3_4 h_S_) main_v2 main_c
  let main_v4 : FVec F S128x128x3x3x3 .f32 := Host.absf main_arg1
  let main_cst_0 : FVec F S_ .f32 := constant S_ .f32 0x7F800000#32
  let main_v5 : FVec F S128x128x3x3x3 .f32 := broadcastInDim S128x128x3x3x3 ![] bcast_S_S128x128x3x3x3 main_cst_0
  let main_v6 : IVec S128x128x3x3x3 1 := cmpf .olt main_v4 main_v5
  let main_c_1 : IVec S_ 1 := constantI S_ 1 1#1
  let main_v7 : IVec S_ 1 := (fun x v => Host.reduce IntOp.andi x v reducesTo_S128x128x3x3x3_S_d0_1_2_3_4 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S128x128x8x8x8 : Shape := ⟨5, ![128, 128, 8, 8, 8]⟩
abbrev S128x128x3x3x3 : Shape := ⟨5, ![128, 128, 3, 3, 3]⟩
abbrev S128 : Shape := ⟨1, ![128]⟩
abbrev S128x8x8x8x128 : Shape := ⟨5, ![128, 8, 8, 8, 128]⟩
abbrev S_ : Shape := ⟨0, ![]⟩
abbrev S128x1x1x1x1 : Shape := ⟨5, ![128, 1, 1, 1, 1]⟩
abbrev S3x3x3x128x128 : Shape := ⟨5, ![3, 3, 3, 128, 128]⟩
abbrev S3x3x4x128x2x128 : Shape := ⟨6, ![3, 3, 4, 128, 2, 128]⟩
abbrev S3x3x1x128x128 : Shape := ⟨5, ![3, 3, 1, 128, 128]⟩
abbrev S3x3x128x128 : Shape := ⟨4, ![3, 3, 128, 128]⟩
abbrev S1 : Shape := ⟨1, ![1]⟩
abbrev S2 : Shape := ⟨1, ![2]⟩
abbrev S9x512x256 : Shape := ⟨3, ![9, 512, 256]⟩
abbrev S256 : Shape := ⟨1, ![256]⟩
abbrev S1x256 : Shape := ⟨2, ![1, 256]⟩
abbrev S8x8x8x8x128 : Shape := ⟨5, ![8, 8, 8, 8, 128]⟩
abbrev S10x10x8x512 : Shape := ⟨4, ![10, 10, 8, 512]⟩
abbrev S1x10x8x512 : Shape := ⟨4, ![1, 10, 8, 512]⟩
abbrev S8x1x8x512 : Shape := ⟨4, ![8, 1, 8, 512]⟩
abbrev S8x8x2x128 : Shape := ⟨4, ![8, 8, 2, 128]⟩
abbrev S2x8x8x8x128 : Shape := ⟨5, ![2, 8, 8, 8, 128]⟩
abbrev S2x8x8x4x128 : Shape := ⟨5, ![2, 8, 8, 4, 128]⟩
abbrev S2x8x8x512 : Shape := ⟨4, ![2, 8, 8, 512]⟩
abbrev S8x8x2x512 : Shape := ⟨4, ![8, 8, 2, 512]⟩
abbrev S2x8x8x3x128 : Shape := ⟨5, ![2, 8, 8, 3, 128]⟩
abbrev S2x8x8x384 : Shape := ⟨4, ![2, 8, 8, 384]⟩
abbrev S8x8x2x384 : Shape := ⟨4, ![8, 8, 2, 384]⟩
abbrev S512x256 : Shape := ⟨2, ![512, 256]⟩
abbrev S8x8x8x512 : Shape := ⟨4, ![8, 8, 8, 512]⟩
abbrev S512x512 : Shape := ⟨2, ![512, 512]⟩
abbrev S1x512x256 : Shape := ⟨3, ![1, 512, 256]⟩
abbrev S8x8x8x256 : Shape := ⟨4, ![8, 8, 8, 256]⟩
abbrev S8x8x8x2x128 : Shape := ⟨5, ![8, 8, 8, 2, 128]⟩
abbrev S8x8x6x1x128 : Shape := ⟨5, ![8, 8, 6, 1, 128]⟩
abbrev S8x8x6x128 : Shape := ⟨4, ![8, 8, 6, 128]⟩
abbrev S8x8x4x2x2x128 : Shape := ⟨6, ![8, 8, 4, 2, 2, 128]⟩
abbrev S8x8x4x1x2x128 : Shape := ⟨6, ![8, 8, 4, 1, 2, 128]⟩
abbrev S8x8x4x2x128 : Shape := ⟨5, ![8, 8, 4, 2, 128]⟩
abbrev S8x8x8x128 : Shape := ⟨4, ![8, 8, 8, 128]⟩
abbrev S1x8x8x8x128 : Shape := ⟨5, ![1, 8, 8, 8, 128]⟩

abbrev nBuf : Space → Nat
  | .hbm => 150
  | .vmem => 16
  | .smem => 0
  | _ => 0

abbrev hbmTy0_0 (i : Nat) : BufTy := match i % 128 with
  | 0 => ⟨S128x128x8x8x8, .f32⟩
  | 1 => ⟨S128x128x3x3x3, .f32⟩
  | 2 => ⟨S128, .f32⟩
  | 3 => ⟨S128, .f32⟩
  | 4 => ⟨S128, .f32⟩
  | 5 => ⟨S128, .f32⟩
  | 6 => ⟨S128, .f32⟩
  | 7 => ⟨S128x128x3x3x3, .f32⟩
  | 8 => ⟨S128, .f32⟩
  | 9 => ⟨S128, .f32⟩
  | 10 => ⟨S128, .f32⟩
  | 11 => ⟨S128, .f32⟩
  | 12 => ⟨S128, .f32⟩
  | 13 => ⟨S128x8x8x8x128, .f32⟩
  | 14 => ⟨S_, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128x1x1x1x1, .f32⟩
  | 24 => ⟨S128x128x3x3x3, .f32⟩
  | 25 => ⟨S128x128x3x3x3, .f32⟩
  | 26 => ⟨S3x3x3x128x128, .f32⟩
  | 27 => ⟨S_, .f32⟩
  | 28 => ⟨S3x3x4x128x2x128, .f32⟩
  | 29 => ⟨S3x3x1x128x128, .f32⟩
  | 30 => ⟨S3x3x128x128, .f32⟩
  | 31 => ⟨S_, .i32⟩
  | 32 => ⟨S1, .i32⟩
  | 33 => ⟨S_, .i32⟩
  | 34 => ⟨S1, .i32⟩
  | 35 => ⟨S2, .i32⟩
  | 36 => ⟨S3x3x4x128x2x128, .f32⟩
  | 37 => ⟨S3x3x1x128x128, .f32⟩
  | 38 => ⟨S3x3x128x128, .f32⟩
  | 39 => ⟨S_, .i32⟩
  | 40 => ⟨S1, .i32⟩
  | 41 => ⟨S_, .i32⟩
  | 42 => ⟨S1, .i32⟩
  | 43 => ⟨S2, .i32⟩
  | 44 => ⟨S3x3x4x128x2x128, .f32⟩
  | 45 => ⟨S3x3x1x128x128, .f32⟩
  | 46 => ⟨S3x3x128x128, .f32⟩
  | 47 => ⟨S_, .i32⟩
  | 48 => ⟨S1, .i32⟩
  | 49 => ⟨S_, .i32⟩
  | 50 => ⟨S1, .i32⟩
  | 51 => ⟨S2, .i32⟩
  | 52 => ⟨S3x3x4x128x2x128, .f32⟩
  | 53 => ⟨S3x3x1x128x128, .f32⟩
  | 54 => ⟨S3x3x128x128, .f32⟩
  | 55 => ⟨S_, .i32⟩
  | 56 => ⟨S1, .i32⟩
  | 57 => ⟨S_, .i32⟩
  | 58 => ⟨S1, .i32⟩
  | 59 => ⟨S2, .i32⟩
  | 60 => ⟨S3x3x4x128x2x128, .f32⟩
  | 61 => ⟨S3x3x1x128x128, .f32⟩
  | 62 => ⟨S3x3x128x128, .f32⟩
  | 63 => ⟨S_, .i32⟩
  | 64 => ⟨S1, .i32⟩
  | 65 => ⟨S_, .i32⟩
  | 66 => ⟨S1, .i32⟩
  | 67 => ⟨S2, .i32⟩
  | 68 => ⟨S3x3x4x128x2x128, .f32⟩
  | 69 => ⟨S3x3x1x128x128, .f32⟩
  | 70 => ⟨S3x3x128x128, .f32⟩
  | 71 => ⟨S_, .i32⟩
  | 72 => ⟨S1, .i32⟩
  | 73 => ⟨S_, .i32⟩
  | 74 => ⟨S1, .i32⟩
  | 75 => ⟨S2, .i32⟩
  | 76 => ⟨S3x3x4x128x2x128, .f32⟩
  | 77 => ⟨S9x512x256, .f32⟩
  | 78 => ⟨S9x512x256, .bf16⟩
  | 79 => ⟨S256, .f32⟩
  | 80 => ⟨S1x256, .f32⟩
  | 81 => ⟨S_, .f32⟩
  | 82 => ⟨S128, .f32⟩
  | 83 => ⟨S128, .f32⟩
  | 84 => ⟨S128, .f32⟩
  | 85 => ⟨S128, .f32⟩
  | 86 => ⟨S128, .f32⟩
  | 87 => ⟨S128, .f32⟩
  | 88 => ⟨S128, .f32⟩
  | 89 => ⟨S128, .f32⟩
  | 90 => ⟨S128x1x1x1x1, .f32⟩
  | 91 => ⟨S128x128x3x3x3, .f32⟩
  | 92 => ⟨S128x128x3x3x3, .f32⟩
  | 93 => ⟨S3x3x3x128x128, .f32⟩
  | 94 => ⟨S_, .f32⟩
  | 95 => ⟨S3x3x4x128x2x128, .f32⟩
  | 96 => ⟨S3x3x1x128x128, .f32⟩
  | 97 => ⟨S3x3x128x128, .f32⟩
  | 98 => ⟨S_, .i32⟩
  | 99 => ⟨S1, .i32⟩
  | 100 => ⟨S_, .i32⟩
  | 101 => ⟨S1, .i32⟩
  | 102 => ⟨S2, .i32⟩
  | 103 => ⟨S3x3x4x128x2x128, .f32⟩
  | 104 => ⟨S3x3x1x128x128, .f32⟩
  | 105 => ⟨S3x3x128x128, .f32⟩
  | 106 => ⟨S_, .i32⟩
  | 107 => ⟨S1, .i32⟩
  | 108 => ⟨S_, .i32⟩
  | 109 => ⟨S1, .i32⟩
  | 110 => ⟨S2, .i32⟩
  | 111 => ⟨S3x3x4x128x2x128, .f32⟩
  | 112 => ⟨S3x3x1x128x128, .f32⟩
  | 113 => ⟨S3x3x128x128, .f32⟩
  | 114 => ⟨S_, .i32⟩
  | 115 => ⟨S1, .i32⟩
  | 116 => ⟨S_, .i32⟩
  | 117 => ⟨S1, .i32⟩
  | 118 => ⟨S2, .i32⟩
  | 119 => ⟨S3x3x4x128x2x128, .f32⟩
  | 120 => ⟨S3x3x1x128x128, .f32⟩
  | 121 => ⟨S3x3x128x128, .f32⟩
  | 122 => ⟨S_, .i32⟩
  | 123 => ⟨S1, .i32⟩
  | 124 => ⟨S_, .i32⟩
  | 125 => ⟨S1, .i32⟩
  | 126 => ⟨S2, .i32⟩
  | 127 => ⟨S3x3x4x128x2x128, .f32⟩
  | _ => ⟨S128x128x8x8x8, .f32⟩

abbrev hbmTy0_1 (i : Nat) : BufTy := match i % 128 with
  | 0 => ⟨S3x3x1x128x128, .f32⟩
  | 1 => ⟨S3x3x128x128, .f32⟩
  | 2 => ⟨S_, .i32⟩
  | 3 => ⟨S1, .i32⟩
  | 4 => ⟨S_, .i32⟩
  | 5 => ⟨S1, .i32⟩
  | 6 => ⟨S2, .i32⟩
  | 7 => ⟨S3x3x4x128x2x128, .f32⟩
  | 8 => ⟨S3x3x1x128x128, .f32⟩
  | 9 => ⟨S3x3x128x128, .f32⟩
  | 10 => ⟨S_, .i32⟩
  | 11 => ⟨S1, .i32⟩
  | 12 => ⟨S_, .i32⟩
  | 13 => ⟨S1, .i32⟩
  | 14 => ⟨S2, .i32⟩
  | 15 => ⟨S3x3x4x128x2x128, .f32⟩
  | 16 => ⟨S9x512x256, .f32⟩
  | 17 => ⟨S9x512x256, .bf16⟩
  | 18 => ⟨S256, .f32⟩
  | 19 => ⟨S1x256, .f32⟩
  | 20 => ⟨S128x8x8x8x128, .f32⟩
  | 21 => ⟨S128x128x8x8x8, .f32⟩
  | _ => ⟨S128x128x8x8x8, .f32⟩

abbrev hbmTy (i : Nat) : BufTy := match i / 128 with
  | 0 => hbmTy0_0 i
  | 1 => hbmTy0_1 i
  | _ => ⟨S128x128x8x8x8, .f32⟩

abbrev bufTy : (tb : Table) → Fin (tcTables nBuf tb) → BufTy
  | .hbm, ⟨i, _⟩ => hbmTy i
  | .local _ .vmem, ⟨0, _⟩ => ⟨S8x8x8x8x128, .f32⟩
  | .local _ .vmem, ⟨1, _⟩ => ⟨S8x8x8x8x128, .f32⟩
  | .local _ .vmem, ⟨2, _⟩ => ⟨S9x512x256, .bf16⟩
  | .local _ .vmem, ⟨3, _⟩ => ⟨S1x256, .f32⟩
  | .local _ .vmem, ⟨4, _⟩ => ⟨S9x512x256, .bf16⟩
  | .local _ .vmem, ⟨5, _⟩ => ⟨S1x256, .f32⟩
  | .local _ .vmem, ⟨6, _⟩ => ⟨S8x8x8x8x128, .f32⟩
  | .local _ .vmem, ⟨7, _⟩ => ⟨S8x8x8x8x128, .f32⟩
  | .local _ .vmem, ⟨8, _⟩ => ⟨S10x10x8x512, .bf16⟩
  | .local _ .vmem, ⟨9, _⟩ => ⟨S10x10x8x512, .bf16⟩
  | .local _ .vmem, ⟨10, _⟩ => ⟨S10x10x8x512, .bf16⟩
  | .local _ .vmem, ⟨11, _⟩ => ⟨S10x10x8x512, .bf16⟩
  | .local _ .vmem, ⟨12, _⟩ => ⟨S10x10x8x512, .bf16⟩
  | .local _ .vmem, ⟨13, _⟩ => ⟨S10x10x8x512, .bf16⟩
  | .local _ .vmem, ⟨14, _⟩ => ⟨S10x10x8x512, .bf16⟩
  | .local _ .vmem, ⟨15, _⟩ => ⟨S10x10x8x512, .bf16⟩
  | _, _ => ⟨S128x128x8x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_c_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_c_20 : Ref sig .tc := ⟨.hbm, 122, rfl⟩
abbrev main_v87 : Ref sig .tc := ⟨.hbm, 123, rfl⟩
abbrev main_c_21 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_22 : Ref sig .tc := ⟨.hbm, 130, rfl⟩
abbrev main_v93 : Ref sig .tc := ⟨.hbm, 131, rfl⟩
abbrev main_c_23 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_24 : Ref sig .tc := ⟨.hbm, 138, rfl⟩
abbrev main_v99 : Ref sig .tc := ⟨.hbm, 139, rfl⟩
abbrev main_c_25 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

abbrev stage0_0 : Fin 2 → Memref sig .tc .vmem S8x8x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S9x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x8x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S128x128x8x8x8_S128x8x8x8x128_0_2_3_4_1 : S128x128x8x8x8.Transposes [0, 2, 3, 4, 1] S128x8x8x8x128
  bcast_S_S128 : S_.BroadcastsInDim S128 (![] : Fin 0 → Fin S128.rank)
  bcast_S128_S128x1x1x1x1_0 : S128.BroadcastsInDim S128x1x1x1x1 (![0] : Fin 1 → Fin S128x1x1x1x1.rank)
  bcast_S128x1x1x1x1_S128x128x3x3x3_0_1_2_3_4 : S128x1x1x1x1.BroadcastsInDim S128x128x3x3x3 (![0, 1, 2, 3, 4] : Fin 5 → Fin S128x128x3x3x3.rank)
  transposes_S128x128x3x3x3_S3x3x3x128x128_2_3_4_1_0 : S128x128x3x3x3.Transposes [2, 3, 4, 1, 0] S3x3x3x128x128
  bcast_S_S3x3x4x128x2x128 : S_.BroadcastsInDim S3x3x4x128x2x128 (![] : Fin 0 → Fin S3x3x4x128x2x128.rank)
  slices_S3x3x3x128x128_S3x3x1x128x128_0_0_0_0_0 : S3x3x3x128x128.Slices ![0, 0, 0, 0, 0] S3x3x1x128x128
  shapeCasts_S3x3x1x128x128_S3x3x128x128 : S3x3x1x128x128.ShapeCasts S3x3x128x128
  bcast_S_S1 : S_.BroadcastsInDim S1 (![] : Fin 0 → Fin S1.rank)
  concatenates_S1_S1_S2_d0 : Shape.Concatenates [S1, S1] S2 0
  slices_S3x3x3x128x128_S3x3x1x128x128_0_0_1_0_0 : S3x3x3x128x128.Slices ![0, 0, 1, 0, 0] S3x3x1x128x128
  slices_S3x3x3x128x128_S3x3x1x128x128_0_0_2_0_0 : S3x3x3x128x128.Slices ![0, 0, 2, 0, 0] S3x3x1x128x128
  shapeCasts_S3x3x4x128x2x128_S9x512x256 : S3x3x4x128x2x128.ShapeCasts S9x512x256
  bitsLt_bf16_f32 : FTy.bits .bf16 < FTy.bits .f32
  concatenates_S128_S128_S256_d0 : Shape.Concatenates [S128, S128] S256 0
  shapeCasts_S256_S1x256 : S256.ShapeCasts S1x256
  inb_S10x10x8x512_S1x10x8x512_0_0_0_0 : ∀ a, (![0, 0, 0, 0] : Fin 4 → Nat) a + S1x10x8x512.size a ≤ S10x10x8x512.size a
  h_S1x10x8x512 : 0 < S1x10x8x512.numel
  shapeCasts_S1x10x8x512_S1x10x8x512 : S1x10x8x512.ShapeCasts S1x10x8x512
  packedbf16_S10x10x8x512_S1x10x8x512_0_0_0_0 : (Rect.unit (s := S10x10x8x512) ![0, 0, 0, 0] S1x10x8x512.size inb_S10x10x8x512_S1x10x8x512_0_0_0_0).PackedRows (EltTy.packing .bf16)
  inb_S10x10x8x512_S1x10x8x512_9_0_0_0 : ∀ a, (![9, 0, 0, 0] : Fin 4 → Nat) a + S1x10x8x512.size a ≤ S10x10x8x512.size a
  packedbf16_S10x10x8x512_S1x10x8x512_9_0_0_0 : (Rect.unit (s := S10x10x8x512) ![9, 0, 0, 0] S1x10x8x512.size inb_S10x10x8x512_S1x10x8x512_9_0_0_0).PackedRows (EltTy.packing .bf16)
  inb_S10x10x8x512_S8x1x8x512_1_0_0_0 : ∀ a, (![1, 0, 0, 0] : Fin 4 → Nat) a + S8x1x8x512.size a ≤ S10x10x8x512.size a
  h_S8x1x8x512 : 0 < S8x1x8x512.numel
  shapeCasts_S8x1x8x512_S8x1x8x512 : S8x1x8x512.ShapeCasts S8x1x8x512
  packedbf16_S10x10x8x512_S8x1x8x512_1_0_0_0 : (Rect.unit (s := S10x10x8x512) ![1, 0, 0, 0] S8x1x8x512.size inb_S10x10x8x512_S8x1x8x512_1_0_0_0).PackedRows (EltTy.packing .bf16)
  inb_S10x10x8x512_S8x1x8x512_1_9_0_0 : ∀ a, (![1, 9, 0, 0] : Fin 4 → Nat) a + S8x1x8x512.size a ≤ S10x10x8x512.size a
  packedbf16_S10x10x8x512_S8x1x8x512_1_9_0_0 : (Rect.unit (s := S10x10x8x512) ![1, 9, 0, 0] S8x1x8x512.size inb_S10x10x8x512_S8x1x8x512_1_9_0_0).PackedRows (EltTy.packing .bf16)
  inb_S10x10x8x512_S8x8x2x128_1_1_0_0 : ∀ a, (![1, 1, 0, 0] : Fin 4 → Nat) a + S8x8x2x128.size a ≤ S10x10x8x512.size a
  h_S8x8x2x128 : 0 < S8x8x2x128.numel
  shapeCasts_S8x8x2x128_S8x8x2x128 : S8x8x2x128.ShapeCasts S8x8x2x128
  packedbf16_S10x10x8x512_S8x8x2x128_1_1_0_0 : (Rect.unit (s := S10x10x8x512) ![1, 1, 0, 0] S8x8x2x128.size inb_S10x10x8x512_S8x8x2x128_1_1_0_0).PackedRows (EltTy.packing .bf16)
  inb_S10x10x8x512_S8x8x2x128_1_1_6_384 : ∀ a, (![1, 1, 6, 384] : Fin 4 → Nat) a + S8x8x2x128.size a ≤ S10x10x8x512.size a
  packedbf16_S10x10x8x512_S8x8x2x128_1_1_6_384 : (Rect.unit (s := S10x10x8x512) ![1, 1, 6, 384] S8x8x2x128.size inb_S10x10x8x512_S8x8x2x128_1_1_6_384).PackedRows (EltTy.packing .bf16)
  inb_S8x8x8x8x128_S2x8x8x8x128_0_0_0_0_0 : ∀ a, (![0, 0, 0, 0, 0] : Fin 5 → Nat) a + S2x8x8x8x128.size a ≤ S8x8x8x8x128.size a
  h_S2x8x8x8x128 : 0 < S2x8x8x8x128.numel
  shapeCasts_S2x8x8x8x128_S2x8x8x8x128 : S2x8x8x8x128.ShapeCasts S2x8x8x8x128
  slices_S2x8x8x8x128_o0_0_0_1_0_S2x8x8x4x128 : S2x8x8x8x128.Slices ![0, 0, 0, 1, 0] S2x8x8x4x128
  shapeCasts_S2x8x8x4x128_S2x8x8x512 : S2x8x8x4x128.ShapeCasts S2x8x8x512
  transposes_S2x8x8x512_p1_2_0_3_S8x8x2x512 : S2x8x8x512.Transposes [1, 2, 0, 3] S8x8x2x512
  inb_S10x10x8x512_S8x8x2x512_1_1_2_0 : ∀ a, (![1, 1, 2, 0] : Fin 4 → Nat) a + S8x8x2x512.size a ≤ S10x10x8x512.size a
  h_S8x8x2x512 : 0 < S8x8x2x512.numel
  shapeCasts_S8x8x2x512_S8x8x2x512 : S8x8x2x512.ShapeCasts S8x8x2x512
  packedbf16_S10x10x8x512_S8x8x2x512_1_1_2_0 : (Rect.unit (s := S10x10x8x512) ![1, 1, 2, 0] S8x8x2x512.size inb_S10x10x8x512_S8x8x2x512_1_1_2_0).PackedRows (EltTy.packing .bf16)
  slices_S2x8x8x8x128_o0_0_0_3_0_S2x8x8x4x128 : S2x8x8x8x128.Slices ![0, 0, 0, 3, 0] S2x8x8x4x128
  inb_S10x10x8x512_S8x8x2x512_1_1_4_0 : ∀ a, (![1, 1, 4, 0] : Fin 4 → Nat) a + S8x8x2x512.size a ≤ S10x10x8x512.size a
  packedbf16_S10x10x8x512_S8x8x2x512_1_1_4_0 : (Rect.unit (s := S10x10x8x512) ![1, 1, 4, 0] S8x8x2x512.size inb_S10x10x8x512_S8x8x2x512_1_1_4_0).PackedRows (EltTy.packing .bf16)
  slices_S2x8x8x8x128_o0_0_0_0_0_S2x8x8x3x128 : S2x8x8x8x128.Slices ![0, 0, 0, 0, 0] S2x8x8x3x128
  shapeCasts_S2x8x8x3x128_S2x8x8x384 : S2x8x8x3x128.ShapeCasts S2x8x8x384
  transposes_S2x8x8x384_p1_2_0_3_S8x8x2x384 : S2x8x8x384.Transposes [1, 2, 0, 3] S8x8x2x384
  inb_S10x10x8x512_S8x8x2x384_1_1_0_128 : ∀ a, (![1, 1, 0, 128] : Fin 4 → Nat) a + S8x8x2x384.size a ≤ S10x10x8x512.size a
  h_S8x8x2x384 : 0 < S8x8x2x384.numel
  shapeCasts_S8x8x2x384_S8x8x2x384 : S8x8x2x384.ShapeCasts S8x8x2x384
  packedbf16_S10x10x8x512_S8x8x2x384_1_1_0_128 : (Rect.unit (s := S10x10x8x512) ![1, 1, 0, 128] S8x8x2x384.size inb_S10x10x8x512_S8x8x2x384_1_1_0_128).PackedRows (EltTy.packing .bf16)
  slices_S2x8x8x8x128_o0_0_0_5_0_S2x8x8x3x128 : S2x8x8x8x128.Slices ![0, 0, 0, 5, 0] S2x8x8x3x128
  inb_S10x10x8x512_S8x8x2x384_1_1_6_0 : ∀ a, (![1, 1, 6, 0] : Fin 4 → Nat) a + S8x8x2x384.size a ≤ S10x10x8x512.size a
  packedbf16_S10x10x8x512_S8x8x2x384_1_1_6_0 : (Rect.unit (s := S10x10x8x512) ![1, 1, 6, 0] S8x8x2x384.size inb_S10x10x8x512_S8x8x2x384_1_1_6_0).PackedRows (EltTy.packing .bf16)
  inb_S8x8x8x8x128_S2x8x8x8x128_2_0_0_0_0 : ∀ a, (![2, 0, 0, 0, 0] : Fin 5 → Nat) a + S2x8x8x8x128.size a ≤ S8x8x8x8x128.size a
  inb_S8x8x8x8x128_S2x8x8x8x128_4_0_0_0_0 : ∀ a, (![4, 0, 0, 0, 0] : Fin 5 → Nat) a + S2x8x8x8x128.size a ≤ S8x8x8x8x128.size a
  inb_S8x8x8x8x128_S2x8x8x8x128_6_0_0_0_0 : ∀ a, (![6, 0, 0, 0, 0] : Fin 5 → Nat) a + S2x8x8x8x128.size a ≤ S8x8x8x8x128.size a
  inb_S10x10x8x512_S8x8x8x512_0_0_0_0 : ∀ a, (![0, 0, 0, 0] : Fin 4 → Nat) a + S8x8x8x512.size a ≤ S10x10x8x512.size a
  h_S8x8x8x512 : 0 < S8x8x8x512.numel
  shapeCasts_S8x8x8x512_S512x512 : S8x8x8x512.ShapeCasts S512x512
  inb_S9x512x256_S1x512x256_0_0_0 : ∀ a, (![0, 0, 0] : Fin 3 → Nat) a + S1x512x256.size a ≤ S9x512x256.size a
  h_S1x512x256 : 0 < S1x512x256.numel
  shapeCasts_S1x512x256_S512x256 : S1x512x256.ShapeCasts S512x256
  inb_S10x10x8x512_S8x8x8x512_0_1_0_0 : ∀ a, (![0, 1, 0, 0] : Fin 4 → Nat) a + S8x8x8x512.size a ≤ S10x10x8x512.size a
  inb_S9x512x256_S1x512x256_1_0_0 : ∀ a, (![1, 0, 0] : Fin 3 → Nat) a + S1x512x256.size a ≤ S9x512x256.size a
  inb_S10x10x8x512_S8x8x8x512_0_2_0_0 : ∀ a, (![0, 2, 0, 0] : Fin 4 → Nat) a + S8x8x8x512.size a ≤ S10x10x8x512.size a
  inb_S9x512x256_S1x512x256_2_0_0 : ∀ a, (![2, 0, 0] : Fin 3 → Nat) a + S1x512x256.size a ≤ S9x512x256.size a
  inb_S10x10x8x512_S8x8x8x512_1_0_0_0 : ∀ a, (![1, 0, 0, 0] : Fin 4 → Nat) a + S8x8x8x512.size a ≤ S10x10x8x512.size a
  inb_S9x512x256_S1x512x256_3_0_0 : ∀ a, (![3, 0, 0] : Fin 3 → Nat) a + S1x512x256.size a ≤ S9x512x256.size a
  inb_S10x10x8x512_S8x8x8x512_1_1_0_0 : ∀ a, (![1, 1, 0, 0] : Fin 4 → Nat) a + S8x8x8x512.size a ≤ S10x10x8x512.size a
  inb_S9x512x256_S1x512x256_4_0_0 : ∀ a, (![4, 0, 0] : Fin 3 → Nat) a + S1x512x256.size a ≤ S9x512x256.size a
  inb_S10x10x8x512_S8x8x8x512_1_2_0_0 : ∀ a, (![1, 2, 0, 0] : Fin 4 → Nat) a + S8x8x8x512.size a ≤ S10x10x8x512.size a
  inb_S9x512x256_S1x512x256_5_0_0 : ∀ a, (![5, 0, 0] : Fin 3 → Nat) a + S1x512x256.size a ≤ S9x512x256.size a
  inb_S10x10x8x512_S8x8x8x512_2_0_0_0 : ∀ a, (![2, 0, 0, 0] : Fin 4 → Nat) a + S8x8x8x512.size a ≤ S10x10x8x512.size a
  inb_S9x512x256_S1x512x256_6_0_0 : ∀ a, (![6, 0, 0] : Fin 3 → Nat) a + S1x512x256.size a ≤ S9x512x256.size a
  inb_S10x10x8x512_S8x8x8x512_2_1_0_0 : ∀ a, (![2, 1, 0, 0] : Fin 4 → Nat) a + S8x8x8x512.size a ≤ S10x10x8x512.size a
  inb_S9x512x256_S1x512x256_7_0_0 : ∀ a, (![7, 0, 0] : Fin 3 → Nat) a + S1x512x256.size a ≤ S9x512x256.size a
  inb_S10x10x8x512_S8x8x8x512_2_2_0_0 : ∀ a, (![2, 2, 0, 0] : Fin 4 → Nat) a + S8x8x8x512.size a ≤ S10x10x8x512.size a
  inb_S9x512x256_S1x512x256_8_0_0 : ∀ a, (![8, 0, 0] : Fin 3 → Nat) a + S1x512x256.size a ≤ S9x512x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S512x256_S8x8x8x256 : S512x256.ShapeCasts S8x8x8x256
  inb_S10x10x8x512_S8x8x8x256_1_1_0_128 : ∀ a, (![1, 1, 0, 128] : Fin 4 → Nat) a + S8x8x8x256.size a ≤ S10x10x8x512.size a
  h_S8x8x8x256 : 0 < S8x8x8x256.numel
  shapeCasts_S8x8x8x256_S8x8x8x256 : S8x8x8x256.ShapeCasts S8x8x8x256
  packedbf16_S10x10x8x512_S8x8x8x256_1_1_0_128 : (Rect.unit (s := S10x10x8x512) ![1, 1, 0, 128] S8x8x8x256.size inb_S10x10x8x512_S8x8x8x256_1_1_0_128).PackedRows (EltTy.packing .bf16)
  shapeCasts_S8x8x8x256_S8x8x8x2x128 : S8x8x8x256.ShapeCasts S8x8x8x2x128
  slices_S8x8x8x2x128_o0_0_2_0_0_S8x8x6x1x128 : S8x8x8x2x128.Slices ![0, 0, 2, 0, 0] S8x8x6x1x128
  shapeCasts_S8x8x6x1x128_S8x8x6x128 : S8x8x6x1x128.ShapeCasts S8x8x6x128
  inb_S10x10x8x512_S8x8x6x128_1_1_0_384 : ∀ a, (![1, 1, 0, 384] : Fin 4 → Nat) a + S8x8x6x128.size a ≤ S10x10x8x512.size a
  h_S8x8x6x128 : 0 < S8x8x6x128.numel
  shapeCasts_S8x8x6x128_S8x8x6x128 : S8x8x6x128.ShapeCasts S8x8x6x128
  packedbf16_S10x10x8x512_S8x8x6x128_1_1_0_384 : (Rect.unit (s := S10x10x8x512) ![1, 1, 0, 384] S8x8x6x128.size inb_S10x10x8x512_S8x8x6x128_1_1_0_384).PackedRows (EltTy.packing .bf16)
  slices_S8x8x8x2x128_o0_0_0_1_0_S8x8x6x1x128 : S8x8x8x2x128.Slices ![0, 0, 0, 1, 0] S8x8x6x1x128
  inb_S10x10x8x512_S8x8x6x128_1_1_2_0 : ∀ a, (![1, 1, 2, 0] : Fin 4 → Nat) a + S8x8x6x128.size a ≤ S10x10x8x512.size a
  packedbf16_S10x10x8x512_S8x8x6x128_1_1_2_0 : (Rect.unit (s := S10x10x8x512) ![1, 1, 2, 0] S8x8x6x128.size inb_S10x10x8x512_S8x8x6x128_1_1_2_0).PackedRows (EltTy.packing .bf16)
  shapeCasts_S512x256_S8x8x4x2x2x128 : S512x256.ShapeCasts S8x8x4x2x2x128
  slices_S8x8x4x2x2x128_o0_0_0_0_0_0_S8x8x4x1x2x128 : S8x8x4x2x2x128.Slices ![0, 0, 0, 0, 0, 0] S8x8x4x1x2x128
  shapeCasts_S8x8x4x1x2x128_S8x8x4x2x128 : S8x8x4x1x2x128.ShapeCasts S8x8x4x2x128
  shapeCasts_S8x8x4x2x128_S8x8x8x128 : S8x8x4x2x128.ShapeCasts S8x8x8x128
  inb_S8x8x8x8x128_S1x8x8x8x128_0_0_0_0_0 : ∀ a, (![0, 0, 0, 0, 0] : Fin 5 → Nat) a + S1x8x8x8x128.size a ≤ S8x8x8x8x128.size a
  h_S1x8x8x8x128 : 0 < S1x8x8x8x128.numel
  shapeCasts_S1x8x8x8x128_S8x8x8x128 : S1x8x8x8x128.ShapeCasts S8x8x8x128
  shapeCasts_S8x8x8x128_S1x8x8x8x128 : S8x8x8x128.ShapeCasts S1x8x8x8x128
  slices_S8x8x4x2x2x128_o0_0_0_1_0_0_S8x8x4x1x2x128 : S8x8x4x2x2x128.Slices ![0, 0, 0, 1, 0, 0] S8x8x4x1x2x128
  inb_S8x8x8x8x128_S1x8x8x8x128_1_0_0_0_0 : ∀ a, (![1, 0, 0, 0, 0] : Fin 5 → Nat) a + S1x8x8x8x128.size a ≤ S8x8x8x8x128.size a
  inb_S8x8x8x8x128_S1x8x8x8x128_2_0_0_0_0 : ∀ a, (![2, 0, 0, 0, 0] : Fin 5 → Nat) a + S1x8x8x8x128.size a ≤ S8x8x8x8x128.size a
  inb_S8x8x8x8x128_S1x8x8x8x128_3_0_0_0_0 : ∀ a, (![3, 0, 0, 0, 0] : Fin 5 → Nat) a + S1x8x8x8x128.size a ≤ S8x8x8x8x128.size a
  inb_S8x8x8x8x128_S1x8x8x8x128_4_0_0_0_0 : ∀ a, (![4, 0, 0, 0, 0] : Fin 5 → Nat) a + S1x8x8x8x128.size a ≤ S8x8x8x8x128.size a
  inb_S8x8x8x8x128_S1x8x8x8x128_5_0_0_0_0 : ∀ a, (![5, 0, 0, 0, 0] : Fin 5 → Nat) a + S1x8x8x8x128.size a ≤ S8x8x8x8x128.size a
  inb_S8x8x8x8x128_S1x8x8x8x128_6_0_0_0_0 : ∀ a, (![6, 0, 0, 0, 0] : Fin 5 → Nat) a + S1x8x8x8x128.size a ≤ S8x8x8x8x128.size a
  inb_S8x8x8x8x128_S1x8x8x8x128_7_0_0_0_0 : ∀ a, (![7, 0, 0, 0, 0] : Fin 5 → Nat) a + S1x8x8x8x128.size a ≤ S8x8x8x8x128.size a
  transposes_S128x8x8x8x128_S128x128x8x8x8_0_4_1_2_3 : S128x8x8x8x128.Transposes [0, 4, 1, 2, 3] S128x128x8x8x8
  scatter_S3x3x4x128x2x128_S2_S3x3x128x128_0123_24_24_0_wf : ScatterDims.WF S3x3x4x128x2x128 S2 S3x3x128x128 [0, 1, 2, 3] [2, 4] [2, 4] 0
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x8x8x128.size a ≤ S128x8x8x8x128.size a
  hwx0_0 : ∀ i : grid0.Coords, EltTy.bits .f32 = 32 ∨ (Rect.block (s := S128x8x8x8x128) S8x8x8x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x512x256.size a ≤ S9x512x256.size a
  hwx0_1 : ∀ i : grid0.Coords, EltTy.bits .bf16 = 32 ∨ (Rect.block (s := S9x512x256) S9x512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x512x256.size a ≤ S9x512x256.size a
  hwx0_3 : ∀ i : grid0.Coords, EltTy.bits .bf16 = 32 ∨ (Rect.block (s := S9x512x256) S9x512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x8x8x8x128.size a ≤ S128x8x8x8x128.size a
  hwx0_5 : ∀ i : grid0.Coords, EltTy.bits .f32 = 32 ∨ (Rect.block (s := S128x8x8x8x128) S8x8x8x8x128.size (cc0_transform_5 i) (hinb0_5 i)).WholeWords (EltTy.packing .f32)

variable [Facts₀]

def scatter_S3x3x4x128x2x128_S2_S3x3x128x128_0123_24_24_0 : ScatterDims S3x3x4x128x2x128 S2 S3x3x128x128 where
  updateWindowDims := [0, 1, 2, 3]
  insertedWindowDims := [2, 4]
  scatterDimsToOperandDims := [2, 4]
  indexVectorDim := 0
  wf := scatter_S3x3x4x128x2x128_S2_S3x3x128x128_0123_24_24_0_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v0) S8x8x8x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S9x512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v104) S9x512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v106) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v107) S8x8x8x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x128x8x8x8 : Shape := ⟨5, ![128, 128, 8, 8, 8]⟩
abbrev S128x128x3x3x3 : Shape := ⟨5, ![128, 128, 3, 3, 3]⟩
abbrev S128 : Shape := ⟨1, ![128]⟩
abbrev S128x8x8x8x128 : Shape := ⟨5, ![128, 8, 8, 8, 128]⟩
abbrev S_ : Shape := ⟨0, ![]⟩
abbrev S128x1x1x1x1 : Shape := ⟨5, ![128, 1, 1, 1, 1]⟩
abbrev S3x3x3x128x128 : Shape := ⟨5, ![3, 3, 3, 128, 128]⟩
abbrev S9x384x128 : Shape := ⟨3, ![9, 384, 128]⟩
abbrev S1x128 : Shape := ⟨2, ![1, 128]⟩
abbrev S1x8x8x8x128 : Shape := ⟨5, ![1, 8, 8, 8, 128]⟩
abbrev S10x10x8x384 : Shape := ⟨4, ![10, 10, 8, 384]⟩
abbrev S1x10x8x384 : Shape := ⟨4, ![1, 10, 8, 384]⟩
abbrev S8x1x8x384 : Shape := ⟨4, ![8, 1, 8, 384]⟩
abbrev S8x8x1x128 : Shape := ⟨4, ![8, 8, 1, 128]⟩
abbrev S8x8x2x128 : Shape := ⟨4, ![8, 8, 2, 128]⟩
abbrev S8x8x8x128 : Shape := ⟨4, ![8, 8, 8, 128]⟩
abbrev S8x8x7x128 : Shape := ⟨4, ![8, 8, 7, 128]⟩
abbrev S256x128 : Shape := ⟨2, ![256, 128]⟩
abbrev S4x8x8x384 : Shape := ⟨4, ![4, 8, 8, 384]⟩
abbrev S256x384 : Shape := ⟨2, ![256, 384]⟩
abbrev S1x384x128 : Shape := ⟨3, ![1, 384, 128]⟩
abbrev S384x128 : Shape := ⟨2, ![384, 128]⟩
abbrev S4x8x8x128 : Shape := ⟨4, ![4, 8, 8, 128]⟩
abbrev S4x8x7x128 : Shape := ⟨4, ![4, 8, 7, 128]⟩
abbrev S1x4x8x8x128 : Shape := ⟨5, ![1, 4, 8, 8, 128]⟩

abbrev nBuf : Space → Nat
  | .hbm => 60
  | .vmem => 10
  | .smem => 0
  | _ => 0

abbrev bufTy : (tb : Table) → Fin (tcTables nBuf tb) → BufTy
  | .hbm, ⟨0, _⟩ => ⟨S128x128x8x8x8, .f32⟩
  | .hbm, ⟨1, _⟩ => ⟨S128x128x3x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128x3x3x3, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x8x8x8x128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128x1x1x1x1, .f32⟩
  | .hbm, ⟨33, _⟩ => ⟨S128x128x3x3x3, .f32⟩
  | .hbm, ⟨34, _⟩ => ⟨S128x128x3x3x3, .f32⟩
  | .hbm, ⟨35, _⟩ => ⟨S3x3x3x128x128, .f32⟩
  | .hbm, ⟨36, _⟩ => ⟨S_, .i32⟩
  | .hbm, ⟨37, _⟩ => ⟨S_, .f32⟩
  | .hbm, ⟨38, _⟩ => ⟨S3x3x3x128x128, .f32⟩
  | .hbm, ⟨39, _⟩ => ⟨S9x384x128, .f32⟩
  | .hbm, ⟨40, _⟩ => ⟨S9x384x128, .bf16⟩
  | .hbm, ⟨41, _⟩ => ⟨S128x1x1x1x1, .f32⟩
  | .hbm, ⟨42, _⟩ => ⟨S128x128x3x3x3, .f32⟩
  | .hbm, ⟨43, _⟩ => ⟨S128x128x3x3x3, .f32⟩
  | .hbm, ⟨44, _⟩ => ⟨S3x3x3x128x128, .f32⟩
  | .hbm, ⟨45, _⟩ => ⟨S_, .i32⟩
  | .hbm, ⟨46, _⟩ => ⟨S_, .f32⟩
  | .hbm, ⟨47, _⟩ => ⟨S3x3x3x128x128, .f32⟩
  | .hbm, ⟨48, _⟩ => ⟨S9x384x128, .f32⟩
  | .hbm, ⟨49, _⟩ => ⟨S9x384x128, .bf16⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S128x8x8x8x128, .f32⟩
  | .hbm, ⟨59, _⟩ => ⟨S128x128x8x8x8, .f32⟩
  | .local _ .vmem, ⟨0, _⟩ => ⟨S1x8x8x8x128, .f32⟩
  | .local _ .vmem, ⟨1, _⟩ => ⟨S1x8x8x8x128, .f32⟩
  | .local _ .vmem, ⟨2, _⟩ => ⟨S9x384x128, .bf16⟩
  | .local _ .vmem, ⟨3, _⟩ => ⟨S1x128, .f32⟩
  | .local _ .vmem, ⟨4, _⟩ => ⟨S9x384x128, .bf16⟩
  | .local _ .vmem, ⟨5, _⟩ => ⟨S1x128, .f32⟩
  | .local _ .vmem, ⟨6, _⟩ => ⟨S1x8x8x8x128, .f32⟩
  | .local _ .vmem, ⟨7, _⟩ => ⟨S1x8x8x8x128, .f32⟩
  | .local _ .vmem, ⟨8, _⟩ => ⟨S10x10x8x384, .bf16⟩
  | .local _ .vmem, ⟨9, _⟩ => ⟨S10x10x8x384, .bf16⟩
  | _, _ => ⟨S128x128x8x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_call0_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_2 : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_c_3 : Ref sig .tc := ⟨.hbm, 54, rfl⟩
abbrev main_call3_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c2_i32 : BitVec 32 := 2#32
  let v61 : BitVec 32 := Scalar.addi c0_i32 c2_i32
  let c1_i32 : BitVec 32 := 1#32
  ⟨c0_i32, v61, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  v63
def k0_off1 (k0_t1 : Fin k0_t1_loop.trips) (c0_i32_71 : BitVec 32) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let v66 : BitVec 32 := Scalar.addi v64 c0_i32_71
  let v67 : Index := Scalar.indexCast v66
  let c0_72 : Index := 0#32
  let c0_73 : Index := 0#32
  let c0_74 : Index := 0#32
  ![v67.toNat, 0, 0, 0]
def k0_off2 (k0_t1 : Fin k0_t1_loop.trips) (c0_i32_79 : BitVec 32) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let v74 : BitVec 32 := Scalar.addi v64 c0_i32_79
  let v75 : Index := Scalar.indexCast v74
  let c1_80 : Index := 1#32
  let c0_81 : Index := 0#32
  let c0_82 : Index := 0#32
  ![v75.toNat, 1, 0, 0]
def k0_off3 (k0_t1 : Fin k0_t1_loop.trips) (c0_i32_87 : BitVec 32) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let v82 : BitVec 32 := Scalar.addi v64 c0_i32_87
  let v83 : Index := Scalar.indexCast v82
  let c2 : Index := 2#32
  let c0_88 : Index := 0#32
  let c0_89 : Index := 0#32
  ![v83.toNat, 2, 0, 0]
def k0_off4 (k0_t1 : Fin k0_t1_loop.trips) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let c1_i32_139 : BitVec 32 := 1#32
  let v146 : BitVec 32 := Scalar.addi v64 c1_i32_139
  let v147 : Index := Scalar.indexCast v146
  let c1_140 : Index := 1#32
  let c0_141 : Index := 0#32
  let c128_142 : Index := 128#32
  ![v147.toNat, 1, 0, 128]
def k0_off5 (k0_t1 : Fin k0_t1_loop.trips) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let c1_i32_143 : BitVec 32 := 1#32
  let v152 : BitVec 32 := Scalar.addi v64 c1_i32_143
  let v153 : Index := Scalar.indexCast v152
  let c1_144 : Index := 1#32
  let c1_145 : Index := 1#32
  let c0_146 : Index := 0#32
  ![v153.toNat, 1, 1, 0]
def k0_off6 (k0_t1 : Fin k0_t1_loop.trips) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let c1_i32_143 : BitVec 32 := 1#32
  let v152 : BitVec 32 := Scalar.addi v64 c1_i32_143
  let v153 : Index := Scalar.indexCast v152
  let c1_144 : Index := 1#32
  let c0_146 : Index := 0#32
  ![v153.toNat, 1, 0, 0]
def k0_off7 (k0_t1 : Fin k0_t1_loop.trips) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let c1_i32_147 : BitVec 32 := 1#32
  let v158 : BitVec 32 := Scalar.addi v64 c1_i32_147
  let v159 : Index := Scalar.indexCast v158
  let c1_148 : Index := 1#32
  let c0_149 : Index := 0#32
  let c256_150 : Index := 256#32
  ![v159.toNat, 1, 0, 256]
def k0_off8 (k0_t1 : Fin k0_t1_loop.trips) : Fin 4 → Nat :=
  let c0_i32 : BitVec 32 := 0#32
  let c1_i32 : BitVec 32 := 1#32
  let arg9 : BitVec 32 := Scf.iv c0_i32 c1_i32 k0_t1
  let c4_i32 : BitVec 32 := 4#32
  let v63 : BitVec 32 := Scalar.muli arg9 c4_i32
  let v64 : BitVec 32 := v63
  let c1_i32_147 : BitVec 32 := 1#32
  let v158 : BitVec 32 := Scalar.addi v64 c1_i32_147
  let v159 : Index := Scalar.indexCast v158
  let c1_148 : Index := 1#32
  let c0_149 : Index := 0#32
  let c256_150 : Index := 256#32
  ![v159.toNat, 1, 0, 256]
@[reducible] def k0_t2_loop : Scf.Loop 32 :=
  let c0_i32_66 : BitVec 32 := 0#32
  let c2_i32_67 : BitVec 32 := 2#32
  let v62 : BitVec 32 := Scalar.addi c0_i32_66 c2_i32_67
  let c1_i32_68 : BitVec 32 := 1#32
  ⟨c0_i32_66, v62, c1_i32_68⟩
def k0_mult2 (k0_t2 : Fin k0_t2_loop.trips) : BitVec 32 :=
  let c0_i32_66 : BitVec 32 := 0#32
  let c1_i32_68 : BitVec 32 := 1#32
  let arg9 : BitVec 32 := Scf.iv c0_i32_66 c1_i32_68 k0_t2
  let c4_i32 : BitVec 32 := 4#32
  let v63 : BitVec 32 := Scalar.muli arg9 c4_i32
  v63
def k0_off9 (k0_t2 : Fin k0_t2_loop.trips) (c0_i32_71 : BitVec 32) : Fin 4 → Nat :=
  let c0_i32_66 : BitVec 32 := 0#32
  let c1_i32_68 : BitVec 32 := 1#32
  let arg9 : BitVec 32 := Scf.iv c0_i32_66 c1_i32_68 k0_t2
  let c4_i32 : BitVec 32 := 4#32
  let v63 : BitVec 32 := Scalar.muli arg9 c4_i32
  let v64 : BitVec 32 := v63
  let v66 : BitVec 32 := Scalar.addi v64 c0_i32_71
  let v67 : Index := Scalar.indexCast v66
  let c0_72 : Index := 0#32
  let c0_73 : Index := 0#32
  let c0_74 : Index := 0#32
  ![v67.toNat, 0, 0, 0]
def k0_off10 (k0_t2 : Fin k0_t2_loop.trips) (c0_i32_79 : BitVec 32) : Fin 4 → Nat :=
  let c0_i32_66 : BitVec 32 := 0#32
  let c1_i32_68 : BitVec 32 := 1#32
  let arg9 : BitVec 32 := Scf.iv c0_i32_66 c1_i32_68 k0_t2
  let c4_i32 : BitVec 32 := 4#32
  let v63 : BitVec 32 := Scalar.muli arg9 c4_i32
  let v64 : BitVec 32 := v63
  let v74 : BitVec 32 := Scalar.addi v64 c0_i32_79
  let v75 : Index := Scalar.indexCast v74
  let c1_80 : Index := 1#32
  let c0_81 : Index := 0#32
  let c0_82 : Index := 0#32
  ![v75.toNat, 1, 0, 0]
def k0_off11 (k0_t2 : Fin k0_t2_loop.trips) (c0_i32_87 : BitVec 32) : Fin 4 → Nat :=
  let c0_i32_66 : BitVec 32 := 0#32
  let c1_i32_68 : BitVec 32 := 1#32
  let arg9 : BitVec 32 := Scf.iv c0_i32_66 c1_i32_68 k0_t2
  let c4_i32 : BitVec 32 := 4#32
  let v63 : BitVec 32 := Scalar.muli arg9 c4_i32
  let v64 : BitVec 32 := v63
  let v82 : BitVec 32 := Scalar.addi v64 c0_i32_87
  let v83 : Index := Scalar.indexCast v82
  let c2 : Index := 2#32
  let c0_88 : Index := 0#32
  let c0_89 : Index := 0#32
  ![v83.toNat, 2, 0, 0]
def k0_off12 (k0_t2 : Fin k0_t2_loop.trips) : Fin 5 → Nat :=
  let c0_137 : Index := 0#32
  let c0_i32_66 : BitVec 32 := 0#32
  let c1_i32_68 : BitVec 32 := 1#32
  let arg9 : BitVec 32 := Scf.iv c0_i32_66 c1_i32_68 k0_t2
  let c4_i32 : BitVec 32 := 4#32
  let v63 : BitVec 32 := Scalar.muli arg9 c4_i32
  let v64 : BitVec 32 := v63
  let v139 : Index := Scalar.indexCast v64
  let c0_138 : Index := 0#32
  let c0_139 : Index := 0#32
  let c0_140 : Index := 0#32
  ![0, v139.toNat, 0, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x8x8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x128x8x8x8_S128x8x8x8x128_0_2_3_4_1 : S128x128x8x8x8.Transposes [0, 2, 3, 4, 1] S128x8x8x8x128
  bcast_S_S128 : S_.BroadcastsInDim S128 (![] : Fin 0 → Fin S128.rank)
  bcast_S128_S128x1x1x1x1_0 : S128.BroadcastsInDim S128x1x1x1x1 (![0] : Fin 1 → Fin S128x1x1x1x1.rank)
  bcast_S128x1x1x1x1_S128x128x3x3x3_0_1_2_3_4 : S128x1x1x1x1.BroadcastsInDim S128x128x3x3x3 (![0, 1, 2, 3, 4] : Fin 5 → Fin S128x128x3x3x3.rank)
  transposes_S128x128x3x3x3_S3x3x3x128x128_2_3_4_1_0 : S128x128x3x3x3.Transposes [2, 3, 4, 1, 0] S3x3x3x128x128
  pads_S3x3x3x128x128_S3x3x3x128x128_000_000_000_000_000 : S3x3x3x128x128.Pads (![0, 0, 0, 0, 0] : Fin 5 → Nat) ![0, 0, 0, 0, 0] ![0, 0, 0, 0, 0] S3x3x3x128x128
  h_S_ : 0 < S_.numel
  shapeCasts_S3x3x3x128x128_S9x384x128 : S3x3x3x128x128.ShapeCasts S9x384x128
  bitsLt_bf16_f32 : FTy.bits .bf16 < FTy.bits .f32
  pads_S128_S128_000 : S128.Pads (![0] : Fin 1 → Nat) ![0] ![0] S128
  shapeCasts_S128_S1x128 : S128.ShapeCasts S1x128
  inb_S10x10x8x384_S1x10x8x384_0_0_0_0 : ∀ a, (![0, 0, 0, 0] : Fin 4 → Nat) a + S1x10x8x384.size a ≤ S10x10x8x384.size a
  h_S1x10x8x384 : 0 < S1x10x8x384.numel
  shapeCasts_S1x10x8x384_S1x10x8x384 : S1x10x8x384.ShapeCasts S1x10x8x384
  packedbf16_S10x10x8x384_S1x10x8x384_0_0_0_0 : (Rect.unit (s := S10x10x8x384) ![0, 0, 0, 0] S1x10x8x384.size inb_S10x10x8x384_S1x10x8x384_0_0_0_0).PackedRows (EltTy.packing .bf16)
  inb_S10x10x8x384_S1x10x8x384_9_0_0_0 : ∀ a, (![9, 0, 0, 0] : Fin 4 → Nat) a + S1x10x8x384.size a ≤ S10x10x8x384.size a
  packedbf16_S10x10x8x384_S1x10x8x384_9_0_0_0 : (Rect.unit (s := S10x10x8x384) ![9, 0, 0, 0] S1x10x8x384.size inb_S10x10x8x384_S1x10x8x384_9_0_0_0).PackedRows (EltTy.packing .bf16)
  inb_S10x10x8x384_S8x1x8x384_1_0_0_0 : ∀ a, (![1, 0, 0, 0] : Fin 4 → Nat) a + S8x1x8x384.size a ≤ S10x10x8x384.size a
  h_S8x1x8x384 : 0 < S8x1x8x384.numel
  shapeCasts_S8x1x8x384_S8x1x8x384 : S8x1x8x384.ShapeCasts S8x1x8x384
  packedbf16_S10x10x8x384_S8x1x8x384_1_0_0_0 : (Rect.unit (s := S10x10x8x384) ![1, 0, 0, 0] S8x1x8x384.size inb_S10x10x8x384_S8x1x8x384_1_0_0_0).PackedRows (EltTy.packing .bf16)
  inb_S10x10x8x384_S8x1x8x384_1_9_0_0 : ∀ a, (![1, 9, 0, 0] : Fin 4 → Nat) a + S8x1x8x384.size a ≤ S10x10x8x384.size a
  packedbf16_S10x10x8x384_S8x1x8x384_1_9_0_0 : (Rect.unit (s := S10x10x8x384) ![1, 9, 0, 0] S8x1x8x384.size inb_S10x10x8x384_S8x1x8x384_1_9_0_0).PackedRows (EltTy.packing .bf16)
  inb_S10x10x8x384_S8x8x1x128_1_1_0_0 : ∀ a, (![1, 1, 0, 0] : Fin 4 → Nat) a + S8x8x1x128.size a ≤ S10x10x8x384.size a
  h_S8x8x1x128 : 0 < S8x8x1x128.numel
  shapeCasts_S8x8x1x128_S8x8x1x128 : S8x8x1x128.ShapeCasts S8x8x1x128
  inb_S10x10x8x384_S8x8x2x128_1_1_0_0 : ∀ a, (![1, 1, 0, 0] : Fin 4 → Nat) a + S8x8x2x128.size a ≤ S10x10x8x384.size a
  h_S8x8x2x128 : 0 < S8x8x2x128.numel
  slices_S8x8x2x128_S8x8x1x128_0_0_0_0 : S8x8x2x128.Slices ![0, 0, 0, 0] S8x8x1x128
  packedbf16_S10x10x8x384_S8x8x2x128_1_1_0_0 : (Rect.unit (s := S10x10x8x384) ![1, 1, 0, 0] S8x8x2x128.size inb_S10x10x8x384_S8x8x2x128_1_1_0_0).PackedRows (EltTy.packing .bf16)
  inb_S10x10x8x384_S8x8x1x128_1_1_7_256 : ∀ a, (![1, 1, 7, 256] : Fin 4 → Nat) a + S8x8x1x128.size a ≤ S10x10x8x384.size a
  inb_S10x10x8x384_S8x8x2x128_1_1_6_256 : ∀ a, (![1, 1, 6, 256] : Fin 4 → Nat) a + S8x8x2x128.size a ≤ S10x10x8x384.size a
  slices_S8x8x2x128_S8x8x1x128_0_0_1_0 : S8x8x2x128.Slices ![0, 0, 1, 0] S8x8x1x128
  packedbf16_S10x10x8x384_S8x8x2x128_1_1_6_256 : (Rect.unit (s := S10x10x8x384) ![1, 1, 6, 256] S8x8x2x128.size inb_S10x10x8x384_S8x8x2x128_1_1_6_256).PackedRows (EltTy.packing .bf16)
  inb_S1x8x8x8x128_S1x8x8x8x128_0_0_0_0_0 : ∀ a, (![0, 0, 0, 0, 0] : Fin 5 → Nat) a + S1x8x8x8x128.size a ≤ S1x8x8x8x128.size a
  h_S1x8x8x8x128 : 0 < S1x8x8x8x128.numel
  shapeCasts_S1x8x8x8x128_S8x8x8x128 : S1x8x8x8x128.ShapeCasts S8x8x8x128
  inb_S10x10x8x384_S8x8x8x128_1_1_0_128 : ∀ a, (![1, 1, 0, 128] : Fin 4 → Nat) a + S8x8x8x128.size a ≤ S10x10x8x384.size a
  h_S8x8x8x128 : 0 < S8x8x8x128.numel
  shapeCasts_S8x8x8x128_S8x8x8x128 : S8x8x8x128.ShapeCasts S8x8x8x128
  packedbf16_S10x10x8x384_S8x8x8x128_1_1_0_128 : (Rect.unit (s := S10x10x8x384) ![1, 1, 0, 128] S8x8x8x128.size inb_S10x10x8x384_S8x8x8x128_1_1_0_128).PackedRows (EltTy.packing .bf16)
  slices_S8x8x8x128_o0_0_0_0_S8x8x7x128 : S8x8x8x128.Slices ![0, 0, 0, 0] S8x8x7x128
  inb_S10x10x8x384_S8x8x7x128_1_1_1_0 : ∀ a, (![1, 1, 1, 0] : Fin 4 → Nat) a + S8x8x7x128.size a ≤ S10x10x8x384.size a
  h_S8x8x7x128 : 0 < S8x8x7x128.numel
  shapeCasts_S8x8x7x128_S8x8x7x128 : S8x8x7x128.ShapeCasts S8x8x7x128
  inb_S10x10x8x384_S8x8x8x128_1_1_0_0 : ∀ a, (![1, 1, 0, 0] : Fin 4 → Nat) a + S8x8x8x128.size a ≤ S10x10x8x384.size a
  slices_S8x8x8x128_S8x8x7x128_0_0_1_0 : S8x8x8x128.Slices ![0, 0, 1, 0] S8x8x7x128
  packedbf16_S10x10x8x384_S8x8x8x128_1_1_0_0 : (Rect.unit (s := S10x10x8x384) ![1, 1, 0, 0] S8x8x8x128.size inb_S10x10x8x384_S8x8x8x128_1_1_0_0).PackedRows (EltTy.packing .bf16)
  slices_S8x8x8x128_o0_0_1_0_S8x8x7x128 : S8x8x8x128.Slices ![0, 0, 1, 0] S8x8x7x128
  inb_S10x10x8x384_S8x8x7x128_1_1_0_256 : ∀ a, (![1, 1, 0, 256] : Fin 4 → Nat) a + S8x8x7x128.size a ≤ S10x10x8x384.size a
  inb_S10x10x8x384_S8x8x8x128_1_1_0_256 : ∀ a, (![1, 1, 0, 256] : Fin 4 → Nat) a + S8x8x8x128.size a ≤ S10x10x8x384.size a
  slices_S8x8x8x128_S8x8x7x128_0_0_0_0 : S8x8x8x128.Slices ![0, 0, 0, 0] S8x8x7x128
  packedbf16_S10x10x8x384_S8x8x8x128_1_1_0_256 : (Rect.unit (s := S10x10x8x384) ![1, 1, 0, 256] S8x8x8x128.size inb_S10x10x8x384_S8x8x8x128_1_1_0_256).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  h_S4x8x8x384 : 0 < S4x8x8x384.numel
  shapeCasts_S4x8x8x384_S256x384 : S4x8x8x384.ShapeCasts S256x384
  inb_S9x384x128_S1x384x128_0_0_0 : ∀ a, (![0, 0, 0] : Fin 3 → Nat) a + S1x384x128.size a ≤ S9x384x128.size a
  h_S1x384x128 : 0 < S1x384x128.numel
  shapeCasts_S1x384x128_S384x128 : S1x384x128.ShapeCasts S384x128
  inb_S9x384x128_S1x384x128_1_0_0 : ∀ a, (![1, 0, 0] : Fin 3 → Nat) a + S1x384x128.size a ≤ S9x384x128.size a
  inb_S9x384x128_S1x384x128_2_0_0 : ∀ a, (![2, 0, 0] : Fin 3 → Nat) a + S1x384x128.size a ≤ S9x384x128.size a
  inb_S9x384x128_S1x384x128_3_0_0 : ∀ a, (![3, 0, 0] : Fin 3 → Nat) a + S1x384x128.size a ≤ S9x384x128.size a
  inb_S9x384x128_S1x384x128_4_0_0 : ∀ a, (![4, 0, 0] : Fin 3 → Nat) a + S1x384x128.size a ≤ S9x384x128.size a
  inb_S9x384x128_S1x384x128_5_0_0 : ∀ a, (![5, 0, 0] : Fin 3 → Nat) a + S1x384x128.size a ≤ S9x384x128.size a
  inb_S9x384x128_S1x384x128_6_0_0 : ∀ a, (![6, 0, 0] : Fin 3 → Nat) a + S1x384x128.size a ≤ S9x384x128.size a
  inb_S9x384x128_S1x384x128_7_0_0 : ∀ a, (![7, 0, 0] : Fin 3 → Nat) a + S1x384x128.size a ≤ S9x384x128.size a
  inb_S9x384x128_S1x384x128_8_0_0 : ∀ a, (![8, 0, 0] : Fin 3 → Nat) a + S1x384x128.size a ≤ S9x384x128.size a
  shapeCasts_S256x128_S4x8x8x128 : S256x128.ShapeCasts S4x8x8x128
  h_S4x8x8x128 : 0 < S4x8x8x128.numel
  shapeCasts_S4x8x8x128_S4x8x8x128 : S4x8x8x128.ShapeCasts S4x8x8x128
  slices_S4x8x8x128_o0_0_0_0_S4x8x7x128 : S4x8x8x128.Slices ![0, 0, 0, 0] S4x8x7x128
  h_S4x8x7x128 : 0 < S4x8x7x128.numel
  shapeCasts_S4x8x7x128_S4x8x7x128 : S4x8x7x128.ShapeCasts S4x8x7x128
  slices_S4x8x8x128_S4x8x7x128_0_0_1_0 : S4x8x8x128.Slices ![0, 0, 1, 0] S4x8x7x128
  slices_S4x8x8x128_o0_0_1_0_S4x8x7x128 : S4x8x8x128.Slices ![0, 0, 1, 0] S4x8x7x128
  slices_S4x8x8x128_S4x8x7x128_0_0_0_0 : S4x8x8x128.Slices ![0, 0, 0, 0] S4x8x7x128
  h_S1x4x8x8x128 : 0 < S1x4x8x8x128.numel
  shapeCasts_S1x4x8x8x128_S4x8x8x128 : S1x4x8x8x128.ShapeCasts S4x8x8x128
  shapeCasts_S4x8x8x128_S256x128 : S4x8x8x128.ShapeCasts S256x128
  shapeCasts_S4x8x8x128_S1x4x8x8x128 : S4x8x8x128.ShapeCasts S1x4x8x8x128
  transposes_S128x8x8x8x128_S128x128x8x8x8_0_4_1_2_3 : S128x8x8x8x128.Transposes [0, 4, 1, 2, 3] S128x128x8x8x8
  dot_S256x384_S384x128_S256x128_1_0_0_1_n_n_wf : DotDims.WF S256x384 S384x128 S256x128 [1] [0] [0] [1] [] []
  hrank0 : 0 < grid0.rank
  k0_t1_ok : k0_t1_loop.OK
  k0_mult1_dvd : ∀ k0_t1 : Fin k0_t1_loop.trips, 4 ∣ (k0_mult1 k0_t1).toNat
  k0_off1_inb : ∀ k0_t1 : Fin k0_t1_loop.trips, ∀ (r : Fin 3), ∀ a, (k0_off1 k0_t1 (BitVec.ofNat 32 r.val)) a + S4x8x8x384.size a ≤ S10x10x8x384.size a
  k0_off2_inb : ∀ k0_t1 : Fin k0_t1_loop.trips, ∀ (r : Fin 3), ∀ a, (k0_off2 k0_t1 (BitVec.ofNat 32 r.val)) a + S4x8x8x384.size a ≤ S10x10x8x384.size a
  k0_off3_inb : ∀ k0_t1 : Fin k0_t1_loop.trips, ∀ (r : Fin 3), ∀ a, (k0_off3 k0_t1 (BitVec.ofNat 32 r.val)) a + S4x8x8x384.size a ≤ S10x10x8x384.size a
  k0_off4_inb : ∀ k0_t1 : Fin k0_t1_loop.trips, ∀ a, (k0_off4 k0_t1) a + S4x8x8x128.size a ≤ S10x10x8x384.size a
  k0_off4_packedbf16 : ∀ k0_t1 : Fin k0_t1_loop.trips, (Rect.unit (s := S10x10x8x384) (k0_off4 k0_t1) S4x8x8x128.size (k0_off4_inb k0_t1)).PackedRows (EltTy.packing .bf16)
  k0_off5_inb : ∀ k0_t1 : Fin k0_t1_loop.trips, ∀ a, (k0_off5 k0_t1) a + S4x8x7x128.size a ≤ S10x10x8x384.size a
  k0_off6_inb : ∀ k0_t1 : Fin k0_t1_loop.trips, ∀ a, (k0_off6 k0_t1) a + S4x8x8x128.size a ≤ S10x10x8x384.size a
  k0_off6_packedbf16 : ∀ k0_t1 : Fin k0_t1_loop.trips, (Rect.unit (s := S10x10x8x384) (k0_off6 k0_t1) S4x8x8x128.size (k0_off6_inb k0_t1)).PackedRows (EltTy.packing .bf16)
  k0_off7_inb : ∀ k0_t1 : Fin k0_t1_loop.trips, ∀ a, (k0_off7 k0_t1) a + S4x8x7x128.size a ≤ S10x10x8x384.size a
  k0_off8_inb : ∀ k0_t1 : Fin k0_t1_loop.trips, ∀ a, (k0_off8 k0_t1) a + S4x8x8x128.size a ≤ S10x10x8x384.size a
  k0_off8_packedbf16 : ∀ k0_t1 : Fin k0_t1_loop.trips, (Rect.unit (s := S10x10x8x384) (k0_off8 k0_t1) S4x8x8x128.size (k0_off8_inb k0_t1)).PackedRows (EltTy.packing .bf16)
  k0_t2_ok : k0_t2_loop.OK
  k0_mult2_dvd : ∀ k0_t2 : Fin k0_t2_loop.trips, 4 ∣ (k0_mult2 k0_t2).toNat
  k0_off9_inb : ∀ k0_t2 : Fin k0_t2_loop.trips, ∀ (r : Fin 3), ∀ a, (k0_off9 k0_t2 (BitVec.ofNat 32 r.val)) a + S4x8x8x384.size a ≤ S10x10x8x384.size a
  k0_off10_inb : ∀ k0_t2 : Fin k0_t2_loop.trips, ∀ (r : Fin 3), ∀ a, (k0_off10 k0_t2 (BitVec.ofNat 32 r.val)) a + S4x8x8x384.size a ≤ S10x10x8x384.size a
  k0_off11_inb : ∀ k0_t2 : Fin k0_t2_loop.trips, ∀ (r : Fin 3), ∀ a, (k0_off11 k0_t2 (BitVec.ofNat 32 r.val)) a + S4x8x8x384.size a ≤ S10x10x8x384.size a
  k0_off12_inb : ∀ k0_t2 : Fin k0_t2_loop.trips, ∀ a, (k0_off12 k0_t2) a + S1x4x8x8x128.size a ≤ S1x8x8x8x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x8x8x128.size a ≤ S128x8x8x8x128.size a
  hwx0_0 : ∀ i : grid0.Coords, EltTy.bits .f32 = 32 ∨ (Rect.block (s := S128x8x8x8x128) S1x8x8x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x384x128.size a ≤ S9x384x128.size a
  hwx0_1 : ∀ i : grid0.Coords, EltTy.bits .bf16 = 32 ∨ (Rect.block (s := S9x384x128) S9x384x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x384x128.size a ≤ S9x384x128.size a
  hwx0_3 : ∀ i : grid0.Coords, EltTy.bits .bf16 = 32 ∨ (Rect.block (s := S9x384x128) S9x384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x8x8x128.size a ≤ S128x8x8x8x128.size a
  hwx0_5 : ∀ i : grid0.Coords, EltTy.bits .f32 = 32 ∨ (Rect.block (s := S128x8x8x8x128) S1x8x8x8x128.size (cc0_transform_5 i) (hinb0_5 i)).WholeWords (EltTy.packing .f32)

variable [Facts₀]

def dot_S256x384_S384x128_S256x128_1_0_0_1_n_n : DotDims S256x384 S384x128 S256x128 where
  lhsContracting := [1]
  rhsContracting := [0]
  lhsNonContracting := [0]
  rhsNonContracting := [1]
  lhsBatch := []
  rhsBatch := []
  wf := dot_S256x384_S384x128_S256x128_1_0_0_1_n_n_wf

abbrev win0_0 : Pipeline.Window sig grid0 :=
  Pipeline.Window.ofSpec (Memref.whole main_v0) S1x8x8x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S9x384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S9x384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x8x8x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/- The residual block as plain arithmetic on the extended reals: the padded volume, the convolution, the shift, the rectifier. -/
import Idealize.ShloMosaic.PureOps.Ideal
import Idealize.ShloMosaic.Lib.ValueIdx

noncomputable section

open scoped BigOperators
open Idealize.ShloMosaic Idealize.ShloMosaic.ValueIdx

namespace Cert.Spec

abbrev SX : Shape := ⟨5, ![128, 128, 8, 8, 8]⟩
abbrev SN : Shape := ⟨5, ![128, 8, 8, 8, 128]⟩
abbrev SW : Shape := ⟨5, ![128, 128, 3, 3, 3]⟩
abbrev SC : Shape := ⟨1, ![128]⟩

def pred8 (a : Nat) : Fin 8 := ⟨(a + 7) % 8, Nat.mod_lt _ (by norm_num)⟩

def eps : EReal := Ideal.ofBits .f32 0x3727C5AC#32
def slope : EReal := Ideal.ofBits .f32 0x3E99999A#32

def scaleK (g v : SC.Idx → EReal) : SC.Idx → EReal := fun i => g i * Ideal.rsqrt (v i + eps)
def scaleR (g v : SC.Idx → EReal) : SC.Idx → EReal := fun i => Ideal.div (g i) (Ideal.sqrt (v i + eps))
def shift (s b be mu : SC.Idx → EReal) : SC.Idx → EReal := fun i => b i * s i + be i - mu i * s i

def leakyK (v : EReal) : EReal := max v (slope * v)
def leakyR (v : EReal) : EReal := if 0 ≤ v then v else slope * v

def xn (x : SX.Idx → EReal) : SN.Idx → EReal := fun j => x (ix5 (j 0) (j 4) (j 1) (j 2) (j 3))

def padded (a : Fin 8 → Fin 8 → Fin 8 → Fin 128 → EReal) (dd hh ww : Nat) (c : Fin 128) : EReal :=
  if 1 ≤ dd ∧ dd ≤ 8 ∧ 1 ≤ hh ∧ hh ≤ 8 ∧ 1 ≤ ww ∧ ww ≤ 8 then a (pred8 dd) (pred8 hh) (pred8 ww) c else 0

def wgt (w : SW.Idx → EReal) (s : SC.Idx → EReal) (kd kh kw : Fin 3) (ci co : Fin 128) : EReal :=
  w (ix5 co ci kd kh kw) * s (ix1 co)

def convR (a : Fin 8 → Fin 8 → Fin 8 → Fin 128 → EReal) (w : SW.Idx → EReal) (s : SC.Idx → EReal)
    (d h ww : Fin 8) (co : Fin 128) : EReal :=
  ∑ t : Fin 9, ∑ k : Fin 384,
    padded a (d.val + t.val / 3) (h.val + t.val % 3) (ww.val + k.val / 128) ⟨k.val % 128, Nat.mod_lt _ (by norm_num)⟩
      * wgt w s ⟨t.val / 3, by omega⟩ ⟨t.val % 3, Nat.mod_lt _ (by norm_num)⟩ ⟨k.val / 128, by omega⟩ ⟨k.val % 128, Nat.mod_lt _ (by norm_num)⟩ co

def blockR (leaky : EReal → EReal) (a : Fin 8 → Fin 8 → Fin 8 → Fin 128 → EReal)
    (w1 : SW.Idx → EReal) (s1 t1 : SC.Idx → EReal) (w2 : SW.Idx → EReal) (s2 t2 : SC.Idx → EReal)
    (d h ww : Fin 8) (co : Fin 128) : EReal :=
  leaky (convR (fun d' h' w' c' => leaky (convR a w1 s1 d' h' w' c' + t1 (ix1 c'))) w2 s2 d h ww co + t2 (ix1 co) + a d h ww co)

def resultR (x : SX.Idx → EReal) (w1 : SW.Idx → EReal) (b1 g1 be1 mu1 v1 : SC.Idx → EReal)
    (w2 : SW.Idx → EReal) (b2 g2 be2 mu2 v2 : SC.Idx → EReal) : SX.Idx → EReal := fun j =>
  blockR leakyR (fun d h ww c => xn x (ix5 (j 0) d h ww c)) w1 (scaleR g1 v1) (shift (scaleR g1 v1) b1 be1 mu1)
    w2 (scaleR g2 v2) (shift (scaleR g2 v2) b2 be2 mu2) (j 2) (j 3) (j 4) (j 1)

def band (w : SW.Idx → EReal) (s : SC.Idx → EReal) (t : Fin 9) (k : Fin 512) (col : Fin 256) : EReal :=
  if h : col.val / 128 ≤ k.val / 128 ∧ k.val / 128 ≤ col.val / 128 + 2 then
    wgt w s ⟨t.val / 3, by omega⟩ ⟨t.val % 3, Nat.mod_lt _ (by norm_num)⟩ ⟨k.val / 128 - col.val / 128, by omega⟩
      ⟨k.val % 128, Nat.mod_lt _ (by norm_num)⟩ ⟨col.val % 128, Nat.mod_lt _ (by norm_num)⟩
  else 0

def convK (a : Fin 8 → Fin 8 → Fin 8 → Fin 128 → EReal) (w : SW.Idx → EReal) (s : SC.Idx → EReal)
    (d h : Fin 8) (q : Fin 4) (col : Fin 256) : EReal :=
  ∑ t : Fin 9, ∑ k : Fin 512,
    padded a (d.val + t.val / 3) (h.val + t.val % 3) (2 * q.val + k.val / 128) ⟨k.val % 128, Nat.mod_lt _ (by norm_num)⟩
      * band w s t k col

def blockK (leaky : EReal → EReal) (a : Fin 8 → Fin 8 → Fin 8 → Fin 128 → EReal)
    (w1 : SW.Idx → EReal) (s1 t1 : SC.Idx → EReal) (w2 : SW.Idx → EReal) (s2 t2 : SC.Idx → EReal)
    (d h ww : Fin 8) (co : Fin 128) : EReal :=
  leaky (convK (fun d' h' w' c' => leaky (convK a w1 s1 d' h' ⟨w'.val / 2, by omega⟩ ⟨(w'.val % 2) * 128 + c'.val, by omega⟩ + t1 (ix1 c')))
      w2 s2 d h ⟨ww.val / 2, by omega⟩ ⟨(ww.val % 2) * 128 + co.val, by omega⟩ + t2 (ix1 co) + a d h ww co)

def resultK (x : SX.Idx → EReal) (w1 : SW.Idx → EReal) (b1 g1 be1 mu1 v1 : SC.Idx → EReal)
    (w2 : SW.Idx → EReal) (b2 g2 be2 mu2 v2 : SC.Idx → EReal) : SX.Idx → EReal := fun j =>
  blockK leakyK (fun d h ww c => xn x (ix5 (j 0) d h ww c)) w1 (scaleK g1 v1) (shift (scaleK g1 v1) b1 be1 mu1)
    w2 (scaleK g2 v2) (shift (scaleK g2 v2) b2 be2 mu2) (j 2) (j 3) (j 4) (j 1)

end Cert.Spec

end
-- ==== Proof.KSpec.lean ====
/- One grid point of the banded form, index by index: pairs of samples, window scratches, nine-tap rows. -/
import proofs.«102070_g2000507141466659_pallasbulk_1049_20_alg».proof.Proof.Spec

noncomputable section

open scoped BigOperators
open Idealize.ShloMosaic Idealize.ShloMosaic.ValueIdx

namespace Cert.KSpec

open Cert.Spec

abbrev SB : Shape := ⟨5, ![8, 8, 8, 8, 128]⟩
abbrev SScr : Shape := ⟨4, ![10, 10, 8, 512]⟩
abbrev SWt : Shape := ⟨3, ![9, 512, 256]⟩
abbrev ST : Shape := ⟨2, ![1, 256]⟩

abbrev Vol2 := Fin 2 → Fin 8 → Fin 8 → Fin 8 → Fin 128 → EReal

def xpair (x0 : SB.Idx → EReal) (p : Fin 4) : Vol2 :=
  fun s d h w c => x0 (ix5 (⟨2 * p.val + s.val, by omega⟩ : Fin 8) d h w c)

def window (a : Vol2) : SScr.Idx → EReal := fun j =>
  padded (a ⟨(j 2).val % 2, Nat.mod_lt _ (by norm_num)⟩) (j 0).val (j 1).val (2 * ((j 2).val / 2) + (j 3).val / 128)
    ⟨(j 3).val % 128, Nat.mod_lt _ (by norm_num)⟩

def convRow (A : SScr.Idx → EReal) (W : SWt.Idx → EReal) (d h r : Fin 8) (col : Fin 256) : EReal :=
  ∑ t : Fin 9, ∑ k : Fin 512,
    A (ix4 (⟨d.val + t.val / 3, by omega⟩ : Fin 10) (⟨h.val + t.val % 3, by omega⟩ : Fin 10) r k) * W (ix3 t k col)

def ypair (x0 : SB.Idx → EReal) (W1 : SWt.Idx → EReal) (T1 : ST.Idx → EReal) (p : Fin 4) : Vol2 :=
  fun s d h w c =>
    leakyK (convRow (window (xpair x0 p)) W1 d h ⟨2 * (w.val / 2) + s.val, by omega⟩ ⟨(w.val % 2) * 128 + c.val, by omega⟩
      + T1 (ix2 (0 : Fin 1) (⟨(w.val % 2) * 128 + c.val, by omega⟩ : Fin 256)))

def outAt (x0 : SB.Idx → EReal) (W1 : SWt.Idx → EReal) (T1 : ST.Idx → EReal) (W2 : SWt.Idx → EReal) (T2 : ST.Idx → EReal)
    (n d h w : Fin 8) (c : Fin 128) : EReal :=
  leakyK (convRow (window (ypair x0 W1 T1 ⟨n.val / 2, by omega⟩)) W2 d h
        ⟨2 * (w.val / 2) + n.val % 2, by omega⟩ ⟨(w.val % 2) * 128 + c.val, by omega⟩
      + T2 (ix2 (0 : Fin 1) (⟨(w.val % 2) * 128 + c.val, by omega⟩ : Fin 256))
      + x0 (ix5 n d h w c))

def OutB (x0 : SB.Idx → EReal) (W1 : SWt.Idx → EReal) (T1 : ST.Idx → EReal) (W2 : SWt.Idx → EReal) (T2 : ST.Idx → EReal) :
    SB.Idx → EReal := fun j => outAt x0 W1 T1 W2 T2 (j 0) (j 1) (j 2) (j 3) (j 4)

def HaloZero (f : SScr.Idx → EReal) : Prop :=
  ∀ j : SScr.Idx, ¬(1 ≤ (j 0).val ∧ (j 0).val ≤ 8 ∧ 1 ≤ (j 1).val ∧ (j 1).val ≤ 8
      ∧ 1 ≤ 2 * ((j 2).val / 2) + (j 3).val / 128 ∧ 2 * ((j 2).val / 2) + (j 3).val / 128 ≤ 8) → f j = 0

theorem window_haloZero (a : Vol2) : HaloZero (window a) := by
  intro j hj
  unfold window padded
  rw [if_neg hj]

end Cert.KSpec

end
-- ==== Proof.KPair0Ops.lean ====
/- One pair of samples of a grid point, operation by operation: the window build, the nine-tap rows, the write-back and the output piece, for any pair. -/
import proofs.«102070_g2000507141466659_pallasbulk_1049_20_alg».proof.Proof.Gen.KernelIdeal.Skeleton
import proofs.«102070_g2000507141466659_pallasbulk_1049_20_alg».proof.Proof.KSpec
import Idealize.ShloMosaic.Lib.Pipeline.Value
import Idealize.ShloMosaic.Lib.ValueIdx
import Idealize.ShloMosaic.Lib.ValueIdxRank6
import Idealize.ShloMosaic.PureOps.Ideal.Laws
import Idealize.ShloMosaic.Lib.Pipeline.Frame
import Idealize.ShloMosaic.Lib.Writes
import Idealize.ShloMosaic.Lib.Ring
import Idealize.ShloMosaic.Lib.Tactic

set_option maxRecDepth 65536

noncomputable section

open scoped BigOperators
open Idealize.ShloMosaic Idealize.ShloMosaic.ValueIdx Idealize.ShloMosaic.Tactic Idealize.SL.Sem

namespace Cert.KernelIdeal.Pair0Ops

open Cert.KernelIdeal Cert.KernelIdeal.Gen Cert.Spec Cert.KSpec

def row (d h r : Fin 8) : Fin 512 := ⟨64 * d.val + 8 * h.val + r.val, by omega⟩

theorem lhs_dot_0 (j : S512x256.Idx) (k : dot_S512x512_S512x256_S512x256_1_0_0_1_n_n.contr.Idx) :
    (dot_S512x512_S512x256_S512x256_1_0_0_1_n_n.lhsIdx j k 0).val = (j 0).val := by
  simp [DotDims.lhsIdx, dot_S512x512_S512x256_S512x256_1_0_0_1_n_n]; rfl

theorem lhs_dot_1 (j : S512x256.Idx) (k : dot_S512x512_S512x256_S512x256_1_0_0_1_n_n.contr.Idx) :
    (dot_S512x512_S512x256_S512x256_1_0_0_1_n_n.lhsIdx j k 1).val = (k ⟨0, by decide⟩).val :=
  dot_S512x512_S512x256_S512x256_1_0_0_1_n_n.lhsIdx_val_of_single (cl := 1) rfl j k

theorem rhs_dot_0 (j : S512x256.Idx) (k : dot_S512x512_S512x256_S512x256_1_0_0_1_n_n.contr.Idx) :
    (dot_S512x512_S512x256_S512x256_1_0_0_1_n_n.rhsIdx j k 0).val = (k ⟨0, by decide⟩).val :=
  dot_S512x512_S512x256_S512x256_1_0_0_1_n_n.rhsIdx_val_of_single (cr := 0) rfl j k

theorem rhs_dot_1 (j : S512x256.Idx) (k : dot_S512x512_S512x256_S512x256_1_0_0_1_n_n.contr.Idx) :
    (dot_S512x512_S512x256_S512x256_1_0_0_1_n_n.rhsIdx j k 1).val = (j 1).val := by
  simp [DotDims.rhsIdx, dot_S512x512_S512x256_S512x256_1_0_0_1_n_n]; rfl

theorem tap_apply (L : FVec Ideal S8x8x8x512 .bf16) (W : FVec Ideal S1x512x256 .bf16) (d h r : Fin 8) (col : Fin 256) :
    matmul (F := Ideal) dot_S512x512_S512x256_S512x256_1_0_0_1_n_n none
        (shapeCast S512x512 L shapeCasts_S8x8x8x512_S512x512)
        (shapeCast S512x256 W shapeCasts_S1x512x256_S512x256)
        (constant (F := Ideal) S512x256 .f32 0x00000000#32) (ix2 (row d h r) col)
      = ∑ k : Fin 512, L (ix4 d h r k) * W (ix3 (0 : Fin 1) k col) := by
  simp only [matmul]
  rw [Ideal.matmul_constant_zero_apply,
    ← Equiv.sum_comp (contrEquiv1 dot_S512x512_S512x256_S512x256_1_0_0_1_n_n 512 rfl rfl).symm]
  refine Finset.sum_congr rfl fun k _ => ?_
  have ck := contrEquiv1_symm_val dot_S512x512_S512x256_S512x256_1_0_0_1_n_n 512 rfl rfl k
  have hd := d.isLt; have hh := h.isLt; have hr := r.isLt; have hk := k.isLt; have hc := col.isLt
  congr 1
  · refine shapeCast_apply _ _ _ (ix4 d h r k) ?_
    rw [Shape.rowMajor_val_four, Shape.rowMajor_val_two, lhs_dot_0, lhs_dot_1, ck]
    show ((d.val * 8 + h.val) * 8 + r.val) * 512 + k.val = (64 * d.val + 8 * h.val + r.val) * 512 + k.val
    omega
  · refine shapeCast_apply _ _ _ (ix3 (0 : Fin 1) k col) ?_
    rw [Shape.rowMajor_val_three, Shape.rowMajor_val_two, rhs_dot_0, rhs_dot_1, ck]
    show ((0 : Nat) * 512 + k.val) * 256 + col.val = k.val * 256 + col.val
    omega

theorem pay53_apply (v3 : Vec Ideal S2x8x8x8x128 .f32) (j : S2x8x8x8x128.Idx) : k0_pay53 (F := Ideal) v3 j = v3 j := by
  unfold k0_pay53
  show shapeCast S2x8x8x8x128 v3 shapeCasts_S2x8x8x8x128_S2x8x8x8x128 j = v3 j
  rw [shapeCast_self]

theorem relay512 (off : Nat) (hoff : off + 4 ≤ 8) (hs : S2x8x8x8x128.Slices ![0, 0, 0, off, 0] S2x8x8x4x128)
    (v : FVec Ideal S2x8x8x8x128 .bf16) (d h : Fin 8) (s : Fin 2) (k : Fin 512) :
    shapeCast S8x8x2x512
        (transpose S8x8x2x512 [1, 2, 0, 3]
          (shapeCast S2x8x8x512 (extractStridedSlice S2x8x8x4x128 ![0, 0, 0, off, 0] v hs) shapeCasts_S2x8x8x4x128_S2x8x8x512)
          transposes_S2x8x8x512_p1_2_0_3_S8x8x2x512)
        shapeCasts_S8x8x2x512_S8x8x2x512 (ix4 d h s k)
      = v (ix5 s d h (⟨off + k.val / 128, by have := k.isLt; omega⟩ : Fin 8) (⟨k.val % 128, Nat.mod_lt _ (by norm_num)⟩ : Fin 128)) := by
  have hk := k.isLt
  rw [shapeCast_self]
  refine (transpose_apply _ _ _ _ (ix4 s d h k) (fun b => match b with | ⟨0, _⟩ => rfl | ⟨1, _⟩ => rfl | ⟨2, _⟩ => rfl | ⟨3, _⟩ => rfl)).trans ?_
  refine (shapeCast_apply _ _ _ (ix5 s d h (⟨k.val / 128, by omega⟩ : Fin 4) (⟨k.val % 128, Nat.mod_lt _ (by norm_num)⟩ : Fin 128)) ?_).trans ?_
  · rw [Shape.rowMajor_val_five, Shape.rowMajor_val_four]
    show (((s.val * 8 + d.val) * 8 + h.val) * 4 + k.val / 128) * 128 + k.val % 128 = ((s.val * 8 + d.val) * 8 + h.val) * 512 + k.val
    omega
  · refine extractStridedSlice_apply _ _ _ _ _ (fun a => match a with
      | ⟨0, _⟩ => by show s.val = 0 + s.val; omega
      | ⟨1, _⟩ => by show d.val = 0 + d.val; omega
      | ⟨2, _⟩ => by show h.val = 0 + h.val; omega
      | ⟨3, _⟩ => by show off + k.val / 128 = off + k.val / 128; rfl
      | ⟨4, _⟩ => by show k.val % 128 = 0 + k.val % 128; omega)

theorem relay384 (off : Nat) (hoff : off + 3 ≤ 8) (hs : S2x8x8x8x128.Slices ![0, 0, 0, off, 0] S2x8x8x3x128)
    (v : FVec Ideal S2x8x8x8x128 .bf16) (d h : Fin 8) (s : Fin 2) (k : Fin 384) :
    shapeCast S8x8x2x384
        (transpose S8x8x2x384 [1, 2, 0, 3]
          (shapeCast S2x8x8x384 (extractStridedSlice S2x8x8x3x128 ![0, 0, 0, off, 0] v hs) shapeCasts_S2x8x8x3x128_S2x8x8x384)
          transposes_S2x8x8x384_p1_2_0_3_S8x8x2x384)
        shapeCasts_S8x8x2x384_S8x8x2x384 (ix4 d h s k)
      = v (ix5 s d h (⟨off + k.val / 128, by have := k.isLt; omega⟩ : Fin 8) (⟨k.val % 128, Nat.mod_lt _ (by norm_num)⟩ : Fin 128)) := by
  have hk := k.isLt
  rw [shapeCast_self]
  refine (transpose_apply _ _ _ _ (ix4 s d h k) (fun b => match b with | ⟨0, _⟩ => rfl | ⟨1, _⟩ => rfl | ⟨2, _⟩ => rfl | ⟨3, _⟩ => rfl)).trans ?_
  refine (shapeCast_apply _ _ _ (ix5 s d h (⟨k.val / 128, by omega⟩ : Fin 3) (⟨k.val % 128, Nat.mod_lt _ (by norm_num)⟩ : Fin 128)) ?_).trans ?_
  · rw [Shape.rowMajor_val_five, Shape.rowMajor_val_four]
    show (((s.val * 8 + d.val) * 8 + h.val) * 3 + k.val / 128) * 128 + k.val % 128 = ((s.val * 8 + d.val) * 8 + h.val) * 384 + k.val
    omega
  · refine extractStridedSlice_apply _ _ _ _ _ (fun a => match a with
      | ⟨0, _⟩ => by show s.val = 0 + s.val; omega
      | ⟨1, _⟩ => by show d.val = 0 + d.val; omega
      | ⟨2, _⟩ => by show h.val = 0 + h.val; omega
      | ⟨3, _⟩ => by show off + k.val / 128 = off + k.val / 128; rfl
      | ⟨4, _⟩ => by show k.val % 128 = 0 + k.val % 128; omega)

theorem readAt_unread {S : Shape} {e : EltTy} (M : Memref sig .tc .vmem S e) (hM : M.IsWhole) (X : Vec Ideal S e)
    (r : LoadRect S) (j : r.shape.Idx) : View.readAt (Elt Ideal) M.view r (hM.unread X) j = X (r.idx j) := by
  rw [View.readAt_apply, hM.read_unread]

theorem window_in (a : Vol2) (j : SScr.Idx) (s : Fin 2) (d h w : Fin 8) (c : Fin 128)
    (h0 : (j 0).val = d.val + 1) (h1 : (j 1).val = h.val + 1) (h2 : (j 2).val % 2 = s.val)
    (hw : 2 * ((j 2).val / 2) + (j 3).val / 128 = w.val + 1) (hc : (j 3).val % 128 = c.val) : window a j = a s d h w c := by
  have hd := d.isLt; have hh := h.isLt; have hww := w.isLt
  unfold window padded
  rw [if_pos (by omega)]
  have e0 : (⟨(j 2).val % 2, Nat.mod_lt _ (by norm_num)⟩ : Fin 2) = s := Fin.ext h2
  have e1 : pred8 (j 0).val = d := Fin.ext (by show ((j 0).val + 7) % 8 = d.val; omega)
  have e2 : pred8 (j 1).val = h := Fin.ext (by show ((j 1).val + 7) % 8 = h.val; omega)
  have e3 : pred8 (2 * ((j 2).val / 2) + (j 3).val / 128) = w := Fin.ext (by show (2 * ((j 2).val / 2) + (j 3).val / 128 + 7) % 8 = w.val; omega)
  have e4 : (⟨(j 3).val % 128, Nat.mod_lt _ (by norm_num)⟩ : Fin 128) = c := Fin.ext hc
  rw [e0, e1, e2, e3, e4]

theorem window_out (a : Vol2) (j : SScr.Idx)
    (hj : ¬(1 ≤ (j 0).val ∧ (j 0).val ≤ 8 ∧ 1 ≤ (j 1).val ∧ (j 1).val ≤ 8
      ∧ 1 ≤ 2 * ((j 2).val / 2) + (j 3).val / 128 ∧ 2 * ((j 2).val / 2) + (j 3).val / 128 ≤ 8)) : window a j = 0 :=
  window_haloZero a j hj

section XW
variable (arg2 : Memref sig .tc .vmem S8x8x8x8x128 .f32) (harg2 : arg2.IsWhole) (x0 : Vec Ideal S8x8x8x8x128 .f32)
  (p : Fin 4) (o : Nat) (ho : o = 2 * p.val)
  (inb : ∀ a, (![o, 0, 0, 0, 0] : Fin 5 → Nat) a + S2x8x8x8x128.size a ≤ S8x8x8x8x128.size a)

abbrev xload : Vec Ideal S2x8x8x8x128 .f32 :=
  View.readAt (Elt Ideal) arg2.view (Rect.unit (s := S8x8x8x8x128) ![o, 0, 0, 0, 0] S2x8x8x8x128.size inb).toLoadRect (harg2.unread x0)

include ho

theorem xload_apply (s : Fin 2) (d h w : Fin 8) (c : Fin 128) :
    xload arg2 harg2 x0 o inb (ix5 s d h w c) = xpair x0 p s d h w c := by
  unfold xload
  rw [readAt_unread]
  show x0 _ = x0 _
  congr 1; funext a
  match a with
  | ⟨0, _⟩ => exact Fin.ext (by show o + 1 * s.val = 2 * p.val + s.val; omega)
  | ⟨1, _⟩ => exact Fin.ext (by show 0 + 1 * d.val = d.val; omega)
  | ⟨2, _⟩ => exact Fin.ext (by show 0 + 1 * h.val = h.val; omega)
  | ⟨3, _⟩ => exact Fin.ext (by show 0 + 1 * w.val = w.val; omega)
  | ⟨4, _⟩ => exact Fin.ext (by show 0 + 1 * c.val = c.val; omega)

theorem xw_piece54 (x : S8x8x2x512.Idx) :
    k0_pay54 (F := Ideal) (xload arg2 harg2 x0 o inb) x
      = window (xpair x0 p)
          ((Rect.unit (s := S10x10x8x512) ![1, 1, 2, 0] S8x8x2x512.size inb_S10x10x8x512_S8x8x2x512_1_1_2_0).emb x) := by
  obtain ⟨d, h, s, k, rfl⟩ : ∃ (d h : Fin 8) (s : Fin 2) (k : Fin 512), x = ix4 d h s k := ⟨x 0, x 1, x 2, x 3, eq_ix4 x⟩
  have hs := s.isLt; have hk := k.isLt
  unfold k0_pay54
  refine ((relay512 1 (by norm_num) _ _ d h s k).trans (pay53_apply _ _)).trans ?_
  rw [xload_apply arg2 harg2 x0 p o ho inb]
  refine (window_in _ _ s d h _ _ ?_ ?_ ?_ ?_ ?_).symm
  · show 1 + 1 * d.val = d.val + 1; omega
  · show 1 + 1 * h.val = h.val + 1; omega
  · show (2 + 1 * s.val) % 2 = s.val; omega
  · show 2 * ((2 + 1 * s.val) / 2) + (0 + 1 * k.val) / 128 = 1 + k.val / 128 + 1; omega
  · show (0 + 1 * k.val) % 128 = k.val % 128; omega

theorem xw_piece55 (x : S8x8x2x512.Idx) :
    k0_pay55 (F := Ideal) (xload arg2 harg2 x0 o inb) x
      = window (xpair x0 p)
          ((Rect.unit (s := S10x10x8x512) ![1, 1, 4, 0] S8x8x2x512.size inb_S10x10x8x512_S8x8x2x512_1_1_4_0).emb x) := by
  obtain ⟨d, h, s, k, rfl⟩ : ∃ (d h : Fin 8) (s : Fin 2) (k : Fin 512), x = ix4 d h s k := ⟨x 0, x 1, x 2, x 3, eq_ix4 x⟩
  have hs := s.isLt; have hk := k.isLt
  unfold k0_pay55
  refine ((relay512 3 (by norm_num) _ _ d h s k).trans (pay53_apply _ _)).trans ?_
  rw [xload_apply arg2 harg2 x0 p o ho inb]
  refine (window_in _ _ s d h _ _ ?_ ?_ ?_ ?_ ?_).symm
  · show 1 + 1 * d.val = d.val + 1; omega
  · show 1 + 1 * h.val = h.val + 1; omega
  · show (4 + 1 * s.val) % 2 = s.val; omega
  · show 2 * ((4 + 1 * s.val) / 2) + (0 + 1 * k.val) / 128 = 3 + k.val / 128 + 1; omega
  · show (0 + 1 * k.val) % 128 = k.val % 128; omega

theorem xw_piece56 (x : S8x8x2x384.Idx) :
    k0_pay56 (F := Ideal) (xload arg2 harg2 x0 o inb) x
      = window (xpair x0 p)
          ((Rect.unit (s := S10x10x8x512) ![1, 1, 0, 128] S8x8x2x384.size inb_S10x10x8x512_S8x8x2x384_1_1_0_128).emb x) := by
  obtain ⟨d, h, s, k, rfl⟩ : ∃ (d h : Fin 8) (s : Fin 2) (k : Fin 384), x = ix4 d h s k := ⟨x 0, x 1, x 2, x 3, eq_ix4 x⟩
  have hs := s.isLt; have hk := k.isLt
  unfold k0_pay56
  refine ((relay384 0 (by norm_num) _ _ d h s k).trans (pay53_apply _ _)).trans ?_
  rw [xload_apply arg2 harg2 x0 p o ho inb]
  refine (window_in _ _ s d h _ _ ?_ ?_ ?_ ?_ ?_).symm
  · show 1 + 1 * d.val = d.val + 1; omega
  · show 1 + 1 * h.val = h.val + 1; omega
  · show (0 + 1 * s.val) % 2 = s.val; omega
  · show 2 * ((0 + 1 * s.val) / 2) + (128 + 1 * k.val) / 128 = 0 + k.val / 128 + 1; omega
  · show (128 + 1 * k.val) % 128 = k.val % 128; omega

theorem xw_piece57 (x : S8x8x2x384.Idx) :
    k0_pay57 (F := Ideal) (xload arg2 harg2 x0 o inb) x
      = window (xpair x0 p)
          ((Rect.unit (s := S10x10x8x512) ![1, 1, 6, 0] S8x8x2x384.size inb_S10x10x8x512_S8x8x2x384_1_1_6_0).emb x) := by
  obtain ⟨d, h, s, k, rfl⟩ : ∃ (d h : Fin 8) (s : Fin 2) (k : Fin 384), x = ix4 d h s k := ⟨x 0, x 1, x 2, x 3, eq_ix4 x⟩
  have hs := s.isLt; have hk := k.isLt
  unfold k0_pay57
  refine ((relay384 5 (by norm_num) _ _ d h s k).trans (pay53_apply _ _)).trans ?_
  rw [xload_apply arg2 harg2 x0 p o ho inb]
  refine (window_in _ _ s d h _ _ ?_ ?_ ?_ ?_ ?_).symm
  · show 1 + 1 * d.val = d.val + 1; omega
  · show 1 + 1 * h.val = h.val + 1; omega
  · show (6 + 1 * s.val) % 2 = s.val; omega
  · show 2 * ((6 + 1 * s.val) / 2) + (0 + 1 * k.val) / 128 = 5 + k.val / 128 + 1; omega
  · show (0 + 1 * k.val) % 128 = k.val % 128; omega

end XW

theorem zero_bf16 : (Scalar.ofBits (F := Ideal) .bf16 0x0000#16 : EReal) = 0 := by
  show Ideal.ofBits .bf16 0x0000#16 = 0
  simp [Ideal.ofBits, Ideal.ieee]

theorem pay2_apply (x : S1x10x8x512.Idx) : k0_pay2 (F := Ideal) x = 0 := zero_bf16
theorem pay3_apply (x : S8x1x8x512.Idx) : k0_pay3 (F := Ideal) x = 0 := zero_bf16
theorem pay4_apply (x : S8x8x2x128.Idx) : k0_pay4 (F := Ideal) x = 0 := zero_bf16

theorem rim_depth (a : Vol2) (D : Nat) (hD : D = 0 ∨ D = 9) (inb) (x : S1x10x8x512.Idx) :
    (0 : EReal) = window a ((Rect.unit (s := S10x10x8x512) ![D, 0, 0, 0] S1x10x8x512.size inb).emb x) := by
  refine (window_out a _ ?_).symm
  have h0 : (x 0).val < 1 := (x 0).isLt
  intro hh
  have : ((Rect.unit (s := S10x10x8x512) ![D, 0, 0, 0] S1x10x8x512.size inb).emb x 0).val = D + 1 * (x 0).val := rfl
  omega

theorem rim_height (a : Vol2) (H : Nat) (hH : H = 0 ∨ H = 9) (inb) (x : S8x1x8x512.Idx) :
    (0 : EReal) = window a ((Rect.unit (s := S10x10x8x512) ![1, H, 0, 0] S8x1x8x512.size inb).emb x) := by
  refine (window_out a _ ?_).symm
  have h1 : (x 1).val < 1 := (x 1).isLt
  intro hh
  have : ((Rect.unit (s := S10x10x8x512) ![1, H, 0, 0] S8x1x8x512.size inb).emb x 1).val = H + 1 * (x 1).val := rfl
  omega

theorem rim_left (a : Vol2) (inb) (x : S8x8x2x128.Idx) :
    (0 : EReal) = window a ((Rect.unit (s := S10x10x8x512) ![1, 1, 0, 0] S8x8x2x128.size inb).emb x) := by
  refine (window_out a _ ?_).symm
  have h2 : (x 2).val < 2 := (x 2).isLt
  have h3 : (x 3).val < 128 := (x 3).isLt
  intro hh
  have e2 : ((Rect.unit (s := S10x10x8x512) ![1, 1, 0, 0] S8x8x2x128.size inb).emb x 2).val = 0 + 1 * (x 2).val := rfl
  have e3 : ((Rect.unit (s := S10x10x8x512) ![1, 1, 0, 0] S8x8x2x128.size inb).emb x 3).val = 0 + 1 * (x 3).val := rfl
  omega

theorem rim_right (a : Vol2) (inb) (x : S8x8x2x128.Idx) :
    (0 : EReal) = window a ((Rect.unit (s := S10x10x8x512) ![1, 1, 6, 384] S8x8x2x128.size inb).emb x) := by
  refine (window_out a _ ?_).symm
  have h2 : (x 2).val < 2 := (x 2).isLt
  have h3 : (x 3).val < 128 := (x 3).isLt
  intro hh
  have e2 : ((Rect.unit (s := S10x10x8x512) ![1, 1, 6, 384] S8x8x2x128.size inb).emb x 2).val = 6 + 1 * (x 2).val := rfl
  have e3 : ((Rect.unit (s := S10x10x8x512) ![1, 1, 6, 384] S8x8x2x128.size inb).emb x 3).val = 384 + 1 * (x 3).val := rfl
  omega

theorem pay5_apply (x : S1x10x8x512.Idx) : k0_pay5 (F := Ideal) x = 0 := by
  unfold k0_pay5; rw [shapeCast_self]; exact pay2_apply x
theorem pay6_apply (x : S1x10x8x512.Idx) : k0_pay6 (F := Ideal) x = 0 := by
  unfold k0_pay6; rw [shapeCast_self]; exact pay2_apply x
theorem pay7_apply (x : S8x1x8x512.Idx) : k0_pay7 (F := Ideal) x = 0 := by
  unfold k0_pay7; rw [shapeCast_self]; exact pay3_apply x
theorem pay8_apply (x : S8x1x8x512.Idx) : k0_pay8 (F := Ideal) x = 0 := by
  unfold k0_pay8; rw [shapeCast_self]; exact pay3_apply x
theorem pay9_apply (x : S8x8x2x128.Idx) : k0_pay9 (F := Ideal) x = 0 := by
  unfold k0_pay9; rw [shapeCast_self]; exact pay4_apply x
theorem pay10_apply (x : S8x8x2x128.Idx) : k0_pay10 (F := Ideal) x = 0 := by
  unfold k0_pay10; rw [shapeCast_self]; exact pay4_apply x

def tapSum (A : SScr.Idx → EReal) (W : SWt.Idx → EReal) (t : Fin 9) (kd kh : Fin 3) (d h r : Fin 8) (col : Fin 256) : EReal :=
  ∑ k : Fin 512, A (ix4 (⟨d.val + kd.val, by omega⟩ : Fin 10) (⟨h.val + kh.val, by omega⟩ : Fin 10) r k) * W (ix3 t k col)

theorem convRow_eq (A : SScr.Idx → EReal) (W : SWt.Idx → EReal) (d h r : Fin 8) (col : Fin 256) :
    convRow A W d h r col = tapSum A W 0 0 0 d h r col + tapSum A W 1 0 1 d h r col + tapSum A W 2 0 2 d h r col + tapSum A W 3 1 0 d h r col + tapSum A W 4 1 1 d h r col + tapSum A W 5 1 2 d h r col + tapSum A W 6 2 0 d h r col + tapSum A W 7 2 1 d h r col + tapSum A W 8 2 2 d h r col := by
  unfold convRow
  rw [Fin.sum_univ_succ, Fin.sum_univ_eight]
  simp only [add_assoc]
  rfl

def IsTap (A : SScr.Idx → EReal) (W : SWt.Idx → EReal) (t : Fin 9) (kd kh : Fin 3)
    (L : FVec Ideal S8x8x8x512 .bf16) (Wt : FVec Ideal S1x512x256 .bf16) : Prop :=
  (∀ (d h r : Fin 8) (k : Fin 512),
      L (ix4 d h r k) = A (ix4 (⟨d.val + kd.val, by omega⟩ : Fin 10) (⟨h.val + kh.val, by omega⟩ : Fin 10) r k))
    ∧ ∀ (k : Fin 512) (col : Fin 256), Wt (ix3 (0 : Fin 1) k col) = W (ix3 t k col)

section Conv
variable {A : SScr.Idx → EReal} {W : SWt.Idx → EReal}

theorem tap_eq {t : Fin 9} {kd kh : Fin 3} {L : FVec Ideal S8x8x8x512 .bf16} {Wt : FVec Ideal S1x512x256 .bf16}
    (hT : IsTap A W t kd kh L Wt) (d h r : Fin 8) (col : Fin 256) :
    matmul (F := Ideal) dot_S512x512_S512x256_S512x256_1_0_0_1_n_n none
        (shapeCast S512x512 L shapeCasts_S8x8x8x512_S512x512)
        (shapeCast S512x256 Wt shapeCasts_S1x512x256_S512x256)
        (constant (F := Ideal) S512x256 .f32 0x00000000#32) (ix2 (row d h r) col)
      = tapSum A W t kd kh d h r col := by
  rw [tap_apply]; unfold tapSum
  exact Finset.sum_congr rfl fun k _ => by rw [hT.1, hT.2]

theorem zero_f32 : (Scalar.ofBits (F := Ideal) .f32 0x00000000#32 : EReal) = 0 := Ideal.ofBits_zero_f32

theorem pay74_apply {L0 : FVec Ideal S8x8x8x512 .bf16} {W0 : FVec Ideal S1x512x256 .bf16} (h0 : IsTap A W 0 0 0 L0 W0) (d h r : Fin 8) (col : Fin 256) :
    k0_pay74 (F := Ideal) L0 W0 (ix2 (row d h r) col) = tapSum A W 0 0 0 d h r col := by
  unfold k0_pay74
  simp only [addf_apply, broadcast_apply, tap_eq h0, zero_f32, zero_add]

theorem pay76_apply (acc : FVec Ideal S512x256 .f32) {L1 : FVec Ideal S8x8x8x512 .bf16} {W1 : FVec Ideal S1x512x256 .bf16} {L2 : FVec Ideal S8x8x8x512 .bf16} {W2 : FVec Ideal S1x512x256 .bf16} {L3 : FVec Ideal S8x8x8x512 .bf16} {W3 : FVec Ideal S1x512x256 .bf16} {L4 : FVec Ideal S8x8x8x512 .bf16} {W4 : FVec Ideal S1x512x256 .bf16} (h1 : IsTap A W 1 0 1 L1 W1) (h2 : IsTap A W 2 0 2 L2 W2) (h3 : IsTap A W 3 1 0 L3 W3) (h4 : IsTap A W 4 1 1 L4 W4)
    (d h r : Fin 8) (col : Fin 256) :
    k0_pay76 (F := Ideal) acc (k0_pay75 L1) W1 L2 W2 L3 W3 L4 W4 (ix2 (row d h r) col)
      = acc (ix2 (row d h r) col) + tapSum A W 1 0 1 d h r col + tapSum A W 2 0 2 d h r col + tapSum A W 3 1 0 d h r col + tapSum A W 4 1 1 d h r col := by
  unfold k0_pay76 k0_pay75
  simp only [addf_apply, tap_eq h1, tap_eq h2, tap_eq h3, tap_eq h4]

theorem leaky_eq (v : EReal) : max v (Scalar.ofBits (F := Ideal) .f32 0x3E99999A#32 * v) = leakyK v := rfl

theorem shift_apply (t : Vec Ideal S1x256 .f32) (rw' : Fin 512) (col : Fin 256) :
    broadcastTo S512x256 (shapeCast S1x256 t shapeCasts_S1x256_S1x256) broadcasts_S1x256_S512x256 (ix2 rw' col)
      = t (ix2 (0 : Fin 1) col) := by
  rw [shapeCast_self]
  exact broadcastTo_apply _ _ _ (ix2 (0 : Fin 1) col) fun a => match a with
    | ⟨0, _⟩ => by show (0 : Nat) = if (1 : Nat) = 1 then 0 else rw'.val; rfl
    | ⟨1, _⟩ => by show col.val = if (256 : Nat) = 1 then 0 else col.val; rfl

theorem pay79_apply (acc : FVec Ideal S512x256 .f32) {L5 : FVec Ideal S8x8x8x512 .bf16} {W5 : FVec Ideal S1x512x256 .bf16} {L6 : FVec Ideal S8x8x8x512 .bf16} {W6 : FVec Ideal S1x512x256 .bf16} {L7 : FVec Ideal S8x8x8x512 .bf16} {W7 : FVec Ideal S1x512x256 .bf16} {L8 : FVec Ideal S8x8x8x512 .bf16} {W8 : FVec Ideal S1x512x256 .bf16} (h5 : IsTap A W 5 1 2 L5 W5) (h6 : IsTap A W 6 2 0 L6 W6) (h7 : IsTap A W 7 2 1 L7 W7) (h8 : IsTap A W 8 2 2 L8 W8)
    (t : Vec Ideal S1x256 .f32) (d h r : Fin 8) (col : Fin 256) :
    k0_pay79 (F := Ideal) acc (k0_pay77 L5) (k0_pay78 W5) (constant (F := Ideal) S512x256 .f32 0x00000000#32) L6 W6 L7 W7 L8 W8 t (ix4 d h r col)
      = leakyK (acc (ix2 (row d h r) col) + tapSum A W 5 1 2 d h r col + tapSum A W 6 2 0 d h r col + tapSum A W 7 2 1 d h r col + tapSum A W 8 2 2 d h r col + t (ix2 (0 : Fin 1) col)) := by
  have hd := d.isLt; have hh := h.isLt; have hr := r.isLt; have hc := col.isLt
  unfold k0_pay79 k0_pay77 k0_pay78
  refine (shapeCast_apply _ _ _ (ix2 (row d h r) col) ?_).trans ?_
  · rw [Shape.rowMajor_val_two, Shape.rowMajor_val_four]
    show (64 * d.val + 8 * h.val + r.val) * 256 + col.val = ((d.val * 8 + h.val) * 8 + r.val) * 256 + col.val
    omega
  · simp only [truncf_apply, maximumf_apply, mulf_apply, addf_apply, broadcast_apply, tap_eq h5, tap_eq h6, tap_eq h7, tap_eq h8,
      leaky_eq]
    rw [shift_apply]

theorem conv1_apply {L0 : FVec Ideal S8x8x8x512 .bf16} {W0 : FVec Ideal S1x512x256 .bf16} {L1 : FVec Ideal S8x8x8x512 .bf16} {W1 : FVec Ideal S1x512x256 .bf16} {L2 : FVec Ideal S8x8x8x512 .bf16} {W2 : FVec Ideal S1x512x256 .bf16} {L3 : FVec Ideal S8x8x8x512 .bf16} {W3 : FVec Ideal S1x512x256 .bf16} {L4 : FVec Ideal S8x8x8x512 .bf16} {W4 : FVec Ideal S1x512x256 .bf16} {L5 : FVec Ideal S8x8x8x512 .bf16} {W5 : FVec Ideal S1x512x256 .bf16} {L6 : FVec Ideal S8x8x8x512 .bf16} {W6 : FVec Ideal S1x512x256 .bf16} {L7 : FVec Ideal S8x8x8x512 .bf16} {W7 : FVec Ideal S1x512x256 .bf16} {L8 : FVec Ideal S8x8x8x512 .bf16} {W8 : FVec Ideal S1x512x256 .bf16}
    (h0 : IsTap A W 0 0 0 L0 W0) (h1 : IsTap A W 1 0 1 L1 W1) (h2 : IsTap A W 2 0 2 L2 W2) (h3 : IsTap A W 3 1 0 L3 W3) (h4 : IsTap A W 4 1 1 L4 W4) (h5 : IsTap A W 5 1 2 L5 W5) (h6 : IsTap A W 6 2 0 L6 W6) (h7 : IsTap A W 7 2 1 L7 W7) (h8 : IsTap A W 8 2 2 L8 W8)
    (t : Vec Ideal S1x256 .f32) (d h r : Fin 8) (col : Fin 256) :
    k0_pay79 (F := Ideal) (k0_pay76 (k0_pay74 L0 W0) (k0_pay75 L1) W1 L2 W2 L3 W3 L4 W4) (k0_pay77 L5) (k0_pay78 W5)
        (constant (F := Ideal) S512x256 .f32 0x00000000#32) L6 W6 L7 W7 L8 W8 t (ix4 d h r col)
      = leakyK (convRow A W d h r col + t (ix2 (0 : Fin 1) col)) := by
  rw [pay79_apply _ h5 h6 h7 h8, pay76_apply _ h1 h2 h3 h4, pay74_apply h0, convRow_eq]

theorem pay112_apply (acc : FVec Ideal S512x256 .f32) {L0 : FVec Ideal S8x8x8x512 .bf16} {W0 : FVec Ideal S1x512x256 .bf16} {L1 : FVec Ideal S8x8x8x512 .bf16} {W1 : FVec Ideal S1x512x256 .bf16} {L2 : FVec Ideal S8x8x8x512 .bf16} {W2 : FVec Ideal S1x512x256 .bf16} {L3 : FVec Ideal S8x8x8x512 .bf16} {W3 : FVec Ideal S1x512x256 .bf16} (h0 : IsTap A W 0 0 0 L0 W0) (h1 : IsTap A W 1 0 1 L1 W1) (h2 : IsTap A W 2 0 2 L2 W2) (h3 : IsTap A W 3 1 0 L3 W3)
    (d h r : Fin 8) (col : Fin 256) :
    k0_pay112 (F := Ideal) acc (k0_pay111 L0) W0 L1 W1 L2 W2 L3 W3 (ix2 (row d h r) col)
      = acc (ix2 (row d h r) col) + tapSum A W 0 0 0 d h r col + tapSum A W 1 0 1 d h r col + tapSum A W 2 0 2 d h r col + tapSum A W 3 1 0 d h r col := by
  unfold k0_pay112 k0_pay111
  simp only [addf_apply, tap_eq h0, tap_eq h1, tap_eq h2, tap_eq h3]

theorem pay114_apply (acc : FVec Ideal S512x256 .f32) {L4 : FVec Ideal S8x8x8x512 .bf16} {W4 : FVec Ideal S1x512x256 .bf16} {L5 : FVec Ideal S8x8x8x512 .bf16} {W5 : FVec Ideal S1x512x256 .bf16} {L6 : FVec Ideal S8x8x8x512 .bf16} {W6 : FVec Ideal S1x512x256 .bf16} {L7 : FVec Ideal S8x8x8x512 .bf16} {W7 : FVec Ideal S1x512x256 .bf16} {L8 : FVec Ideal S8x8x8x512 .bf16} {W8 : FVec Ideal S1x512x256 .bf16} (h4 : IsTap A W 4 1 1 L4 W4) (h5 : IsTap A W 5 1 2 L5 W5) (h6 : IsTap A W 6 2 0 L6 W6) (h7 : IsTap A W 7 2 1 L7 W7) (h8 : IsTap A W 8 2 2 L8 W8)
    (d h r : Fin 8) (col : Fin 256) :
    k0_pay114 (F := Ideal) acc (k0_pay113 L4) W4 L5 W5 L6 W6 L7 W7 L8 W8 (ix2 (row d h r) col)
      = acc (ix2 (row d h r) col) + tapSum A W 4 1 1 d h r col + tapSum A W 5 1 2 d h r col + tapSum A W 6 2 0 d h r col + tapSum A W 7 2 1 d h r col + tapSum A W 8 2 2 d h r col := by
  unfold k0_pay114 k0_pay113
  simp only [addf_apply, tap_eq h4, tap_eq h5, tap_eq h6, tap_eq h7, tap_eq h8]

theorem conv2_apply {L0 : FVec Ideal S8x8x8x512 .bf16} {W0 : FVec Ideal S1x512x256 .bf16} {L1 : FVec Ideal S8x8x8x512 .bf16} {W1 : FVec Ideal S1x512x256 .bf16} {L2 : FVec Ideal S8x8x8x512 .bf16} {W2 : FVec Ideal S1x512x256 .bf16} {L3 : FVec Ideal S8x8x8x512 .bf16} {W3 : FVec Ideal S1x512x256 .bf16} {L4 : FVec Ideal S8x8x8x512 .bf16} {W4 : FVec Ideal S1x512x256 .bf16} {L5 : FVec Ideal S8x8x8x512 .bf16} {W5 : FVec Ideal S1x512x256 .bf16} {L6 : FVec Ideal S8x8x8x512 .bf16} {W6 : FVec Ideal S1x512x256 .bf16} {L7 : FVec Ideal S8x8x8x512 .bf16} {W7 : FVec Ideal S1x512x256 .bf16} {L8 : FVec Ideal S8x8x8x512 .bf16} {W8 : FVec Ideal S1x512x256 .bf16}
    (h0 : IsTap A W 0 0 0 L0 W0) (h1 : IsTap A W 1 0 1 L1 W1) (h2 : IsTap A W 2 0 2 L2 W2) (h3 : IsTap A W 3 1 0 L3 W3) (h4 : IsTap A W 4 1 1 L4 W4) (h5 : IsTap A W 5 1 2 L5 W5) (h6 : IsTap A W 6 2 0 L6 W6) (h7 : IsTap A W 7 2 1 L7 W7) (h8 : IsTap A W 8 2 2 L8 W8)
    (d h r : Fin 8) (col : Fin 256) :
    k0_pay114 (F := Ideal) (k0_pay112 k0_pay110 (k0_pay111 L0) W0 L1 W1 L2 W2 L3 W3) (k0_pay113 L4) W4 L5 W5 L6 W6 L7 W7 L8 W8
        (ix2 (row d h r) col)
      = convRow A W d h r col := by
  rw [pay114_apply _ h4 h5 h6 h7 h8, pay112_apply _ h0 h1 h2 h3, convRow_eq]
  unfold k0_pay110
  simp only [broadcast_apply, zero_f32, zero_add]

end Conv

theorem ypair_eq (x0 : SB.Idx → EReal) (W1 : SWt.Idx → EReal) (T1 : ST.Idx → EReal) (p : Fin 4) (s : Fin 2) (d h w : Fin 8)
    (c : Fin 128) (r : Fin 8) (col : Fin 256) (hr : r.val = 2 * (w.val / 2) + s.val) (hcol : col.val = (w.val % 2) * 128 + c.val) :
    ypair x0 W1 T1 p s d h w c
      = leakyK (convRow (window (xpair x0 p)) W1 d h r col + T1 (ix2 (0 : Fin 1) col)) := by
  have e1 : ∀ hp, (⟨2 * (w.val / 2) + s.val, hp⟩ : Fin 8) = r := fun hp => Fin.ext hr.symm
  have e2 : ∀ hp, (⟨(w.val % 2) * 128 + c.val, hp⟩ : Fin 256) = col := fun hp => Fin.ext hcol.symm
  unfold ypair
  simp only [e1, e2]

section YW
variable (x0 : SB.Idx → EReal) (W1 : SWt.Idx → EReal) (T1 : ST.Idx → EReal) (p : Fin 4) (Y : FVec Ideal S8x8x8x256 .bf16)
  (hY : ∀ (d h r : Fin 8) (col : Fin 256),
    Y (ix4 d h r col) = leakyK (convRow (window (xpair x0 p)) W1 d h r col + T1 (ix2 (0 : Fin 1) col)))
include hY

theorem yw_piece80 (inb) (x : S8x8x8x256.Idx) :
    k0_pay80 (F := Ideal) Y x
      = window (ypair x0 W1 T1 p) ((Rect.unit (s := S10x10x8x512) ![1, 1, 0, 128] S8x8x8x256.size inb).emb x) := by
  obtain ⟨d, h, r, k, rfl⟩ : ∃ (d h r : Fin 8) (k : Fin 256), x = ix4 d h r k := ⟨x 0, x 1, x 2, x 3, eq_ix4 x⟩
  have hr := r.isLt; have hk := k.isLt
  unfold k0_pay80
  rw [shapeCast_self, hY]
  refine ((window_in _ _ (⟨r.val % 2, by omega⟩ : Fin 2) d h (⟨2 * (r.val / 2) + k.val / 128, by omega⟩ : Fin 8)
    (⟨k.val % 128, by omega⟩ : Fin 128) ?_ ?_ ?_ ?_ ?_).trans (ypair_eq x0 W1 T1 p _ d h _ _ r k ?_ ?_)).symm
  · show 1 + 1 * d.val = d.val + 1; omega
  · show 1 + 1 * h.val = h.val + 1; omega
  · show (0 + 1 * r.val) % 2 = r.val % 2; omega
  · show 2 * ((0 + 1 * r.val) / 2) + (128 + 1 * k.val) / 128 = 2 * (r.val / 2) + k.val / 128 + 1; omega
  · show (128 + 1 * k.val) % 128 = k.val % 128; omega
  · show r.val = 2 * ((2 * (r.val / 2) + k.val / 128) / 2) + r.val % 2; omega
  · show k.val = ((2 * (r.val / 2) + k.val / 128) % 2) * 128 + k.val % 128; omega

theorem yw_piece82 (inb) (x : S8x8x6x128.Idx) :
    k0_pay82 (F := Ideal) Y x
      = window (ypair x0 W1 T1 p) ((Rect.unit (s := S10x10x8x512) ![1, 1, 0, 384] S8x8x6x128.size inb).emb x) := by
  obtain ⟨d, h, r, k, rfl⟩ : ∃ (d h : Fin 8) (r : Fin 6) (k : Fin 128), x = ix4 d h r k := ⟨x 0, x 1, x 2, x 3, eq_ix4 x⟩
  have hr := r.isLt; have hk := k.isLt
  unfold k0_pay82 k0_pay81
  rw [shapeCast_self]
  refine (shapeCast_apply _ _ _ (ix5 d h r (0 : Fin 1) k) ?_).trans ?_
  · rw [Shape.rowMajor_val_five, Shape.rowMajor_val_four]
    show (((d.val * 8 + h.val) * 6 + r.val) * 1 + 0) * 128 + k.val = ((d.val * 8 + h.val) * 6 + r.val) * 128 + k.val
    omega
  refine (extractStridedSlice_apply _ _ _ _ (ix5 d h (⟨r.val + 2, by omega⟩ : Fin 8) (0 : Fin 2) k) (fun a => match a with
      | ⟨0, _⟩ => by show d.val = 0 + d.val; omega
      | ⟨1, _⟩ => by show h.val = 0 + h.val; omega
      | ⟨2, _⟩ => by show r.val + 2 = 2 + r.val; omega
      | ⟨3, _⟩ => by show (0 : Nat) = 0 + 0; rfl
      | ⟨4, _⟩ => by show k.val = 0 + k.val; omega)).trans ?_
  refine (shapeCast_apply _ _ _ (ix4 d h (⟨r.val + 2, by omega⟩ : Fin 8) (⟨k.val, by omega⟩ : Fin 256)) ?_).trans ?_
  · rw [Shape.rowMajor_val_five, Shape.rowMajor_val_four]
    show ((d.val * 8 + h.val) * 8 + (r.val + 2)) * 256 + k.val = (((d.val * 8 + h.val) * 8 + (r.val + 2)) * 2 + 0) * 128 + k.val
    omega
  rw [hY]
  refine ((window_in _ _ (⟨r.val % 2, by omega⟩ : Fin 2) d h (⟨2 * (r.val / 2) + 2, by omega⟩ : Fin 8)
    (⟨k.val, by omega⟩ : Fin 128) ?_ ?_ ?_ ?_ ?_).trans (ypair_eq x0 W1 T1 p _ d h _ _ _ _ ?_ ?_)).symm
  · show 1 + 1 * d.val = d.val + 1; omega
  · show 1 + 1 * h.val = h.val + 1; omega
  · show (0 + 1 * r.val) % 2 = r.val % 2; omega
  · show 2 * ((0 + 1 * r.val) / 2) + (384 + 1 * k.val) / 128 = 2 * (r.val / 2) + 2 + 1; omega
  · show (384 + 1 * k.val) % 128 = k.val; omega
  · show r.val + 2 = 2 * ((2 * (r.val / 2) + 2) / 2) + r.val % 2; omega
  · show k.val = ((2 * (r.val / 2) + 2) % 2) * 128 + k.val; omega

theorem yw_piece83 (inb) (x : S8x8x6x128.Idx) :
    k0_pay83 (F := Ideal) Y x
      = window (ypair x0 W1 T1 p) ((Rect.unit (s := S10x10x8x512) ![1, 1, 2, 0] S8x8x6x128.size inb).emb x) := by
  obtain ⟨d, h, r, k, rfl⟩ : ∃ (d h : Fin 8) (r : Fin 6) (k : Fin 128), x = ix4 d h r k := ⟨x 0, x 1, x 2, x 3, eq_ix4 x⟩
  have hr := r.isLt; have hk := k.isLt
  unfold k0_pay83 k0_pay81
  rw [shapeCast_self]
  refine (shapeCast_apply _ _ _ (ix5 d h r (0 : Fin 1) k) ?_).trans ?_
  · rw [Shape.rowMajor_val_five, Shape.rowMajor_val_four]
    show (((d.val * 8 + h.val) * 6 + r.val) * 1 + 0) * 128 + k.val = ((d.val * 8 + h.val) * 6 + r.val) * 128 + k.val
    omega
  refine (extractStridedSlice_apply _ _ _ _ (ix5 d h (⟨r.val, by omega⟩ : Fin 8) (1 : Fin 2) k) (fun a => match a with
      | ⟨0, _⟩ => by show d.val = 0 + d.val; omega
      | ⟨1, _⟩ => by show h.val = 0 + h.val; omega
      | ⟨2, _⟩ => by show r.val = 0 + r.val; omega
      | ⟨3, _⟩ => by show (1 : Nat) = 1 + 0; rfl
      | ⟨4, _⟩ => by show k.val = 0 + k.val; omega)).trans ?_
  refine (shapeCast_apply _ _ _ (ix4 d h (⟨r.val, by omega⟩ : Fin 8) (⟨128 + k.val, by omega⟩ : Fin 256)) ?_).trans ?_
  · rw [Shape.rowMajor_val_five, Shape.rowMajor_val_four]
    show ((d.val * 8 + h.val) * 8 + r.val) * 256 + (128 + k.val) = (((d.val * 8 + h.val) * 8 + r.val) * 2 + 1) * 128 + k.val
    omega
  rw [hY]
  refine ((window_in _ _ (⟨r.val % 2, by omega⟩ : Fin 2) d h (⟨2 * (r.val / 2) + 1, by omega⟩ : Fin 8)
    (⟨k.val, by omega⟩ : Fin 128) ?_ ?_ ?_ ?_ ?_).trans (ypair_eq x0 W1 T1 p _ d h _ _ _ _ ?_ ?_)).symm
  · show 1 + 1 * d.val = d.val + 1; omega
  · show 1 + 1 * h.val = h.val + 1; omega
  · show (2 + 1 * r.val) % 2 = r.val % 2; omega
  · show 2 * ((2 + 1 * r.val) / 2) + (0 + 1 * k.val) / 128 = 2 * (r.val / 2) + 1 + 1; omega
  · show (0 + 1 * k.val) % 128 = k.val; omega
  · show r.val = 2 * ((2 * (r.val / 2) + 1) / 2) + r.val % 2; omega
  · show 128 + k.val = ((2 * (r.val / 2) + 1) % 2) * 128 + k.val; omega

end YW

section Out

theorem pay116_apply (acc : FVec Ideal S512x256 .f32) (t : Vec Ideal S1x256 .f32) (xl : Vec Ideal S1x8x8x8x128 .f32)
    (d h w : Fin 8) (c : Fin 128) :
    k0_pay116 (F := Ideal) acc t xl (ix5 (0 : Fin 1) d h w c)
      = leakyK (acc (ix2 (row d h (⟨2 * (w.val / 2) + 0, by omega⟩ : Fin 8)) (⟨(w.val % 2) * 128 + c.val, by omega⟩ : Fin 256))
          + t (ix2 (0 : Fin 1) (⟨(w.val % 2) * 128 + c.val, by omega⟩ : Fin 256)) + xl (ix5 (0 : Fin 1) d h w c)) := by
  have hd := d.isLt; have hh := h.isLt; have hw := w.isLt; have hc := c.isLt
  unfold k0_pay116
  refine (shapeCast_apply _ _ _ (ix4 d h w c) ?_).trans ?_
  · rw [Shape.rowMajor_val_four, Shape.rowMajor_val_five]
    show ((d.val * 8 + h.val) * 8 + w.val) * 128 + c.val = ((((0 : Nat) * 8 + d.val) * 8 + h.val) * 8 + w.val) * 128 + c.val
    omega
  simp only [maximumf_apply, mulf_apply, addf_apply, broadcast_apply, leaky_eq]
  congr 2
  · refine (shapeCast_apply _ _ _ (ix5 d h (⟨w.val / 2, by omega⟩ : Fin 4) (⟨w.val % 2, by omega⟩ : Fin 2) c) ?_).trans ?_
    · rw [Shape.rowMajor_val_five, Shape.rowMajor_val_four]
      show (((d.val * 8 + h.val) * 4 + w.val / 2) * 2 + w.val % 2) * 128 + c.val = ((d.val * 8 + h.val) * 8 + w.val) * 128 + c.val
      omega
    refine (shapeCast_apply _ _ _ (ix6 d h (⟨w.val / 2, by omega⟩ : Fin 4) (0 : Fin 1) (⟨w.val % 2, by omega⟩ : Fin 2) c) ?_).trans ?_
    · rw [Shape.rowMajor_val_six, Shape.rowMajor_val_five]
      show ((((d.val * 8 + h.val) * 4 + w.val / 2) * 1 + 0) * 2 + w.val % 2) * 128 + c.val
        = (((d.val * 8 + h.val) * 4 + w.val / 2) * 2 + w.val % 2) * 128 + c.val
      omega
    refine (extractStridedSlice_apply _ _ _ _
      (ix6 d h (⟨w.val / 2, by omega⟩ : Fin 4) (0 : Fin 2) (⟨w.val % 2, by omega⟩ : Fin 2) c) (fun a => match a with
        | ⟨0, _⟩ => by show d.val = 0 + d.val; omega
        | ⟨1, _⟩ => by show h.val = 0 + h.val; omega
        | ⟨2, _⟩ => by show w.val / 2 = 0 + w.val / 2; omega
        | ⟨3, _⟩ => by show (0 : Nat) = 0 + 0; rfl
        | ⟨4, _⟩ => by show w.val % 2 = 0 + w.val % 2; omega
        | ⟨5, _⟩ => by show c.val = 0 + c.val; omega)).trans ?_
    unfold k0_pay115
    refine (shapeCast_apply _ _ _ (ix2 (row d h (⟨2 * (w.val / 2) + 0, by omega⟩ : Fin 8)) (⟨(w.val % 2) * 128 + c.val, by omega⟩ : Fin 256)) ?_).trans ?_
    · rw [Shape.rowMajor_val_two, Shape.rowMajor_val_six]
      show (64 * d.val + 8 * h.val + (2 * (w.val / 2) + 0)) * 256 + ((w.val % 2) * 128 + c.val)
        = (((((d.val * 8 + h.val) * 4 + w.val / 2) * 2 + 0) * 2 + w.val % 2) * 128) + c.val
      omega
    simp only [addf_apply]
    rw [shift_apply]
  · refine shapeCast_apply _ _ _ (ix5 (0 : Fin 1) d h w c) ?_
    rw [Shape.rowMajor_val_five, Shape.rowMajor_val_four]
    show ((((0 : Nat) * 8 + d.val) * 8 + h.val) * 8 + w.val) * 128 + c.val = ((d.val * 8 + h.val) * 8 + w.val) * 128 + c.val
    omega

theorem pay117_apply (acc : FVec Ideal S512x256 .f32) (t : Vec Ideal S1x256 .f32) (xl : Vec Ideal S1x8x8x8x128 .f32)
    (d h w : Fin 8) (c : Fin 128) :
    k0_pay117 (F := Ideal) acc t xl (ix5 (0 : Fin 1) d h w c)
      = leakyK (acc (ix2 (row d h (⟨2 * (w.val / 2) + 1, by omega⟩ : Fin 8)) (⟨(w.val % 2) * 128 + c.val, by omega⟩ : Fin 256))
          + t (ix2 (0 : Fin 1) (⟨(w.val % 2) * 128 + c.val, by omega⟩ : Fin 256)) + xl (ix5 (0 : Fin 1) d h w c)) := by
  have hd := d.isLt; have hh := h.isLt; have hw := w.isLt; have hc := c.isLt
  unfold k0_pay117
  refine (shapeCast_apply _ _ _ (ix4 d h w c) ?_).trans ?_
  · rw [Shape.rowMajor_val_four, Shape.rowMajor_val_five]
    show ((d.val * 8 + h.val) * 8 + w.val) * 128 + c.val = ((((0 : Nat) * 8 + d.val) * 8 + h.val) * 8 + w.val) * 128 + c.val
    omega
  simp only [maximumf_apply, mulf_apply, addf_apply, broadcast_apply, leaky_eq]
  congr 2
  · refine (shapeCast_apply _ _ _ (ix5 d h (⟨w.val / 2, by omega⟩ : Fin 4) (⟨w.val % 2, by omega⟩ : Fin 2) c) ?_).trans ?_
    · rw [Shape.rowMajor_val_five, Shape.rowMajor_val_four]
      show (((d.val * 8 + h.val) * 4 + w.val / 2) * 2 + w.val % 2) * 128 + c.val = ((d.val * 8 + h.val) * 8 + w.val) * 128 + c.val
      omega
    refine (shapeCast_apply _ _ _ (ix6 d h (⟨w.val / 2, by omega⟩ : Fin 4) (0 : Fin 1) (⟨w.val % 2, by omega⟩ : Fin 2) c) ?_).trans ?_
    · rw [Shape.rowMajor_val_six, Shape.rowMajor_val_five]
      show ((((d.val * 8 + h.val) * 4 + w.val / 2) * 1 + 0) * 2 + w.val % 2) * 128 + c.val
        = (((d.val * 8 + h.val) * 4 + w.val / 2) * 2 + w.val % 2) * 128 + c.val
      omega
    refine (extractStridedSlice_apply _ _ _ _
      (ix6 d h (⟨w.val / 2, by omega⟩ : Fin 4) (1 : Fin 2) (⟨w.val % 2, by omega⟩ : Fin 2) c) (fun a => match a with
        | ⟨0, _⟩ => by show d.val = 0 + d.val; omega
        | ⟨1, _⟩ => by show h.val = 0 + h.val; omega
        | ⟨2, _⟩ => by show w.val / 2 = 0 + w.val / 2; omega
        | ⟨3, _⟩ => by show (1 : Nat) = 1 + 0; rfl
        | ⟨4, _⟩ => by show w.val % 2 = 0 + w.val % 2; omega
        | ⟨5, _⟩ => by show c.val = 0 + c.val; omega)).trans ?_
    unfold k0_pay115
    refine (shapeCast_apply _ _ _ (ix2 (row d h (⟨2 * (w.val / 2) + 1, by omega⟩ : Fin 8)) (⟨(w.val % 2) * 128 + c.val, by omega⟩ : Fin 256)) ?_).trans ?_
    · rw [Shape.rowMajor_val_two, Shape.rowMajor_val_six]
      show (64 * d.val + 8 * h.val + (2 * (w.val / 2) + 1)) * 256 + ((w.val % 2) * 128 + c.val)
        = (((((d.val * 8 + h.val) * 4 + w.val / 2) * 2 + 1) * 2 + w.val % 2) * 128) + c.val
      omega
    simp only [addf_apply]
    rw [shift_apply]
  · refine shapeCast_apply _ _ _ (ix5 (0 : Fin 1) d h w c) ?_
    rw [Shape.rowMajor_val_five, Shape.rowMajor_val_four]
    show ((((0 : Nat) * 8 + d.val) * 8 + h.val) * 8 + w.val) * 128 + c.val = ((d.val * 8 + h.val) * 8 + w.val) * 128 + c.val
    omega

end Out

theorem tload_apply (arg4 : Memref sig .tc .vmem S1x256 .f32) (harg4 : arg4.IsWhole) (T : Vec Ideal S1x256 .f32) (inb) (col : Fin 256) :
    View.readAt (Elt Ideal) arg4.view (Rect.unit (s := S1x256) ![0, 0] ![1, 256] inb).toLoadRect (harg4.unread T) (ix2 (0 : Fin 1) col)
      = T (ix2 (0 : Fin 1) col) := by
  rw [readAt_unread]
  congr 1; funext a
  match a with
  | ⟨0, _⟩ => exact Fin.ext (by show 0 + 1 * 0 = 0; rfl)
  | ⟨1, _⟩ => exact Fin.ext (by show 0 + 1 * col.val = col.val; omega)

theorem sload_apply (arg2 : Memref sig .tc .vmem S8x8x8x8x128 .f32) (harg2 : arg2.IsWhole) (X : Vec Ideal S8x8x8x8x128 .f32) (n : Nat) (hn : n < 8) (inb) (d h w : Fin 8) (cc : Fin 128) :
    View.readAt (Elt Ideal) arg2.view (Rect.unit (s := S8x8x8x8x128) ![n, 0, 0, 0, 0] ![1, 8, 8, 8, 128] inb).toLoadRect (harg2.unread X)
        (ix5 (0 : Fin 1) d h w cc)
      = X (ix5 (⟨n, hn⟩ : Fin 8) d h w cc) := by
  rw [readAt_unread]
  congr 1; funext a
  match a with
  | ⟨0, _⟩ => exact Fin.ext (by show n + 1 * 0 = n; omega)
  | ⟨1, _⟩ => exact Fin.ext (by show 0 + 1 * d.val = d.val; omega)
  | ⟨2, _⟩ => exact Fin.ext (by show 0 + 1 * h.val = h.val; omega)
  | ⟨3, _⟩ => exact Fin.ext (by show 0 + 1 * w.val = w.val; omega)
  | ⟨4, _⟩ => exact Fin.ext (by show 0 + 1 * cc.val = cc.val; omega)

theorem isTap_of (A : SScr.Idx → EReal) (arg3 : Memref sig .tc .vmem S9x512x256 .bf16) (harg3 : arg3.IsWhole) (W : Vec Ideal S9x512x256 .bf16) (t : Fin 9) (kd kh : Fin 3)
    (tn kdn khn : Nat) (ht : tn = t.val) (hkd : kdn = kd.val) (hkh : khn = kh.val)
    (L : FVec Ideal S8x8x8x512 .bf16) (inbA)
    (hL : ∀ j, L j = A ((Rect.unit (s := S10x10x8x512) ![kdn, khn, 0, 0] ![8, 8, 8, 512] inbA).toLoadRect.idx j)) (inbW) :
    IsTap A W t kd kh L
      (View.readAt (Elt Ideal) arg3.view (Rect.unit (s := S9x512x256) ![tn, 0, 0] ![1, 512, 256] inbW).toLoadRect (harg3.unread W)) := by
  subst ht hkd hkh
  refine ⟨fun d h r k => ?_, fun k col => ?_⟩
  · rw [hL]
    congr 1; funext a
    match a with
    | ⟨0, _⟩ => exact Fin.ext (by show kd.val + 1 * d.val = d.val + kd.val; omega)
    | ⟨1, _⟩ => exact Fin.ext (by show kh.val + 1 * h.val = h.val + kh.val; omega)
    | ⟨2, _⟩ => exact Fin.ext (by show 0 + 1 * r.val = r.val; omega)
    | ⟨3, _⟩ => exact Fin.ext (by show 0 + 1 * k.val = k.val; omega)
  · rw [readAt_unread]
    congr 1; funext a
    match a with
    | ⟨0, _⟩ => exact Fin.ext (by show t.val + 1 * 0 = t.val; omega)
    | ⟨1, _⟩ => exact Fin.ext (by show 0 + 1 * k.val = k.val; omega)
    | ⟨2, _⟩ => exact Fin.ext (by show 0 + 1 * col.val = col.val; omega)

theorem cov_read (arg : Memref sig .tc .vmem S10x10x8x512 .bf16) (L : List (View.Piece (Elt Ideal) S10x10x8x512 EltTy.bf16))
    (A : S10x10x8x512.Idx → Elt Ideal EltTy.bf16) (hA : View.canon L = A) (B : LoadRect S10x10x8x512) (j : B.shape.Idx) :
    arg.view.readCov L B j = A (B.idx j) := by
  rw [View.readCov_eq_canon', hA]

theorem outAt_eq (x0 : SB.Idx → EReal) (W1 : SWt.Idx → EReal) (T1 : ST.Idx → EReal) (W2 : SWt.Idx → EReal) (T2 : ST.Idx → EReal)
    (n : Fin 8) (p : Fin 4) (d h w : Fin 8) (c : Fin 128) (r : Fin 8) (col : Fin 256)
    (hp : p.val = n.val / 2) (hr : r.val = 2 * (w.val / 2) + n.val % 2) (hcol : col.val = (w.val % 2) * 128 + c.val) :
    outAt x0 W1 T1 W2 T2 n d h w c
      = leakyK (convRow (window (ypair x0 W1 T1 p)) W2 d h r col + T2 (ix2 (0 : Fin 1) col) + x0 (ix5 n d h w c)) := by
  have e0 : ∀ hq, (⟨n.val / 2, hq⟩ : Fin 4) = p := fun hq => Fin.ext hp.symm
  have e1 : ∀ hq, (⟨2 * (w.val / 2) + n.val % 2, hq⟩ : Fin 8) = r := fun hq => Fin.ext hr.symm
  have e2 : ∀ hq, (⟨(w.val % 2) * 128 + c.val, hq⟩ : Fin 256) = col := fun hq => Fin.ext hcol.symm
  unfold outAt
  simp only [e0, e1, e2]

def Inside (y : S10x10x8x512.Idx) : Prop :=
  1 ≤ (y 0).val ∧ (y 0).val ≤ 8 ∧ 1 ≤ (y 1).val ∧ (y 1).val ≤ 8
    ∧ 1 ≤ 2 * ((y 2).val / 2) + (y 3).val / 128 ∧ 2 * ((y 2).val / 2) + (y 3).val / 128 ≤ 8

theorem scratch_read (arg : Memref sig .tc .vmem S10x10x8x512 .bf16) (harg : arg.IsWhole) (xs : Vec Ideal S10x10x8x512 .bf16)
    (L : List (View.Piece (Elt Ideal) S10x10x8x512 .bf16)) (a : Vol2)
    (hpieces : ∀ p ∈ L, ∀ x : p.1.shape.Idx, p.2 x = window a (p.1.emb x))
    (hcov : ∀ y : S10x10x8x512.Idx, Inside y → ∃ p ∈ L, y ∈ p.1.set) (hx : HaloZero xs) :
    arg.view.read (Elt Ideal) (arg.view.writes (Elt Ideal) (harg.unread xs) L) = window a := by
  funext y
  by_cases hc : ∃ p ∈ L, y ∈ p.1.set
  · exact View.read_writes_apply_of_pieces arg.view (harg.unread xs) (window a) L hpieces y hc
  · have hrim : ¬ Inside y := fun hi => hc (hcov y hi)
    have hn : ∀ p ∈ L, y ∉ p.1.set := fun p hp hy => hc ⟨p, hp, hy⟩
    rw [View.read_writes_apply_of_forall_not_mem arg.view (harg.unread xs) y L hn, harg.read_unread]
    exact (hx y hrim).trans (window_haloZero a y hrim).symm

section Chain
variable {A : SScr.Idx → EReal}
  (ld : (B : LoadRect S10x10x8x512) → B.shape.Idx → Elt Ideal EltTy.bf16) (hld : ∀ B j, ld B j = A (B.idx j))
  (argW : Memref sig .tc .vmem S9x512x256 .bf16) (hargW : argW.IsWhole) (W : Vec Ideal S9x512x256 .bf16)

/-- The block a loader reads at the box of tap `(kd, kh)`, and the weight block loaded at tap `t`. -/
abbrev ldTap (kd kh : Nat) (inb : ∀ a, (![kd, kh, 0, 0] : Fin 4 → Nat) a + S8x8x8x512.size a ≤ S10x10x8x512.size a) : FVec Ideal S8x8x8x512 .bf16 :=
  ld (Rect.unit (s := S10x10x8x512) ![kd, kh, 0, 0] S8x8x8x512.size inb).toLoadRect
abbrev wtTap (t : Nat) (inb : ∀ a, (![t, 0, 0] : Fin 3 → Nat) a + S1x512x256.size a ≤ S9x512x256.size a) : FVec Ideal S1x512x256 .bf16 :=
  View.readAt (Elt Ideal) argW.view (Rect.unit (s := S9x512x256) ![t, 0, 0] S1x512x256.size inb).toLoadRect (hargW.unread W)

include hld

theorem isTap_ld (t : Fin 9) (kd kh : Fin 3) (tn kdn khn : Nat) (ht : tn = t.val) (hkd : kdn = kd.val) (hkh : khn = kh.val)
    (inbA) (inbW) : IsTap A W t kd kh (ldTap ld kdn khn inbA) (wtTap argW hargW W tn inbW) :=
  isTap_of A argW hargW W t kd kh tn kdn khn ht hkd hkh _ inbA
    (fun j => hld (Rect.unit (s := S10x10x8x512) ![kdn, khn, 0, 0] ![8, 8, 8, 512] inbA).toLoadRect j) inbW

/-- Nine taps read through any loader that reads `A`, the shift and the rectifier: the first convolution's row. -/
theorem conv1_ld (argT : Memref sig .tc .vmem S1x256 .f32) (hargT : argT.IsWhole) (T : Vec Ideal S1x256 .f32)
    (d h r : Fin 8) (col : Fin 256) :
    k0_pay79 (F := Ideal) (k0_pay76 (k0_pay74 (ldTap ld 0 0 inb_S10x10x8x512_S8x8x8x512_0_0_0_0) (wtTap argW hargW W 0 inb_S9x512x256_S1x512x256_0_0_0)) (k0_pay75 (ldTap ld 0 1 inb_S10x10x8x512_S8x8x8x512_0_1_0_0)) (wtTap argW hargW W 1 inb_S9x512x256_S1x512x256_1_0_0) (ldTap ld 0 2 inb_S10x10x8x512_S8x8x8x512_0_2_0_0) (wtTap argW hargW W 2 inb_S9x512x256_S1x512x256_2_0_0) (ldTap ld 1 0 inb_S10x10x8x512_S8x8x8x512_1_0_0_0) (wtTap argW hargW W 3 inb_S9x512x256_S1x512x256_3_0_0) (ldTap ld 1 1 inb_S10x10x8x512_S8x8x8x512_1_1_0_0) (wtTap argW hargW W 4 inb_S9x512x256_S1x512x256_4_0_0))
        (k0_pay77 (ldTap ld 1 2 inb_S10x10x8x512_S8x8x8x512_1_2_0_0)) (k0_pay78 (wtTap argW hargW W 5 inb_S9x512x256_S1x512x256_5_0_0)) (constant (F := Ideal) S512x256 .f32 0x00000000#32)
        (ldTap ld 2 0 inb_S10x10x8x512_S8x8x8x512_2_0_0_0) (wtTap argW hargW W 6 inb_S9x512x256_S1x512x256_6_0_0) (ldTap ld 2 1 inb_S10x10x8x512_S8x8x8x512_2_1_0_0) (wtTap argW hargW W 7 inb_S9x512x256_S1x512x256_7_0_0) (ldTap ld 2 2 inb_S10x10x8x512_S8x8x8x512_2_2_0_0) (wtTap argW hargW W 8 inb_S9x512x256_S1x512x256_8_0_0)
        (View.readAt (Elt Ideal) argT.view (Rect.unit (s := S1x256) ![0, 0] S1x256.size inb_S1x256_S1x256_0_0).toLoadRect (hargT.unread T))
        (ix4 d h r col)
      = leakyK (convRow A W d h r col + T (ix2 (0 : Fin 1) col)) := by
  refine (conv1_apply (isTap_ld ld hld argW hargW W 0 0 0 0 0 0 rfl rfl rfl _ _) (isTap_ld ld hld argW hargW W 1 0 1 1 0 1 rfl rfl rfl _ _) (isTap_ld ld hld argW hargW W 2 0 2 2 0 2 rfl rfl rfl _ _) (isTap_ld ld hld argW hargW W 3 1 0 3 1 0 rfl rfl rfl _ _) (isTap_ld ld hld argW hargW W 4 1 1 4 1 1 rfl rfl rfl _ _) (isTap_ld ld hld argW hargW W 5 1 2 5 1 2 rfl rfl rfl _ _) (isTap_ld ld hld argW hargW W 6 2 0 6 2 0 rfl rfl rfl _ _) (isTap_ld ld hld argW hargW W 7 2 1 7 2 1 rfl rfl rfl _ _) (isTap_ld ld hld argW hargW W 8 2 2 8 2 2 rfl rfl rfl _ _) _ d h r col).trans ?_
  rw [tload_apply]

/-- The same nine taps from zero: the second convolution's row. -/
theorem conv2_ld (d h r : Fin 8) (col : Fin 256) :
    k0_pay114 (F := Ideal) (k0_pay112 k0_pay110 (k0_pay111 (ldTap ld 0 0 inb_S10x10x8x512_S8x8x8x512_0_0_0_0)) (wtTap argW hargW W 0 inb_S9x512x256_S1x512x256_0_0_0) (ldTap ld 0 1 inb_S10x10x8x512_S8x8x8x512_0_1_0_0) (wtTap argW hargW W 1 inb_S9x512x256_S1x512x256_1_0_0) (ldTap ld 0 2 inb_S10x10x8x512_S8x8x8x512_0_2_0_0) (wtTap argW hargW W 2 inb_S9x512x256_S1x512x256_2_0_0) (ldTap ld 1 0 inb_S10x10x8x512_S8x8x8x512_1_0_0_0) (wtTap argW hargW W 3 inb_S9x512x256_S1x512x256_3_0_0))
        (k0_pay113 (ldTap ld 1 1 inb_S10x10x8x512_S8x8x8x512_1_1_0_0)) (wtTap argW hargW W 4 inb_S9x512x256_S1x512x256_4_0_0) (ldTap ld 1 2 inb_S10x10x8x512_S8x8x8x512_1_2_0_0) (wtTap argW hargW W 5 inb_S9x512x256_S1x512x256_5_0_0) (ldTap ld 2 0 inb_S10x10x8x512_S8x8x8x512_2_0_0_0) (wtTap argW hargW W 6 inb_S9x512x256_S1x512x256_6_0_0) (ldTap ld 2 1 inb_S10x10x8x512_S8x8x8x512_2_1_0_0) (wtTap argW hargW W 7 inb_S9x512x256_S1x512x256_7_0_0) (ldTap ld 2 2 inb_S10x10x8x512_S8x8x8x512_2_2_0_0) (wtTap argW hargW W 8 inb_S9x512x256_S1x512x256_8_0_0)
        (ix2 (row d h r) col)
      = convRow A W d h r col :=
  conv2_apply (isTap_ld ld hld argW hargW W 0 0 0 0 0 0 rfl rfl rfl _ _) (isTap_ld ld hld argW hargW W 1 0 1 1 0 1 rfl rfl rfl _ _) (isTap_ld ld hld argW hargW W 2 0 2 2 0 2 rfl rfl rfl _ _) (isTap_ld ld hld argW hargW W 3 1 0 3 1 0 rfl rfl rfl _ _) (isTap_ld ld hld argW hargW W 4 1 1 4 1 1 rfl rfl rfl _ _) (isTap_ld ld hld argW hargW W 5 1 2 5 1 2 rfl rfl rfl _ _) (isTap_ld ld hld argW hargW W 6 2 0 6 2 0 rfl rfl rfl _ _) (isTap_ld ld hld argW hargW W 7 2 1 7 2 1 rfl rfl rfl _ _) (isTap_ld ld hld argW hargW W 8 2 2 8 2 2 rfl rfl rfl _ _) d h r col

end Chain

section Pieces

/-- The four stores of the window build and the three of the write-back, for any loaded pair and any first result. -/
abbrev xw4 (v : Vec Ideal S2x8x8x8x128 .f32) : List (View.Piece (Elt Ideal) S10x10x8x512 EltTy.bf16) :=
  [⟨Rect.unit (s := S10x10x8x512) ![1, 1, 6, 0] S8x8x2x384.size inb_S10x10x8x512_S8x8x2x384_1_1_6_0, k0_pay57 (F := Ideal) v⟩,
    ⟨Rect.unit (s := S10x10x8x512) ![1, 1, 0, 128] S8x8x2x384.size inb_S10x10x8x512_S8x8x2x384_1_1_0_128, k0_pay56 (F := Ideal) v⟩,
    ⟨Rect.unit (s := S10x10x8x512) ![1, 1, 4, 0] S8x8x2x512.size inb_S10x10x8x512_S8x8x2x512_1_1_4_0, k0_pay55 (F := Ideal) v⟩,
    ⟨Rect.unit (s := S10x10x8x512) ![1, 1, 2, 0] S8x8x2x512.size inb_S10x10x8x512_S8x8x2x512_1_1_2_0, k0_pay54 (F := Ideal) v⟩]
abbrev yw3 (Y : FVec Ideal S8x8x8x256 .bf16) : List (View.Piece (Elt Ideal) S10x10x8x512 EltTy.bf16) :=
  [⟨Rect.unit (s := S10x10x8x512) ![1, 1, 2, 0] S8x8x6x128.size inb_S10x10x8x512_S8x8x6x128_1_1_2_0, k0_pay83 (F := Ideal) Y⟩,
    ⟨Rect.unit (s := S10x10x8x512) ![1, 1, 0, 384] S8x8x6x128.size inb_S10x10x8x512_S8x8x6x128_1_1_0_384, k0_pay82 (F := Ideal) Y⟩,
    ⟨Rect.unit (s := S10x10x8x512) ![1, 1, 0, 128] S8x8x8x256.size inb_S10x10x8x512_S8x8x8x256_1_1_0_128, k0_pay80 (F := Ideal) Y⟩]
/-- The same stores followed by the six zero stores on the rim. -/
abbrev xw10 (v : Vec Ideal S2x8x8x8x128 .f32) : List (View.Piece (Elt Ideal) S10x10x8x512 EltTy.bf16) :=
  [⟨Rect.unit (s := S10x10x8x512) ![1, 1, 6, 0] S8x8x2x384.size inb_S10x10x8x512_S8x8x2x384_1_1_6_0, k0_pay57 (F := Ideal) v⟩,
    ⟨Rect.unit (s := S10x10x8x512) ![1, 1, 0, 128] S8x8x2x384.size inb_S10x10x8x512_S8x8x2x384_1_1_0_128, k0_pay56 (F := Ideal) v⟩,
    ⟨Rect.unit (s := S10x10x8x512) ![1, 1, 4, 0] S8x8x2x512.size inb_S10x10x8x512_S8x8x2x512_1_1_4_0, k0_pay55 (F := Ideal) v⟩,
    ⟨Rect.unit (s := S10x10x8x512) ![1, 1, 2, 0] S8x8x2x512.size inb_S10x10x8x512_S8x8x2x512_1_1_2_0, k0_pay54 (F := Ideal) v⟩,
    ⟨Rect.unit (s := S10x10x8x512) ![1, 1, 6, 384] S8x8x2x128.size inb_S10x10x8x512_S8x8x2x128_1_1_6_384, k0_pay10 (F := Ideal)⟩,
    ⟨Rect.unit (s := S10x10x8x512) ![1, 1, 0, 0] S8x8x2x128.size inb_S10x10x8x512_S8x8x2x128_1_1_0_0, k0_pay9 (F := Ideal)⟩,
    ⟨Rect.unit (s := S10x10x8x512) ![1, 9, 0, 0] S8x1x8x512.size inb_S10x10x8x512_S8x1x8x512_1_9_0_0, k0_pay8 (F := Ideal)⟩,
    ⟨Rect.unit (s := S10x10x8x512) ![1, 0, 0, 0] S8x1x8x512.size inb_S10x10x8x512_S8x1x8x512_1_0_0_0, k0_pay7 (F := Ideal)⟩,
    ⟨Rect.unit (s := S10x10x8x512) ![9, 0, 0, 0] S1x10x8x512.size inb_S10x10x8x512_S1x10x8x512_9_0_0_0, k0_pay6 (F := Ideal)⟩,
    ⟨Rect.unit (s := S10x10x8x512) ![0, 0, 0, 0] S1x10x8x512.size inb_S10x10x8x512_S1x10x8x512_0_0_0_0, k0_pay5 (F := Ideal)⟩]
abbrev yw9 (Y : FVec Ideal S8x8x8x256 .bf16) : List (View.Piece (Elt Ideal) S10x10x8x512 EltTy.bf16) :=
  [⟨Rect.unit (s := S10x10x8x512) ![1, 1, 2, 0] S8x8x6x128.size inb_S10x10x8x512_S8x8x6x128_1_1_2_0, k0_pay83 (F := Ideal) Y⟩,
    ⟨Rect.unit (s := S10x10x8x512) ![1, 1, 0, 384] S8x8x6x128.size inb_S10x10x8x512_S8x8x6x128_1_1_0_384, k0_pay82 (F := Ideal) Y⟩,
    ⟨Rect.unit (s := S10x10x8x512) ![1, 1, 0, 128] S8x8x8x256.size inb_S10x10x8x512_S8x8x8x256_1_1_0_128, k0_pay80 (F := Ideal) Y⟩,
    ⟨Rect.unit (s := S10x10x8x512) ![1, 1, 6, 384] S8x8x2x128.size inb_S10x10x8x512_S8x8x2x128_1_1_6_384, k0_pay10 (F := Ideal)⟩,
    ⟨Rect.unit (s := S10x10x8x512) ![1, 1, 0, 0] S8x8x2x128.size inb_S10x10x8x512_S8x8x2x128_1_1_0_0, k0_pay9 (F := Ideal)⟩,
    ⟨Rect.unit (s := S10x10x8x512) ![1, 9, 0, 0] S8x1x8x512.size inb_S10x10x8x512_S8x1x8x512_1_9_0_0, k0_pay8 (F := Ideal)⟩,
    ⟨Rect.unit (s := S10x10x8x512) ![1, 0, 0, 0] S8x1x8x512.size inb_S10x10x8x512_S8x1x8x512_1_0_0_0, k0_pay7 (F := Ideal)⟩,
    ⟨Rect.unit (s := S10x10x8x512) ![9, 0, 0, 0] S1x10x8x512.size inb_S10x10x8x512_S1x10x8x512_9_0_0_0, k0_pay6 (F := Ideal)⟩,
    ⟨Rect.unit (s := S10x10x8x512) ![0, 0, 0, 0] S1x10x8x512.size inb_S10x10x8x512_S1x10x8x512_0_0_0_0, k0_pay5 (F := Ideal)⟩]

variable (arg2 : Memref sig .tc .vmem S8x8x8x8x128 .f32) (harg2 : arg2.IsWhole) (X : Vec Ideal S8x8x8x8x128 .f32)
  (p : Fin 4) (o : Nat) (ho : o = 2 * p.val)
  (inb : ∀ a, (![o, 0, 0, 0, 0] : Fin 5 → Nat) a + S2x8x8x8x128.size a ≤ S8x8x8x8x128.size a)
  (W1 : SWt.Idx → EReal) (T1 : ST.Idx → EReal) (Y : FVec Ideal S8x8x8x256 .bf16)
  (hY : ∀ (d h r : Fin 8) (col : Fin 256),
    Y (ix4 d h r col) = leakyK (convRow (window (xpair X p)) W1 d h r col + T1 (ix2 (0 : Fin 1) col)))

include ho in
/-- With the rim zeroed first, the window build tiles the scratch with blocks of the pair's window. -/
theorem xw10_canon : View.canon (xw10 (xload arg2 harg2 X o inb)) = window (xpair X p) := by
  funext y
  refine View.canon_apply_of_pieces (Val := Elt Ideal) (S := S10x10x8x512) (e := EltTy.bf16) (window (xpair X p)) _ ?_ y
    (View.cover_of_tiledBy _ ![1, 1, 2, 128] (by sl_kernel_rfl) y)
  intro q hq x
  simp only [List.mem_cons, List.not_mem_nil, or_false] at hq
  rcases hq with rfl | rfl | rfl | rfl | rfl | rfl | rfl | rfl | rfl | rfl
  · exact xw_piece57 arg2 harg2 X p o ho inb x
  · exact xw_piece56 arg2 harg2 X p o ho inb x
  · exact xw_piece55 arg2 harg2 X p o ho inb x
  · exact xw_piece54 arg2 harg2 X p o ho inb x
  · exact (pay10_apply x).trans (rim_right _ inb_S10x10x8x512_S8x8x2x128_1_1_6_384 x)
  · exact (pay9_apply x).trans (rim_left _ inb_S10x10x8x512_S8x8x2x128_1_1_0_0 x)
  · exact (pay8_apply x).trans (rim_height _ 9 (Or.inr rfl) inb_S10x10x8x512_S8x1x8x512_1_9_0_0 x)
  · exact (pay7_apply x).trans (rim_height _ 0 (Or.inl rfl) inb_S10x10x8x512_S8x1x8x512_1_0_0_0 x)
  · exact (pay6_apply x).trans (rim_depth _ 9 (Or.inr rfl) inb_S10x10x8x512_S1x10x8x512_9_0_0_0 x)
  · exact (pay5_apply x).trans (rim_depth _ 0 (Or.inl rfl) inb_S10x10x8x512_S1x10x8x512_0_0_0_0 x)

include hY in
theorem yw9_canon : View.canon (yw9 Y) = window (ypair X W1 T1 p) := by
  funext y
  refine View.canon_apply_of_pieces (Val := Elt Ideal) (S := S10x10x8x512) (e := EltTy.bf16) (window (ypair X W1 T1 p)) _ ?_ y
    (View.cover_of_tiledBy _ ![1, 1, 2, 128] (by sl_kernel_rfl) y)
  intro q hq x
  simp only [List.mem_cons, List.not_mem_nil, or_false] at hq
  rcases hq with rfl | rfl | rfl | rfl | rfl | rfl | rfl | rfl | rfl
  · exact yw_piece83 X W1 T1 p Y hY inb_S10x10x8x512_S8x8x6x128_1_1_2_0 x
  · exact yw_piece82 X W1 T1 p Y hY inb_S10x10x8x512_S8x8x6x128_1_1_0_384 x
  · exact yw_piece80 X W1 T1 p Y hY inb_S10x10x8x512_S8x8x8x256_1_1_0_128 x
  · exact (pay10_apply x).trans (rim_right _ inb_S10x10x8x512_S8x8x2x128_1_1_6_384 x)
  · exact (pay9_apply x).trans (rim_left _ inb_S10x10x8x512_S8x8x2x128_1_1_0_0 x)
  · exact (pay8_apply x).trans (rim_height _ 9 (Or.inr rfl) inb_S10x10x8x512_S8x1x8x512_1_9_0_0 x)
  · exact (pay7_apply x).trans (rim_height _ 0 (Or.inl rfl) inb_S10x10x8x512_S8x1x8x512_1_0_0_0 x)
  · exact (pay6_apply x).trans (rim_depth _ 9 (Or.inr rfl) inb_S10x10x8x512_S1x10x8x512_9_0_0_0 x)
  · exact (pay5_apply x).trans (rim_depth _ 0 (Or.inl rfl) inb_S10x10x8x512_S1x10x8x512_0_0_0_0 x)

theorem xw4_cover (v : Vec Ideal S2x8x8x8x128 .f32) (y : S10x10x8x512.Idx) (hy : Inside y) : ∃ q ∈ xw4 v, y ∈ q.1.set := by
  obtain ⟨h0l, h0u, h1l, h1u, hwl, hwu⟩ := hy
  have h2 : (y 2).val < 8 := (y 2).isLt
  have h3 : (y 3).val < 512 := (y 3).isLt
  by_cases r01 : (y 2).val < 2
  · refine ⟨_, List.mem_cons_of_mem _ List.mem_cons_self, ?_⟩
    refine (Rect.mem_set_unit (inb := inb_S10x10x8x512_S8x8x2x384_1_1_0_128)).mpr fun a => ?_
    match a with
    | ⟨0, _⟩ => exact ⟨by show 1 ≤ (y 0).val; omega, by show (y 0).val < 1 + 8; omega⟩
    | ⟨1, _⟩ => exact ⟨by show 1 ≤ (y 1).val; omega, by show (y 1).val < 1 + 8; omega⟩
    | ⟨2, _⟩ => exact ⟨by show 0 ≤ (y 2).val; omega, by show (y 2).val < 0 + 2; omega⟩
    | ⟨3, _⟩ => exact ⟨by show 128 ≤ (y 3).val; omega, by show (y 3).val < 128 + 384; omega⟩
  · by_cases r23 : (y 2).val < 4
    · refine ⟨_, List.mem_cons_of_mem _ (List.mem_cons_of_mem _ (List.mem_cons_of_mem _ List.mem_cons_self)), ?_⟩
      refine (Rect.mem_set_unit (inb := inb_S10x10x8x512_S8x8x2x512_1_1_2_0)).mpr fun a => ?_
      match a with
      | ⟨0, _⟩ => exact ⟨by show 1 ≤ (y 0).val; omega, by show (y 0).val < 1 + 8; omega⟩
      | ⟨1, _⟩ => exact ⟨by show 1 ≤ (y 1).val; omega, by show (y 1).val < 1 + 8; omega⟩
      | ⟨2, _⟩ => exact ⟨by show 2 ≤ (y 2).val; omega, by show (y 2).val < 2 + 2; omega⟩
      | ⟨3, _⟩ => exact ⟨by show 0 ≤ (y 3).val; omega, by show (y 3).val < 0 + 512; omega⟩
    · by_cases r45 : (y 2).val < 6
      · refine ⟨_, List.mem_cons_of_mem _ (List.mem_cons_of_mem _ List.mem_cons_self), ?_⟩
        refine (Rect.mem_set_unit (inb := inb_S10x10x8x512_S8x8x2x512_1_1_4_0)).mpr fun a => ?_
        match a with
        | ⟨0, _⟩ => exact ⟨by show 1 ≤ (y 0).val; omega, by show (y 0).val < 1 + 8; omega⟩
        | ⟨1, _⟩ => exact ⟨by show 1 ≤ (y 1).val; omega, by show (y 1).val < 1 + 8; omega⟩
        | ⟨2, _⟩ => exact ⟨by show 4 ≤ (y 2).val; omega, by show (y 2).val < 4 + 2; omega⟩
        | ⟨3, _⟩ => exact ⟨by show 0 ≤ (y 3).val; omega, by show (y 3).val < 0 + 512; omega⟩
      · refine ⟨_, List.mem_cons_self, ?_⟩
        refine (Rect.mem_set_unit (inb := inb_S10x10x8x512_S8x8x2x384_1_1_6_0)).mpr fun a => ?_
        match a with
        | ⟨0, _⟩ => exact ⟨by show 1 ≤ (y 0).val; omega, by show (y 0).val < 1 + 8; omega⟩
        | ⟨1, _⟩ => exact ⟨by show 1 ≤ (y 1).val; omega, by show (y 1).val < 1 + 8; omega⟩
        | ⟨2, _⟩ => exact ⟨by show 6 ≤ (y 2).val; omega, by show (y 2).val < 6 + 2; omega⟩
        | ⟨3, _⟩ => exact ⟨by show 0 ≤ (y 3).val; omega, by show (y 3).val < 0 + 384; omega⟩

theorem yw3_cover (Y : FVec Ideal S8x8x8x256 .bf16) (y : S10x10x8x512.Idx) (hy : Inside y) : ∃ q ∈ yw3 Y, y ∈ q.1.set := by
  obtain ⟨h0l, h0u, h1l, h1u, hwl, hwu⟩ := hy
  have h2 : (y 2).val < 8 := (y 2).isLt
  have h3 : (y 3).val < 512 := (y 3).isLt
  by_cases k0 : (y 3).val < 128
  · refine ⟨_, List.mem_cons_self, ?_⟩
    refine (Rect.mem_set_unit (inb := inb_S10x10x8x512_S8x8x6x128_1_1_2_0)).mpr fun a => ?_
    match a with
    | ⟨0, _⟩ => exact ⟨by show 1 ≤ (y 0).val; omega, by show (y 0).val < 1 + 8; omega⟩
    | ⟨1, _⟩ => exact ⟨by show 1 ≤ (y 1).val; omega, by show (y 1).val < 1 + 8; omega⟩
    | ⟨2, _⟩ => exact ⟨by show 2 ≤ (y 2).val; omega, by show (y 2).val < 2 + 6; omega⟩
    | ⟨3, _⟩ => exact ⟨by show 0 ≤ (y 3).val; omega, by show (y 3).val < 0 + 128; omega⟩
  · by_cases k1 : (y 3).val < 384
    · refine ⟨_, List.mem_cons_of_mem _ (List.mem_cons_of_mem _ List.mem_cons_self), ?_⟩
      refine (Rect.mem_set_unit (inb := inb_S10x10x8x512_S8x8x8x256_1_1_0_128)).mpr fun a => ?_
      match a with
      | ⟨0, _⟩ => exact ⟨by show 1 ≤ (y 0).val; omega, by show (y 0).val < 1 + 8; omega⟩
      | ⟨1, _⟩ => exact ⟨by show 1 ≤ (y 1).val; omega, by show (y 1).val < 1 + 8; omega⟩
      | ⟨2, _⟩ => exact ⟨by show 0 ≤ (y 2).val; omega, by show (y 2).val < 0 + 8; omega⟩
      | ⟨3, _⟩ => exact ⟨by show 128 ≤ (y 3).val; omega, by show (y 3).val < 128 + 256; omega⟩
    · refine ⟨_, List.mem_cons_of_mem _ List.mem_cons_self, ?_⟩
      refine (Rect.mem_set_unit (inb := inb_S10x10x8x512_S8x8x6x128_1_1_0_384)).mpr fun a => ?_
      match a with
      | ⟨0, _⟩ => exact ⟨by show 1 ≤ (y 0).val; omega, by show (y 0).val < 1 + 8; omega⟩
      | ⟨1, _⟩ => exact ⟨by show 1 ≤ (y 1).val; omega, by show (y 1).val < 1 + 8; omega⟩
      | ⟨2, _⟩ => exact ⟨by show 0 ≤ (y 2).val; omega, by show (y 2).val < 0 + 6; omega⟩
      | ⟨3, _⟩ => exact ⟨by show 384 ≤ (y 3).val; omega, by show (y 3).val < 384 + 128; omega⟩

variable (arg : Memref sig .tc .vmem S10x10x8x512 .bf16) (harg : arg.IsWhole) (xs : Vec Ideal S10x10x8x512 .bf16) (hx : HaloZero xs)

include ho hx in
/-- Over contents whose rim is zero, the window build alone leaves the pair's window. -/
theorem xw4_read : arg.view.read (Elt Ideal) (arg.view.writes (Elt Ideal) (harg.unread xs) (xw4 (xload arg2 harg2 X o inb)))
    = window (xpair X p) := by
  refine scratch_read arg harg xs _ _ (fun q hq x => ?_) (xw4_cover _) hx
  simp only [List.mem_cons, List.not_mem_nil, or_false] at hq
  rcases hq with rfl | rfl | rfl | rfl
  · exact xw_piece57 arg2 harg2 X p o ho inb x
  · exact xw_piece56 arg2 harg2 X p o ho inb x
  · exact xw_piece55 arg2 harg2 X p o ho inb x
  · exact xw_piece54 arg2 harg2 X p o ho inb x

include hY hx in
theorem yw3_read : arg.view.read (Elt Ideal) (arg.view.writes (Elt Ideal) (harg.unread xs) (yw3 Y)) = window (ypair X W1 T1 p) := by
  refine scratch_read arg harg xs _ _ (fun q hq x => ?_) (yw3_cover _) hx
  simp only [List.mem_cons, List.not_mem_nil, or_false] at hq
  rcases hq with rfl | rfl | rfl
  · exact yw_piece83 X W1 T1 p Y hY inb_S10x10x8x512_S8x8x6x128_1_1_2_0 x
  · exact yw_piece82 X W1 T1 p Y hY inb_S10x10x8x512_S8x8x6x128_1_1_0_384 x
  · exact yw_piece80 X W1 T1 p Y hY inb_S10x10x8x512_S8x8x8x256_1_1_0_128 x

end Pieces

/-- A sample's output piece: the second convolution's row, the shift and the sample itself, rectified, is the spec's entry. -/
theorem out_pay (x0 : Vec Ideal S8x8x8x8x128 .f32) (x1 : Vec Ideal S9x512x256 .bf16) (x2 : Vec Ideal S1x256 .f32)
    (x3 : Vec Ideal S9x512x256 .bf16) (x4 : Vec Ideal S1x256 .f32)
    (arg2 : Memref sig .tc .vmem S8x8x8x8x128 .f32) (harg2 : arg2.IsWhole) (arg6 : Memref sig .tc .vmem S1x256 .f32) (harg6 : arg6.IsWhole)
    (p : Fin 4) (s : Nat) (hs : s < 2) (n : Nat) (hn : n = 2 * p.val + s)
    (Z : FVec Ideal S512x256 .f32)
    (hZ : ∀ (d h r : Fin 8) (col : Fin 256), Z (ix2 (row d h r) col) = convRow (window (ypair x0 x1 x2 p)) x3 d h r col)
    (inb6) (inb2) (pay : FVec Ideal S512x256 .f32 → Vec Ideal S1x256 .f32 → Vec Ideal S1x8x8x8x128 .f32 → FVec Ideal S1x8x8x8x128 .f32)
    (hpay : ∀ acc t xl (d h w : Fin 8) (cc : Fin 128), pay acc t xl (ix5 (0 : Fin 1) d h w cc)
      = leakyK (acc (ix2 (row d h (⟨2 * (w.val / 2) + s, by omega⟩ : Fin 8)) (⟨(w.val % 2) * 128 + cc.val, by omega⟩ : Fin 256))
          + t (ix2 (0 : Fin 1) (⟨(w.val % 2) * 128 + cc.val, by omega⟩ : Fin 256)) + xl (ix5 (0 : Fin 1) d h w cc)))
    (y : S1x8x8x8x128.Idx) :
    pay Z (View.readAt (Elt Ideal) arg6.view (Rect.unit (s := S1x256) ![0, 0] ![1, 256] inb6).toLoadRect (harg6.unread x4))
        (View.readAt (Elt Ideal) arg2.view (Rect.unit (s := S8x8x8x8x128) ![n, 0, 0, 0, 0] ![1, 8, 8, 8, 128] inb2).toLoadRect (harg2.unread x0)) y
      = outAt x0 x1 x2 x3 x4 (⟨n, by omega⟩ : Fin 8) (y 1) (y 2) (y 3) (y 4) := by
  obtain ⟨m, d, h, w, cc, rfl⟩ : ∃ (m : Fin 1) (d h w : Fin 8) (cc : Fin 128), y = ix5 m d h w cc :=
    ⟨y 0, y 1, y 2, y 3, y 4, eq_ix5 y⟩
  obtain rfl : m = 0 := Subsingleton.elim _ _
  have hw := w.isLt; have hcc := cc.isLt; have hp := p.isLt
  rw [hpay, hZ, tload_apply, sload_apply arg2 harg2 x0 n (by omega)]
  exact (outAt_eq x0 x1 x2 x3 x4 (⟨n, by omega⟩ : Fin 8) p d h w cc _ _
    (by show p.val = n / 2; omega) (by show 2 * (w.val / 2) + s = 2 * (w.val / 2) + n % 2; omega) rfl).symm

end Cert.KernelIdeal.Pair0Ops
end
-- ==== Proof.KPiece.lean ====
/- Sample n's piece of the output block is the block's rectangle at offset n. -/
import proofs.«102070_g2000507141466659_pallasbulk_1049_20_alg».proof.Proof.KSpec

noncomputable section

open Idealize.ShloMosaic

namespace Cert.KSpec

theorem piece_ok (x0 : SB.Idx → EReal) (W1 : SWt.Idx → EReal) (T1 : ST.Idx → EReal) (W2 : SWt.Idx → EReal)
    (T2 : ST.Idx → EReal) (n : Nat) (hn : n < 8)
    (inb : ∀ a, (![n, 0, 0, 0, 0] : Fin 5 → Nat) a + (![1, 8, 8, 8, 128] : Fin 5 → Nat) a ≤ SB.size a)
    (pay : (⟨5, ![1, 8, 8, 8, 128]⟩ : Shape).Idx → EReal)
    (h : ∀ y, pay y = outAt x0 W1 T1 W2 T2 ⟨n, hn⟩ (y 1) (y 2) (y 3) (y 4)) :
    ∀ x : (Rect.unit (s := SB) ![n, 0, 0, 0, 0] ![1, 8, 8, 8, 128] inb).shape.Idx,
      pay x = OutB x0 W1 T1 W2 T2 ((Rect.unit (s := SB) ![n, 0, 0, 0, 0] ![1, 8, 8, 8, 128] inb).emb x) := by
  intro x
  have h0 : (x 0).val < 1 := (x 0).isLt
  have e0 : (Rect.unit (s := SB) ![n, 0, 0, 0, 0] ![1, 8, 8, 8, 128] inb).emb x 0 = (⟨n, hn⟩ : Fin 8) :=
    Fin.ext (by show n + 1 * (x 0).val = n; omega)
  have e1 : (Rect.unit (s := SB) ![n, 0, 0, 0, 0] ![1, 8, 8, 8, 128] inb).emb x 1 = x 1 :=
    Fin.ext (by show 0 + 1 * (x 1).val = (x 1).val; omega)
  have e2 : (Rect.unit (s := SB) ![n, 0, 0, 0, 0] ![1, 8, 8, 8, 128] inb).emb x 2 = x 2 :=
    Fin.ext (by show 0 + 1 * (x 2).val = (x 2).val; omega)
  have e3 : (Rect.unit (s := SB) ![n, 0, 0, 0, 0] ![1, 8, 8, 8, 128] inb).emb x 3 = x 3 :=
    Fin.ext (by show 0 + 1 * (x 3).val = (x 3).val; omega)
  have e4 : (Rect.unit (s := SB) ![n, 0, 0, 0, 0] ![1, 8, 8, 8, 128] inb).emb x 4 = x 4 :=
    Fin.ext (by show 0 + 1 * (x 4).val = (x 4).val; omega)
  rw [h x]
  show _ = outAt x0 W1 T1 W2 T2 _ _ _ _ _
  rw [e0, e1, e2, e3, e4]

end Cert.KSpec

end
-- ==== Proof.KPairA0.lean ====
/- Pair 0 (samples 0 and 1) at a point that zeroes the rims first. -/
import proofs.«102070_g2000507141466659_pallasbulk_1049_20_alg».proof.Proof.Gen.KernelIdeal.Frame.RunA
import proofs.«102070_g2000507141466659_pallasbulk_1049_20_alg».proof.Proof.KSpec
import proofs.«102070_g2000507141466659_pallasbulk_1049_20_alg».proof.Proof.KPair0Ops
import proofs.«102070_g2000507141466659_pallasbulk_1049_20_alg».proof.Proof.KPiece

noncomputable section

open Idealize.ShloMosaic Idealize.ShloMosaic.ValueIdx Idealize.SL.Sem

namespace Cert.KernelIdeal.PairA0

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole)
  (hc0 : cond0_0 i)
  (x0 : Vec Ideal S8x8x8x8x128 .f32) (x1 : Vec Ideal S9x512x256 .bf16) (x2 : Vec Ideal S1x256 .f32) (x3 : Vec Ideal S9x512x256 .bf16) (x4 : Vec Ideal S1x256 .f32)

theorem xw_canon : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.1 = window (xpair x0 ⟨0, by norm_num⟩) := by
  unfold kernelRun0_A
  dsimp only
  unfold kernelRun0_A.sl.HS0_10
  exact xw10_canon arg2 harg2 x0 ⟨0, by norm_num⟩ 0 rfl _

theorem yw_canon : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.1 = window (ypair x0 x1 x2 ⟨0, by norm_num⟩) := by
  have hxw := xw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hxw ⊢
  dsimp only at hxw ⊢
  unfold kernelRun0_A.sl.HS1_9
  exact yw9_canon x0 ⟨0, by norm_num⟩ x1 x2 _ (conv1_ld (fun B => arg8.view.readCov (kernelRun0_A.sl.HS0_10 (F := Ideal) c arg2 harg2 x0) B) (fun B j => cov_read arg8 _ _ hxw B j) arg3 harg3 x1 arg4 harg4 x2)

theorem out_even :
    ∀ (hk : 7 < (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1.length) (x : ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[7]'hk).1.shape.Idx),
      ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[7]'hk).2 x = OutB x0 x1 x2 x3 x4 (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[7]'hk).1.emb x) := by
  have hyw := yw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hyw ⊢
  dsimp only at hyw ⊢
  intro hk
  dsimp only [List.getElem_cons_zero, List.getElem_cons_succ]
  refine piece_ok x0 x1 x2 x3 x4 0 (by norm_num) _ _ fun y => ?_
  exact out_pay x0 x1 x2 x3 x4 arg2 harg2 arg6 harg6 ⟨0, by norm_num⟩ 0 (by norm_num) 0 rfl _
    (conv2_ld (fun B => arg9.view.readCov (kernelRun0_A.sl.HS1_9 (F := Ideal) c arg2 harg2 arg3 harg3 arg4 harg4 arg8 x0 x1 x2) B) (fun B j => cov_read arg9 _ _ hyw B j) arg5 harg5 x3) _ _ (k0_pay116 (F := Ideal)) pay116_apply y

theorem out_odd :
    ∀ (hk : 6 < (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1.length) (x : ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[6]'hk).1.shape.Idx),
      ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[6]'hk).2 x = OutB x0 x1 x2 x3 x4 (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[6]'hk).1.emb x) := by
  have hyw := yw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hyw ⊢
  dsimp only at hyw ⊢
  intro hk
  dsimp only [List.getElem_cons_zero, List.getElem_cons_succ]
  refine piece_ok x0 x1 x2 x3 x4 1 (by norm_num) _ _ fun y => ?_
  exact out_pay x0 x1 x2 x3 x4 arg2 harg2 arg6 harg6 ⟨0, by norm_num⟩ 1 (by norm_num) 1 rfl _
    (conv2_ld (fun B => arg9.view.readCov (kernelRun0_A.sl.HS1_9 (F := Ideal) c arg2 harg2 arg3 harg3 arg4 harg4 arg8 x0 x1 x2) B) (fun B j => cov_read arg9 _ _ hyw B j) arg5 harg5 x3) _ _ (k0_pay117 (F := Ideal)) pay117_apply y

end Cert.KernelIdeal.PairA0
end
-- ==== Proof.KPairA1.lean ====
/- Pair 1 (samples 2 and 3) at a point that zeroes the rims first: pair 0's operations on the pair's own scratches. -/
import proofs.«102070_g2000507141466659_pallasbulk_1049_20_alg».proof.Proof.Gen.KernelIdeal.Frame.RunA
import proofs.«102070_g2000507141466659_pallasbulk_1049_20_alg».proof.Proof.KSpec
import proofs.«102070_g2000507141466659_pallasbulk_1049_20_alg».proof.Proof.KPiece
import proofs.«102070_g2000507141466659_pallasbulk_1049_20_alg».proof.Proof.KPair0Ops

noncomputable section

open Idealize.ShloMosaic Idealize.ShloMosaic.ValueIdx Idealize.SL.Sem

namespace Cert.KernelIdeal.PairA1

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole) (hc0 : cond0_0 i) (x0 : Vec Ideal S8x8x8x8x128 .f32) (x1 : Vec Ideal S9x512x256 .bf16) (x2 : Vec Ideal S1x256 .f32) (x3 : Vec Ideal S9x512x256 .bf16) (x4 : Vec Ideal S1x256 .f32)

theorem xw_canon :
    View.canon ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.1) = window (xpair x0 (⟨1, by norm_num⟩ : Fin 4)) := by
  unfold kernelRun0_A
  dsimp only
  unfold kernelRun0_A.sl.HS2_10
  exact xw10_canon arg2 harg2 x0 ⟨1, by norm_num⟩ 2 rfl _

theorem yw_canon :
    View.canon ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.2.1) = window (ypair x0 x1 x2 (⟨1, by norm_num⟩ : Fin 4)) := by
  have hxw := xw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hxw ⊢
  dsimp only at hxw ⊢
  unfold kernelRun0_A.sl.HS3_9
  exact yw9_canon x0 ⟨1, by norm_num⟩ x1 x2 _ (conv1_ld (fun B => arg10.view.readCov (kernelRun0_A.sl.HS2_10 (F := Ideal) c arg2 harg2 x0) B) (fun B j => cov_read arg10 _ _ hxw B j) arg3 harg3 x1 arg4 harg4 x2)

theorem out_even :
    ∀ (hk : 5 < ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1.length) (x : (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1[5]'hk).1.shape.Idx),
      (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1[5]'hk).2 x = OutB x0 x1 x2 x3 x4 ((((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1[5]'hk).1.emb x) := by
  have hyw := yw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hyw ⊢
  dsimp only at hyw ⊢
  intro hk
  dsimp only [List.getElem_cons_zero, List.getElem_cons_succ]
  refine piece_ok x0 x1 x2 x3 x4 2 (by norm_num) _ _ fun y => ?_
  exact out_pay x0 x1 x2 x3 x4 arg2 harg2 arg6 harg6 ⟨1, by norm_num⟩ 0 (by norm_num) 2 rfl _
    (conv2_ld (fun B => arg11.view.readCov (kernelRun0_A.sl.HS3_9 (F := Ideal) c arg2 harg2 arg3 harg3 arg4 harg4 arg10 x0 x1 x2) B) (fun B j => cov_read arg11 _ _ hyw B j) arg5 harg5 x3) _ _ (k0_pay116 (F := Ideal)) pay116_apply y

theorem out_odd :
    ∀ (hk : 4 < ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1.length) (x : (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1[4]'hk).1.shape.Idx),
      (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1[4]'hk).2 x = OutB x0 x1 x2 x3 x4 ((((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)).1[4]'hk).1.emb x) := by
  have hyw := yw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hyw ⊢
  dsimp only at hyw ⊢
  intro hk
  dsimp only [List.getElem_cons_zero, List.getElem_cons_succ]
  refine piece_ok x0 x1 x2 x3 x4 3 (by norm_num) _ _ fun y => ?_
  exact out_pay x0 x1 x2 x3 x4 arg2 harg2 arg6 harg6 ⟨1, by norm_num⟩ 1 (by norm_num) 3 rfl _
    (conv2_ld (fun B => arg11.view.readCov (kernelRun0_A.sl.HS3_9 (F := Ideal) c arg2 harg2 arg3 harg3 arg4 harg4 arg10 x0 x1 x2) B) (fun B j => cov_read arg11 _ _ hyw B j) arg5 harg5 x3) _ _ (k0_pay117 (F := Ideal)) pay117_apply y

end Cert.KernelIdeal.PairA1
end
-- ==== Proof.KPairA2.lean ====
import proofs.«102070_g2000507141466659_pallasbulk_1049_20_alg».proof.Proof.Gen.KernelIdeal.Frame.RunA
import proofs.«102070_g2000507141466659_pallasbulk_1049_20_alg».proof.Proof.KSpec
import proofs.«102070_g2000507141466659_pallasbulk_1049_20_alg».proof.Proof.KPiece
import proofs.«102070_g2000507141466659_pallasbulk_1049_20_alg».proof.Proof.KPair0Ops

noncomputable section

open scoped BigOperators
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.KernelIdeal.PairA2

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole) (hc0 : cond0_0 i) (x0 : Vec Ideal S8x8x8x8x128 .f32) (x1 : Vec Ideal S9x512x256 .bf16) (x2 : Vec Ideal S1x256 .f32) (x3 : Vec Ideal S9x512x256 .bf16) (x4 : Vec Ideal S1x256 .f32)

/-- The ten stores into the pair's first scratch are pair 0's ten, fed the load of samples 4 and 5. -/
theorem xw : View.canon (kernelRun0_A.sl.HS4_10 (F := Ideal) c arg2 harg2 x0) = window (xpair x0 ⟨2, by norm_num⟩) :=
  xw10_canon arg2 harg2 x0 ⟨2, by norm_num⟩ 4 rfl inb_S8x8x8x8x128_S2x8x8x8x128_4_0_0_0_0

/-- The nine stores into the pair's second scratch are pair 0's nine, fed the first convolution off the loads of the first scratch. -/
theorem yw : View.canon (kernelRun0_A.sl.HS5_9 (F := Ideal) c arg2 harg2 arg3 harg3 arg4 harg4 arg12 x0 x1 x2) = window (ypair x0 x1 x2 ⟨2, by norm_num⟩) :=
  yw9_canon x0 ⟨2, by norm_num⟩ x1 x2 _ (conv1_ld (fun B => arg12.view.readCov (kernelRun0_A.sl.HS4_10 (F := Ideal) c arg2 harg2 x0) B)
    (fun B j => cov_read arg12 _ _ (xw c arg2 harg2 x0) B j) arg3 harg3 x1 arg4 harg4 x2)

theorem xw_canon :
    View.canon (kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.2.2.1 = Cert.KSpec.window (Cert.KSpec.xpair x0 ⟨2, by norm_num⟩) := by
  unfold kernelRun0_A
  dsimp only
  exact xw c arg2 harg2 x0

theorem yw_canon :
    View.canon (kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.2.2.2.1 = Cert.KSpec.window (Cert.KSpec.ypair x0 x1 x2 ⟨2, by norm_num⟩) := by
  unfold kernelRun0_A
  dsimp only
  exact yw c arg2 harg2 arg3 harg3 arg4 harg4 arg12 x0 x1 x2

theorem out_even :
    ∀ (hk : 3 < (kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1.length) (x : ((kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[3]'hk).1.shape.Idx),
      ((kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[3]'hk).2 x = Cert.KSpec.OutB x0 x1 x2 x3 x4 (((kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[3]'hk).1.emb x) := by
  unfold kernelRun0_A
  dsimp only
  intro hk
  dsimp only [List.getElem_cons_zero, List.getElem_cons_succ]
  refine piece_ok x0 x1 x2 x3 x4 4 (by norm_num) _ _ fun y => ?_
  exact out_pay x0 x1 x2 x3 x4 arg2 harg2 arg6 harg6 ⟨2, by norm_num⟩ 0 (by norm_num) 4 rfl _
    (conv2_ld (fun B => arg13.view.readCov (kernelRun0_A.sl.HS5_9 (F := Ideal) c arg2 harg2 arg3 harg3 arg4 harg4 arg12 x0 x1 x2) B) (fun B j => cov_read arg13 _ _ (yw c arg2 harg2 arg3 harg3 arg4 harg4 arg12 x0 x1 x2) B j) arg5 harg5 x3) _ _ (k0_pay116 (F := Ideal)) pay116_apply y

theorem out_odd :
    ∀ (hk : 2 < (kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1.length) (x : ((kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[2]'hk).1.shape.Idx),
      ((kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[2]'hk).2 x = Cert.KSpec.OutB x0 x1 x2 x3 x4 (((kernelRun0_A (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[2]'hk).1.emb x) := by
  unfold kernelRun0_A
  dsimp only
  intro hk
  dsimp only [List.getElem_cons_zero, List.getElem_cons_succ]
  refine piece_ok x0 x1 x2 x3 x4 5 (by norm_num) _ _ fun y => ?_
  exact out_pay x0 x1 x2 x3 x4 arg2 harg2 arg6 harg6 ⟨2, by norm_num⟩ 1 (by norm_num) 5 rfl _
    (conv2_ld (fun B => arg13.view.readCov (kernelRun0_A.sl.HS5_9 (F := Ideal) c arg2 harg2 arg3 harg3 arg4 harg4 arg12 x0 x1 x2) B) (fun B j => cov_read arg13 _ _ (yw c arg2 harg2 arg3 harg3 arg4 harg4 arg12 x0 x1 x2) B j) arg5 harg5 x3) _ _ (k0_pay117 (F := Ideal)) pay117_apply y

end Cert.KernelIdeal.PairA2
end
-- ==== Proof.KPairA3.lean ====
/- Pair 3 at a point that zeroes the rims first: pair 0's lemmas over pair 3's loads. -/
import proofs.«102070_g2000507141466659_pallasbulk_1049_20_alg».proof.Proof.Gen.KernelIdeal.Frame.RunA
import proofs.«102070_g2000507141466659_pallasbulk_1049_20_alg».proof.Proof.KSpec
import proofs.«102070_g2000507141466659_pallasbulk_1049_20_alg».proof.Proof.KPiece
import proofs.«102070_g2000507141466659_pallasbulk_1049_20_alg».proof.Proof.KPair0Ops

noncomputable section

open Idealize.ShloMosaic Idealize.ShloMosaic.ValueIdx Idealize.SL.Sem

namespace Cert.KernelIdeal.PairA3

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole) (hc0 : cond0_0 i) (x0 : Vec Ideal S8x8x8x8x128 .f32) (x1 : Vec Ideal S9x512x256 .bf16) (x2 : Vec Ideal S1x256 .f32) (x3 : Vec Ideal S9x512x256 .bf16) (x4 : Vec Ideal S1x256 .f32)

theorem xw_canon :
    View.canon ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.2.2.2.2.1) = window (xpair x0 ⟨3, by norm_num⟩) := by
  unfold kernelRun0_A
  dsimp only
  unfold kernelRun0_A.sl.HS6_10
  exact xw10_canon arg2 harg2 x0 ⟨3, by norm_num⟩ 6 rfl _

theorem yw_canon :
    View.canon ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).2.2.2.2.2.2.2.2.1) = window (ypair x0 x1 x2 ⟨3, by norm_num⟩) := by
  have hxw := xw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hxw ⊢
  dsimp only at hxw ⊢
  unfold kernelRun0_A.sl.HS7_9
  exact yw9_canon x0 ⟨3, by norm_num⟩ x1 x2 _ fun d h r col =>
    conv1_ld (fun B => arg14.view.readCov (kernelRun0_A.sl.HS6_10 (F := Ideal) c arg2 harg2 x0) B) (fun B j => cov_read arg14 _ _ hxw B j) arg3 harg3 x1 arg4 harg4 x2 d h r col

theorem out_even :
    ∀ (hk : 1 < (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1.length)
      (x : ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[1]'hk).1.shape.Idx),
      ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[1]'hk).2 x
        = OutB x0 x1 x2 x3 x4 (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[1]'hk).1.emb x) := by
  have hyw := yw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hyw ⊢
  dsimp only at hyw ⊢
  intro hk
  dsimp only [List.getElem_cons_zero, List.getElem_cons_succ]
  refine piece_ok x0 x1 x2 x3 x4 6 (by norm_num) _ _ fun y => ?_
  exact out_pay x0 x1 x2 x3 x4 arg2 harg2 arg6 harg6 ⟨3, by norm_num⟩ 0 (by norm_num) 6 rfl _
    (fun d h r col => conv2_ld (fun B => arg15.view.readCov (kernelRun0_A.sl.HS7_9 (F := Ideal) c arg2 harg2 arg3 harg3 arg4 harg4 arg14 x0 x1 x2) B) (fun B j => cov_read arg15 _ _ hyw B j) arg5 harg5 x3 d h r col)
    _ _ (k0_pay116 (F := Ideal)) pay116_apply y

theorem out_odd :
    ∀ (hk : 0 < (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1.length)
      (x : ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[0]'hk).1.shape.Idx),
      ((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[0]'hk).2 x
        = OutB x0 x1 x2 x3 x4 (((kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1[0]'hk).1.emb x) := by
  have hyw := yw_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4
  unfold kernelRun0_A at hyw ⊢
  dsimp only at hyw ⊢
  intro hk
  dsimp only [List.getElem_cons_zero, List.getElem_cons_succ]
  refine piece_ok x0 x1 x2 x3 x4 7 (by norm_num) _ _ fun y => ?_
  exact out_pay x0 x1 x2 x3 x4 arg2 harg2 arg6 harg6 ⟨3, by norm_num⟩ 1 (by norm_num) 7 rfl _
    (fun d h r col => conv2_ld (fun B => arg15.view.readCov (kernelRun0_A.sl.HS7_9 (F := Ideal) c arg2 harg2 arg3 harg3 arg4 harg4 arg14 x0 x1 x2) B) (fun B j => cov_read arg15 _ _ hyw B j) arg5 harg5 x3 d h r col)
    _ _ (k0_pay117 (F := Ideal)) pay117_apply y

end Cert.KernelIdeal.PairA3
end
-- ==== Proof.KPairB0.lean ====
/- Pair 0 (samples 0 and 1) at a point that keeps the zero rims of the point before. -/
import proofs.«102070_g2000507141466659_pallasbulk_1049_20_alg».proof.Proof.Gen.KernelIdeal.Frame.RunB
import proofs.«102070_g2000507141466659_pallasbulk_1049_20_alg».proof.Proof.KSpec
import proofs.«102070_g2000507141466659_pallasbulk_1049_20_alg».proof.Proof.KPiece
import proofs.«102070_g2000507141466659_pallasbulk_1049_20_alg».proof.Proof.KPair0Ops

noncomputable section

open Idealize.ShloMosaic Idealize.ShloMosaic.ValueIdx Idealize.SL.Sem

namespace Cert.KernelIdeal.PairB0

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole)
  (hc0 : ¬cond0_0 i)
  (x0 : Vec Ideal S8x8x8x8x128 .f32) (x1 : Vec Ideal S9x512x256 .bf16) (x2 : Vec Ideal S1x256 .f32) (x3 : Vec Ideal S9x512x256 .bf16) (x4 : Vec Ideal S1x256 .f32)
  (xs0 xs1 xs2 xs3 xs4 xs5 xs6 xs7 : Vec Ideal S10x10x8x512 .bf16)

theorem xw_read (hx : HaloZero xs0) :
    arg8.view.read (Elt Ideal) (arg8.view.writes (Elt Ideal) (harg8.unread xs0) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.1) = window (xpair x0 ⟨0, by norm_num⟩) := by
  unfold kernelRun0_B
  dsimp only
  unfold kernelRun0_B.sl.HS0_4
  exact xw4_read arg2 harg2 x0 ⟨0, by norm_num⟩ 0 rfl _ arg8 harg8 xs0 hx

theorem yw_read (hx : HaloZero xs0) (hy : HaloZero xs1) :
    arg9.view.read (Elt Ideal) (arg9.view.writes (Elt Ideal) (harg9.unread xs1) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.2.1) = window (ypair x0 x1 x2 ⟨0, by norm_num⟩) := by
  have hxw := xw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx
  unfold kernelRun0_B at hxw ⊢
  dsimp only at hxw ⊢
  unfold kernelRun0_B.sl.HS1_3
  exact yw3_read x0 ⟨0, by norm_num⟩ x1 x2 _ (conv1_ld (fun B => View.readAt (Elt Ideal) arg8.view B (arg8.view.writes (Elt Ideal) (harg8.unread xs0) (kernelRun0_B.sl.HS0_4 (F := Ideal) c arg2 harg2 x0))) (fun B j => by rw [View.readAt_apply, hxw]) arg3 harg3 x1 arg4 harg4 x2) arg9 harg9 xs1 hy

theorem out_even (hx : HaloZero xs0) (hy : HaloZero xs1) :
    ∀ (hk : 7 < (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length) (x : ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[7]'hk).1.shape.Idx),
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[7]'hk).2 x = OutB x0 x1 x2 x3 x4 (((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[7]'hk).1.emb x) := by
  have hyw := yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx hy
  unfold kernelRun0_B at hyw ⊢
  dsimp only at hyw ⊢
  intro hk
  dsimp only [List.getElem_cons_zero, List.getElem_cons_succ]
  refine piece_ok x0 x1 x2 x3 x4 0 (by norm_num) _ _ fun y => ?_
  exact out_pay x0 x1 x2 x3 x4 arg2 harg2 arg6 harg6 ⟨0, by norm_num⟩ 0 (by norm_num) 0 rfl _
    (conv2_ld (fun B => View.readAt (Elt Ideal) arg9.view B (arg9.view.writes (Elt Ideal) (harg9.unread xs1) (kernelRun0_B.sl.HS1_3 (F := Ideal) c arg2 harg2 arg3 harg3 arg4 harg4 arg8 harg8 x0 x1 x2 xs0))) (fun B j => by rw [View.readAt_apply, hyw]) arg5 harg5 x3) _ _ (k0_pay116 (F := Ideal)) pay116_apply y

theorem out_odd (hx : HaloZero xs0) (hy : HaloZero xs1) :
    ∀ (hk : 6 < (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length) (x : ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[6]'hk).1.shape.Idx),
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[6]'hk).2 x = OutB x0 x1 x2 x3 x4 (((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[6]'hk).1.emb x) := by
  have hyw := yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx hy
  unfold kernelRun0_B at hyw ⊢
  dsimp only at hyw ⊢
  intro hk
  dsimp only [List.getElem_cons_zero, List.getElem_cons_succ]
  refine piece_ok x0 x1 x2 x3 x4 1 (by norm_num) _ _ fun y => ?_
  exact out_pay x0 x1 x2 x3 x4 arg2 harg2 arg6 harg6 ⟨0, by norm_num⟩ 1 (by norm_num) 1 rfl _
    (conv2_ld (fun B => View.readAt (Elt Ideal) arg9.view B (arg9.view.writes (Elt Ideal) (harg9.unread xs1) (kernelRun0_B.sl.HS1_3 (F := Ideal) c arg2 harg2 arg3 harg3 arg4 harg4 arg8 harg8 x0 x1 x2 xs0))) (fun B j => by rw [View.readAt_apply, hyw]) arg5 harg5 x3) _ _ (k0_pay117 (F := Ideal)) pay117_apply y

end Cert.KernelIdeal.PairB0
end
-- ==== Proof.KPairB1.lean ====
/- Pair 1 (samples 2 and 3) at a point that keeps the zero rims of the point before: pair 0's operations on the pair's own scratches. -/
import proofs.«102070_g2000507141466659_pallasbulk_1049_20_alg».proof.Proof.Gen.KernelIdeal.Frame.RunB
import proofs.«102070_g2000507141466659_pallasbulk_1049_20_alg».proof.Proof.KSpec
import proofs.«102070_g2000507141466659_pallasbulk_1049_20_alg».proof.Proof.KPiece
import proofs.«102070_g2000507141466659_pallasbulk_1049_20_alg».proof.Proof.KPair0Ops

noncomputable section

open Idealize.ShloMosaic Idealize.ShloMosaic.ValueIdx Idealize.SL.Sem

namespace Cert.KernelIdeal.PairB1

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole) (hc0 : ¬cond0_0 i) (x0 : Vec Ideal S8x8x8x8x128 .f32) (x1 : Vec Ideal S9x512x256 .bf16) (x2 : Vec Ideal S1x256 .f32) (x3 : Vec Ideal S9x512x256 .bf16) (x4 : Vec Ideal S1x256 .f32) (xs0 : Vec Ideal S10x10x8x512 .bf16) (xs1 : Vec Ideal S10x10x8x512 .bf16) (xs2 : Vec Ideal S10x10x8x512 .bf16) (xs3 : Vec Ideal S10x10x8x512 .bf16) (xs4 : Vec Ideal S10x10x8x512 .bf16) (xs5 : Vec Ideal S10x10x8x512 .bf16) (xs6 : Vec Ideal S10x10x8x512 .bf16) (xs7 : Vec Ideal S10x10x8x512 .bf16)

theorem xw_read (hx : HaloZero xs2) :
    arg10.view.read (Elt Ideal) (arg10.view.writes (Elt Ideal) (harg10.unread xs2) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.2.2.1)
      = window (xpair x0 ⟨1, by norm_num⟩) := by
  unfold kernelRun0_B
  dsimp only
  unfold kernelRun0_B.sl.HS2_4
  exact xw4_read arg2 harg2 x0 ⟨1, by norm_num⟩ 2 rfl _ arg10 harg10 xs2 hx

theorem yw_read (hx : HaloZero xs2) (hy : HaloZero xs3) :
    arg11.view.read (Elt Ideal) (arg11.view.writes (Elt Ideal) (harg11.unread xs3) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.2.2.2.1)
      = window (ypair x0 x1 x2 ⟨1, by norm_num⟩) := by
  have hxw := xw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx
  unfold kernelRun0_B at hxw ⊢
  dsimp only at hxw ⊢
  unfold kernelRun0_B.sl.HS3_3
  exact yw3_read x0 ⟨1, by norm_num⟩ x1 x2 _ (conv1_ld (fun B => View.readAt (Elt Ideal) arg10.view B (arg10.view.writes (Elt Ideal) (harg10.unread xs2) (kernelRun0_B.sl.HS2_4 (F := Ideal) c arg2 harg2 x0))) (fun B j => by rw [View.readAt_apply, hxw]) arg3 harg3 x1 arg4 harg4 x2) arg11 harg11 xs3 hy

theorem out_even (hx : HaloZero xs2) (hy : HaloZero xs3) :
    ∀ (hk : 5 < (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length) (x : ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[5]'hk).1.shape.Idx),
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[5]'hk).2 x = OutB x0 x1 x2 x3 x4 (((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[5]'hk).1.emb x) := by
  have hyw := yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx hy
  unfold kernelRun0_B at hyw ⊢
  dsimp only at hyw ⊢
  intro hk
  dsimp only [List.getElem_cons_zero, List.getElem_cons_succ]
  refine piece_ok x0 x1 x2 x3 x4 2 (by norm_num) _ _ fun y => ?_
  exact out_pay x0 x1 x2 x3 x4 arg2 harg2 arg6 harg6 ⟨1, by norm_num⟩ 0 (by norm_num) 2 rfl _
    (conv2_ld (fun B => View.readAt (Elt Ideal) arg11.view B (arg11.view.writes (Elt Ideal) (harg11.unread xs3) (kernelRun0_B.sl.HS3_3 (F := Ideal) c arg2 harg2 arg3 harg3 arg4 harg4 arg10 harg10 x0 x1 x2 xs2))) (fun B j => by rw [View.readAt_apply, hyw]) arg5 harg5 x3) _ _ (k0_pay116 (F := Ideal)) pay116_apply y

theorem out_odd (hx : HaloZero xs2) (hy : HaloZero xs3) :
    ∀ (hk : 4 < (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length) (x : ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[4]'hk).1.shape.Idx),
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[4]'hk).2 x = OutB x0 x1 x2 x3 x4 (((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[4]'hk).1.emb x) := by
  have hyw := yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx hy
  unfold kernelRun0_B at hyw ⊢
  dsimp only at hyw ⊢
  intro hk
  dsimp only [List.getElem_cons_zero, List.getElem_cons_succ]
  refine piece_ok x0 x1 x2 x3 x4 3 (by norm_num) _ _ fun y => ?_
  exact out_pay x0 x1 x2 x3 x4 arg2 harg2 arg6 harg6 ⟨1, by norm_num⟩ 1 (by norm_num) 3 rfl _
    (conv2_ld (fun B => View.readAt (Elt Ideal) arg11.view B (arg11.view.writes (Elt Ideal) (harg11.unread xs3) (kernelRun0_B.sl.HS3_3 (F := Ideal) c arg2 harg2 arg3 harg3 arg4 harg4 arg10 harg10 x0 x1 x2 xs2))) (fun B j => by rw [View.readAt_apply, hyw]) arg5 harg5 x3) _ _ (k0_pay117 (F := Ideal)) pay117_apply y

end Cert.KernelIdeal.PairB1
end
-- ==== Proof.KPairB2.lean ====
import proofs.«102070_g2000507141466659_pallasbulk_1049_20_alg».proof.Proof.Gen.KernelIdeal.Frame.RunB
import proofs.«102070_g2000507141466659_pallasbulk_1049_20_alg».proof.Proof.KSpec
import proofs.«102070_g2000507141466659_pallasbulk_1049_20_alg».proof.Proof.KPiece
import proofs.«102070_g2000507141466659_pallasbulk_1049_20_alg».proof.Proof.KPair0Ops

noncomputable section

open scoped BigOperators
open Idealize.ShloMosaic Idealize.ShloMosaic.ValueIdx
open Idealize.SL.Sem

namespace Cert.KernelIdeal.PairB2

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole) (hc0 : ¬cond0_0 i) (x0 : Vec Ideal S8x8x8x8x128 .f32) (x1 : Vec Ideal S9x512x256 .bf16) (x2 : Vec Ideal S1x256 .f32) (x3 : Vec Ideal S9x512x256 .bf16) (x4 : Vec Ideal S1x256 .f32)
  (xs0 xs1 xs2 xs3 xs4 xs5 xs6 xs7 : Vec Ideal S10x10x8x512 .bf16)

/-- The four stores into the pair's first scratch are pair 0's four, fed the load of samples 4 and 5; the rim was zero. -/
theorem xw (hx : HaloZero xs4) :
    arg12.view.read (Elt Ideal) (arg12.view.writes (Elt Ideal) (harg12.unread xs4) (kernelRun0_B.sl.HS4_4 (F := Ideal) c arg2 harg2 x0)) = window (xpair x0 ⟨2, by norm_num⟩) :=
  xw4_read arg2 harg2 x0 ⟨2, by norm_num⟩ 4 rfl inb_S8x8x8x8x128_S2x8x8x8x128_4_0_0_0_0 arg12 harg12 xs4 hx

/-- The three stores into the pair's second scratch are pair 0's three, fed the first convolution off the loads of the first scratch; the rim was zero. -/
theorem yw (hx : HaloZero xs4) (hy : HaloZero xs5) :
    arg13.view.read (Elt Ideal) (arg13.view.writes (Elt Ideal) (harg13.unread xs5) (kernelRun0_B.sl.HS5_3 (F := Ideal) c arg2 harg2 arg3 harg3 arg4 harg4 arg12 harg12 x0 x1 x2 xs4)) = window (ypair x0 x1 x2 ⟨2, by norm_num⟩) :=
  yw3_read x0 ⟨2, by norm_num⟩ x1 x2 _ (conv1_ld (fun B => View.readAt (Elt Ideal) arg12.view B (arg12.view.writes (Elt Ideal) (harg12.unread xs4) (kernelRun0_B.sl.HS4_4 (F := Ideal) c arg2 harg2 x0)))
    (fun B j => by rw [View.readAt_apply, xw c arg2 harg2 arg12 harg12 x0 xs4 hx]) arg3 harg3 x1 arg4 harg4 x2) arg13 harg13 xs5 hy

theorem xw_read (hx : Cert.KSpec.HaloZero xs4) :
    arg12.view.read (Elt Idealize.ShloMosaic.Ideal) (arg12.view.writes (Elt Idealize.ShloMosaic.Ideal) (harg12.unread xs4) (kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.2.2.2.2.1) = Cert.KSpec.window (Cert.KSpec.xpair x0 ⟨2, by norm_num⟩) := by
  unfold kernelRun0_B
  dsimp only
  exact xw c arg2 harg2 arg12 harg12 x0 xs4 hx

theorem yw_read (hx : Cert.KSpec.HaloZero xs4) (hy : Cert.KSpec.HaloZero xs5) :
    arg13.view.read (Elt Idealize.ShloMosaic.Ideal) (arg13.view.writes (Elt Idealize.ShloMosaic.Ideal) (harg13.unread xs5) (kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.2.2.2.2.2.1) = Cert.KSpec.window (Cert.KSpec.ypair x0 x1 x2 ⟨2, by norm_num⟩) := by
  unfold kernelRun0_B
  dsimp only
  exact yw c arg2 harg2 arg3 harg3 arg4 harg4 arg12 harg12 arg13 harg13 x0 x1 x2 xs4 xs5 hx hy

theorem out_even (hx : Cert.KSpec.HaloZero xs4) (hy : Cert.KSpec.HaloZero xs5) :
    ∀ (hk : 3 < (kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length) (x : ((kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[3]'hk).1.shape.Idx),
      ((kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[3]'hk).2 x = Cert.KSpec.OutB x0 x1 x2 x3 x4 (((kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[3]'hk).1.emb x) := by
  unfold kernelRun0_B
  dsimp only
  intro hk
  dsimp only [List.getElem_cons_zero, List.getElem_cons_succ]
  refine piece_ok x0 x1 x2 x3 x4 4 (by norm_num) _ _ fun y => ?_
  exact out_pay x0 x1 x2 x3 x4 arg2 harg2 arg6 harg6 ⟨2, by norm_num⟩ 0 (by norm_num) 4 rfl _
    (conv2_ld (fun B => View.readAt (Elt Ideal) arg13.view B (arg13.view.writes (Elt Ideal) (harg13.unread xs5) (kernelRun0_B.sl.HS5_3 (F := Ideal) c arg2 harg2 arg3 harg3 arg4 harg4 arg12 harg12 x0 x1 x2 xs4))) (fun B j => by rw [View.readAt_apply, yw c arg2 harg2 arg3 harg3 arg4 harg4 arg12 harg12 arg13 harg13 x0 x1 x2 xs4 xs5 hx hy]) arg5 harg5 x3) _ _ (k0_pay116 (F := Ideal)) pay116_apply y

theorem out_odd (hx : Cert.KSpec.HaloZero xs4) (hy : Cert.KSpec.HaloZero xs5) :
    ∀ (hk : 2 < (kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length) (x : ((kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[2]'hk).1.shape.Idx),
      ((kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[2]'hk).2 x = Cert.KSpec.OutB x0 x1 x2 x3 x4 (((kernelRun0_B (F := Idealize.ShloMosaic.Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[2]'hk).1.emb x) := by
  unfold kernelRun0_B
  dsimp only
  intro hk
  dsimp only [List.getElem_cons_zero, List.getElem_cons_succ]
  refine piece_ok x0 x1 x2 x3 x4 5 (by norm_num) _ _ fun y => ?_
  exact out_pay x0 x1 x2 x3 x4 arg2 harg2 arg6 harg6 ⟨2, by norm_num⟩ 1 (by norm_num) 5 rfl _
    (conv2_ld (fun B => View.readAt (Elt Ideal) arg13.view B (arg13.view.writes (Elt Ideal) (harg13.unread xs5) (kernelRun0_B.sl.HS5_3 (F := Ideal) c arg2 harg2 arg3 harg3 arg4 harg4 arg12 harg12 x0 x1 x2 xs4))) (fun B j => by rw [View.readAt_apply, yw c arg2 harg2 arg3 harg3 arg4 harg4 arg12 harg12 arg13 harg13 x0 x1 x2 xs4 xs5 hx hy]) arg5 harg5 x3) _ _ (k0_pay117 (F := Ideal)) pay117_apply y

end Cert.KernelIdeal.PairB2
end
-- ==== Proof.KPairB3.lean ====
/- Pair 3 at a point that keeps the zero rims of the point before: pair 0's lemmas over pair 3's loads. -/
import proofs.«102070_g2000507141466659_pallasbulk_1049_20_alg».proof.Proof.Gen.KernelIdeal.Frame.RunB
import proofs.«102070_g2000507141466659_pallasbulk_1049_20_alg».proof.Proof.KSpec
import proofs.«102070_g2000507141466659_pallasbulk_1049_20_alg».proof.Proof.KPiece
import proofs.«102070_g2000507141466659_pallasbulk_1049_20_alg».proof.Proof.KPair0Ops

noncomputable section

open Idealize.ShloMosaic Idealize.ShloMosaic.ValueIdx Idealize.SL.Sem

namespace Cert.KernelIdeal.PairB3

open Cert.KernelIdeal Cert.KernelIdeal.Gen Cert.Spec Cert.KSpec Cert.KernelIdeal.Pair0Ops

variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole) (hc0 : ¬cond0_0 i) (x0 : Vec Ideal S8x8x8x8x128 .f32) (x1 : Vec Ideal S9x512x256 .bf16) (x2 : Vec Ideal S1x256 .f32) (x3 : Vec Ideal S9x512x256 .bf16) (x4 : Vec Ideal S1x256 .f32) (xs0 : Vec Ideal S10x10x8x512 .bf16) (xs1 : Vec Ideal S10x10x8x512 .bf16) (xs2 : Vec Ideal S10x10x8x512 .bf16) (xs3 : Vec Ideal S10x10x8x512 .bf16) (xs4 : Vec Ideal S10x10x8x512 .bf16) (xs5 : Vec Ideal S10x10x8x512 .bf16) (xs6 : Vec Ideal S10x10x8x512 .bf16) (xs7 : Vec Ideal S10x10x8x512 .bf16)

theorem xw_read (hx : HaloZero xs6) :
    arg14.view.read (Elt Ideal) (arg14.view.writes (Elt Ideal) (harg14.unread xs6)
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.2.2.2.2.2.2.1)) = window (xpair x0 ⟨3, by norm_num⟩) := by
  unfold kernelRun0_B
  dsimp only
  unfold kernelRun0_B.sl.HS6_4
  exact xw4_read arg2 harg2 x0 ⟨3, by norm_num⟩ 6 rfl _ arg14 harg14 xs6 hx

theorem yw_read (hx : HaloZero xs6) (hy : HaloZero xs7) :
    arg15.view.read (Elt Ideal) (arg15.view.writes (Elt Ideal) (harg15.unread xs7)
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).2.2.2.2.2.2.2.2.1)) = window (ypair x0 x1 x2 ⟨3, by norm_num⟩) := by
  have hxw := xw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx
  unfold kernelRun0_B at hxw ⊢
  dsimp only at hxw ⊢
  unfold kernelRun0_B.sl.HS7_3
  exact yw3_read x0 ⟨3, by norm_num⟩ x1 x2 _ (fun d h r col =>
    conv1_ld (fun B => View.readAt (Elt Ideal) arg14.view B (arg14.view.writes (Elt Ideal) (harg14.unread xs6) (kernelRun0_B.sl.HS6_4 (F := Ideal) c arg2 harg2 x0)))
      (fun B j => by rw [View.readAt_apply, hxw]) arg3 harg3 x1 arg4 harg4 x2 d h r col) arg15 harg15 xs7 hy

theorem out_even (hx : HaloZero xs6) (hy : HaloZero xs7) :
    ∀ (hk : 1 < (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length)
      (x : ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[1]'hk).1.shape.Idx),
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[1]'hk).2 x
        = OutB x0 x1 x2 x3 x4 (((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[1]'hk).1.emb x) := by
  have hyw := yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx hy
  unfold kernelRun0_B at hyw ⊢
  dsimp only at hyw ⊢
  intro hk
  dsimp only [List.getElem_cons_zero, List.getElem_cons_succ]
  refine piece_ok x0 x1 x2 x3 x4 6 (by norm_num) _ _ fun y => ?_
  exact out_pay x0 x1 x2 x3 x4 arg2 harg2 arg6 harg6 ⟨3, by norm_num⟩ 0 (by norm_num) 6 rfl _
    (fun d h r col => conv2_ld (fun B => View.readAt (Elt Ideal) arg15.view B (arg15.view.writes (Elt Ideal) (harg15.unread xs7) (kernelRun0_B.sl.HS7_3 (F := Ideal) c arg2 harg2 arg3 harg3 arg4 harg4 arg14 harg14 x0 x1 x2 xs6)))
      (fun B j => by rw [View.readAt_apply, hyw]) arg5 harg5 x3 d h r col)
    _ _ (k0_pay116 (F := Ideal)) pay116_apply y

theorem out_odd (hx : HaloZero xs6) (hy : HaloZero xs7) :
    ∀ (hk : 0 < (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length)
      (x : ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[0]'hk).1.shape.Idx),
      ((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[0]'hk).2 x
        = OutB x0 x1 x2 x3 x4 (((kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1[0]'hk).1.emb x) := by
  have hyw := yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx hy
  unfold kernelRun0_B at hyw ⊢
  dsimp only at hyw ⊢
  intro hk
  dsimp only [List.getElem_cons_zero, List.getElem_cons_succ]
  refine piece_ok x0 x1 x2 x3 x4 7 (by norm_num) _ _ fun y => ?_
  exact out_pay x0 x1 x2 x3 x4 arg2 harg2 arg6 harg6 ⟨3, by norm_num⟩ 1 (by norm_num) 7 rfl _
    (fun d h r col => conv2_ld (fun B => View.readAt (Elt Ideal) arg15.view B (arg15.view.writes (Elt Ideal) (harg15.unread xs7) (kernelRun0_B.sl.HS7_3 (F := Ideal) c arg2 harg2 arg3 harg3 arg4 harg4 arg14 harg14 x0 x1 x2 xs6)))
      (fun B j => by rw [View.readAt_apply, hyw]) arg5 harg5 x3 d h r col)
    _ _ (k0_pay117 (F := Ideal)) pay117_apply y

end Cert.KernelIdeal.PairB3
end
-- ==== Proof.KBlock.lean ====
/- What every grid point leaves: the spec's output block, and every window scratch with a zero rim; by induction over the points. -/
import proofs.«102070_g2000507141466659_pallasbulk_1049_20_alg».proof.Proof.KFrameI
import proofs.«102070_g2000507141466659_pallasbulk_1049_20_alg».proof.Proof.KSpec
import proofs.«102070_g2000507141466659_pallasbulk_1049_20_alg».proof.Proof.KPairA0
import proofs.«102070_g2000507141466659_pallasbulk_1049_20_alg».proof.Proof.KPairA1
import proofs.«102070_g2000507141466659_pallasbulk_1049_20_alg».proof.Proof.KPairA2
import proofs.«102070_g2000507141466659_pallasbulk_1049_20_alg».proof.Proof.KPairA3
import proofs.«102070_g2000507141466659_pallasbulk_1049_20_alg».proof.Proof.KPairB0
import proofs.«102070_g2000507141466659_pallasbulk_1049_20_alg».proof.Proof.KPairB1
import proofs.«102070_g2000507141466659_pallasbulk_1049_20_alg».proof.Proof.KPairB2
import proofs.«102070_g2000507141466659_pallasbulk_1049_20_alg».proof.Proof.KPairB3
import Idealize.ShloMosaic.Lib.Pipeline.Value

set_option maxRecDepth 16384

noncomputable section

namespace Cert.KernelIdeal.Block

open Idealize.ShloMosaic Idealize.ShloMosaic.TcCoe Idealize.SL.Sem
open Cert.KernelIdeal Cert.KernelIdeal.Gen Cert.KSpec

section Point
variable (c : Dev nD) (i : grid0.Coords) (arg2 : Memref sig .tc .vmem S8x8x8x8x128 .f32) (harg2 : arg2.IsWhole) (arg3 : Memref sig .tc .vmem S9x512x256 .bf16) (harg3 : arg3.IsWhole) (arg4 : Memref sig .tc .vmem S1x256 .f32) (harg4 : arg4.IsWhole) (arg5 : Memref sig .tc .vmem S9x512x256 .bf16) (harg5 : arg5.IsWhole) (arg6 : Memref sig .tc .vmem S1x256 .f32) (harg6 : arg6.IsWhole) (arg7 : Memref sig .tc .vmem S8x8x8x8x128 .f32) (harg7 : arg7.IsWhole) (arg8 : Memref sig .tc .vmem S10x10x8x512 .bf16) (harg8 : arg8.IsWhole) (arg9 : Memref sig .tc .vmem S10x10x8x512 .bf16) (harg9 : arg9.IsWhole) (arg10 : Memref sig .tc .vmem S10x10x8x512 .bf16) (harg10 : arg10.IsWhole) (arg11 : Memref sig .tc .vmem S10x10x8x512 .bf16) (harg11 : arg11.IsWhole) (arg12 : Memref sig .tc .vmem S10x10x8x512 .bf16) (harg12 : arg12.IsWhole) (arg13 : Memref sig .tc .vmem S10x10x8x512 .bf16) (harg13 : arg13.IsWhole) (arg14 : Memref sig .tc .vmem S10x10x8x512 .bf16) (harg14 : arg14.IsWhole) (arg15 : Memref sig .tc .vmem S10x10x8x512 .bf16) (harg15 : arg15.IsWhole)
  (x0 : Vec Ideal S8x8x8x8x128 .f32) (x1 : Vec Ideal S9x512x256 .bf16) (x2 : Vec Ideal S1x256 .f32) (x3 : Vec Ideal S9x512x256 .bf16) (x4 : Vec Ideal S1x256 .f32)

theorem caseA (hc0 : cond0_0 i) :
    GenP.out0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 = OutB x0 x1 x2 x3 x4
      ∧ HaloZero (GenP.sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)
      ∧ HaloZero (GenP.sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)
      ∧ HaloZero (GenP.sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)
      ∧ HaloZero (GenP.sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)
      ∧ HaloZero (GenP.sout0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)
      ∧ HaloZero (GenP.sout0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)
      ∧ HaloZero (GenP.sout0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4)
      ∧ HaloZero (GenP.sout0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4) := by
  have len : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4).1.length = 8 := by unfold kernelRun0_A; rfl
  refine ⟨?_, ?_, ?_, ?_, ?_, ?_, ?_, ?_, ?_⟩
  · unfold GenP.out0_A_5
    rw [View.read_writes_junk_eq_canon]
    funext y
    refine View.canon_apply_of_pieces (OutB x0 x1 x2 x3 x4) _ (fun pc hpc => ?_) y (GenP.cover0_A_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 y)
    obtain ⟨k, hk, rfl⟩ := List.getElem_of_mem hpc
    have hk8 : k < 8 := len ▸ hk
    interval_cases k
    · exact PairA3.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
    · exact PairA3.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
    · exact PairA2.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
    · exact PairA2.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
    · exact PairA1.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
    · exact PairA1.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
    · exact PairA0.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
    · exact PairA0.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 hk
  · unfold GenP.sout0_A_0; rw [View.read_writes_junk_eq_canon, PairA0.xw_canon]; exact window_haloZero _
  · unfold GenP.sout0_A_1; rw [View.read_writes_junk_eq_canon, PairA0.yw_canon]; exact window_haloZero _
  · unfold GenP.sout0_A_2; rw [View.read_writes_junk_eq_canon, PairA1.xw_canon]; exact window_haloZero _
  · unfold GenP.sout0_A_3; rw [View.read_writes_junk_eq_canon, PairA1.yw_canon]; exact window_haloZero _
  · unfold GenP.sout0_A_4; rw [View.read_writes_junk_eq_canon, PairA2.xw_canon]; exact window_haloZero _
  · unfold GenP.sout0_A_5; rw [View.read_writes_junk_eq_canon, PairA2.yw_canon]; exact window_haloZero _
  · unfold GenP.sout0_A_6; rw [View.read_writes_junk_eq_canon, PairA3.xw_canon]; exact window_haloZero _
  · unfold GenP.sout0_A_7; rw [View.read_writes_junk_eq_canon, PairA3.yw_canon]; exact window_haloZero _

theorem caseB (hc0 : ¬cond0_0 i) (xs0 xs1 xs2 xs3 xs4 xs5 xs6 xs7 : Vec Ideal S10x10x8x512 .bf16)
    (hx0 : HaloZero xs0) (hx1 : HaloZero xs1) (hx2 : HaloZero xs2) (hx3 : HaloZero xs3) (hx4 : HaloZero xs4)
    (hx5 : HaloZero xs5) (hx6 : HaloZero xs6) (hx7 : HaloZero xs7) :
    GenP.out0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 = OutB x0 x1 x2 x3 x4
      ∧ HaloZero (GenP.sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7)
      ∧ HaloZero (GenP.sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7)
      ∧ HaloZero (GenP.sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7)
      ∧ HaloZero (GenP.sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7)
      ∧ HaloZero (GenP.sout0_B_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7)
      ∧ HaloZero (GenP.sout0_B_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7)
      ∧ HaloZero (GenP.sout0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7)
      ∧ HaloZero (GenP.sout0_B_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7) := by
  have len : (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7).1.length = 8 := by unfold kernelRun0_B; rfl
  refine ⟨?_, ?_, ?_, ?_, ?_, ?_, ?_, ?_, ?_⟩
  · unfold GenP.out0_B_5
    rw [View.read_writes_junk_eq_canon]
    funext y
    refine View.canon_apply_of_pieces (OutB x0 x1 x2 x3 x4) _ (fun pc hpc => ?_) y (GenP.cover0_B_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 y)
    obtain ⟨k, hk, rfl⟩ := List.getElem_of_mem hpc
    have hk8 : k < 8 := len ▸ hk
    interval_cases k
    · exact PairB3.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx6 hx7 hk
    · exact PairB3.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx6 hx7 hk
    · exact PairB2.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx4 hx5 hk
    · exact PairB2.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx4 hx5 hk
    · exact PairB1.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx2 hx3 hk
    · exact PairB1.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx2 hx3 hk
    · exact PairB0.out_odd c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx0 hx1 hk
    · exact PairB0.out_even c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx0 hx1 hk
  · unfold GenP.sout0_B_0; rw [PairB0.xw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx0]; exact window_haloZero _
  · unfold GenP.sout0_B_1; rw [PairB0.yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx0 hx1]; exact window_haloZero _
  · unfold GenP.sout0_B_2; rw [PairB1.xw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx2]; exact window_haloZero _
  · unfold GenP.sout0_B_3; rw [PairB1.yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx2 hx3]; exact window_haloZero _
  · unfold GenP.sout0_B_4; rw [PairB2.xw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx4]; exact window_haloZero _
  · unfold GenP.sout0_B_5; rw [PairB2.yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx4 hx5]; exact window_haloZero _
  · unfold GenP.sout0_B_6; rw [PairB3.xw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx6]; exact window_haloZero _
  · unfold GenP.sout0_B_7; rw [PairB3.yw_read c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 xs0 xs1 xs2 xs3 xs4 xs5 xs6 xs7 hx6 hx7]; exact window_haloZero _

end Point

variable (m : (ℓ : Loc nD τ sig) → Buf (Elt Ideal) ℓ)

def Inv (c : Dev nD) (n : ℕ) (hn : n < cfg0.N) : Prop :=
  (GenP.outsAt0 (F := Ideal) m c n hn).1 = OutB (iblk m c 0 ⟨n, hn⟩) (iblk m c 1 ⟨n, hn⟩) (iblk m c 2 ⟨n, hn⟩) (iblk m c 3 ⟨n, hn⟩) (iblk m c 4 ⟨n, hn⟩)
    ∧ HaloZero (GenP.outsAt0 (F := Ideal) m c n hn).2.1
    ∧ HaloZero (GenP.outsAt0 (F := Ideal) m c n hn).2.2.1
    ∧ HaloZero (GenP.outsAt0 (F := Ideal) m c n hn).2.2.2.1
    ∧ HaloZero (GenP.outsAt0 (F := Ideal) m c n hn).2.2.2.2.1
    ∧ HaloZero (GenP.outsAt0 (F := Ideal) m c n hn).2.2.2.2.2.1
    ∧ HaloZero (GenP.outsAt0 (F := Ideal) m c n hn).2.2.2.2.2.2.1
    ∧ HaloZero (GenP.outsAt0 (F := Ideal) m c n hn).2.2.2.2.2.2.2.1
    ∧ HaloZero (GenP.outsAt0 (F := Ideal) m c n hn).2.2.2.2.2.2.2.2

theorem inv (c : Dev nD) : ∀ (n : ℕ) (hn : n < cfg0.N), Inv m c n hn := by
  intro n
  induction n using Nat.strong_induction_on with
  | _ n ih =>
    intro hn
    unfold Inv
    by_cases h0 : n % 8 = 0
    · rw [GenP.outsAt0_A m c ⟨n, hn⟩ h0]
      dsimp only
      exact caseA c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) (iblk m c 0 ⟨n, hn⟩) (iblk m c 1 ⟨n, hn⟩) (iblk m c 2 ⟨n, hn⟩) (iblk m c 3 ⟨n, hn⟩) (iblk m c 4 ⟨n, hn⟩) ((hcond0_0 ⟨n, hn⟩).mpr h0)
    · have hlt : n - 1 < cfg0.N := Nat.lt_of_le_of_lt (Nat.sub_le _ _) hn
      obtain ⟨_, i0, i1, i2, i3, i4, i5, i6, i7⟩ := ih (n - 1) (by omega) hlt
      rw [GenP.outsAt0_B m c ⟨n, hn⟩ h0]
      dsimp only
      exact caseB c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole cc0_scratch0) scM0_1 (Memref.isWhole_whole cc0_scratch1) scM0_2 (Memref.isWhole_whole cc0_scratch2) scM0_3 (Memref.isWhole_whole cc0_scratch3) scM0_4 (Memref.isWhole_whole cc0_scratch4) scM0_5 (Memref.isWhole_whole cc0_scratch5) scM0_6 (Memref.isWhole_whole cc0_scratch6) scM0_7 (Memref.isWhole_whole cc0_scratch7) (iblk m c 0 ⟨n, hn⟩) (iblk m c 1 ⟨n, hn⟩) (iblk m c 2 ⟨n, hn⟩) (iblk m c 3 ⟨n, hn⟩) (iblk m c 4 ⟨n, hn⟩) (fun h => h0 ((hcond0_0 ⟨n, hn⟩).mp h)) (GenP.outsAt0 (F := Ideal) m c (n - 1) hlt).2.1 (GenP.outsAt0 (F := Ideal) m c (n - 1) hlt).2.2.1 (GenP.outsAt0 (F := Ideal) m c (n - 1) hlt).2.2.2.1 (GenP.outsAt0 (F := Ideal) m c (n - 1) hlt).2.2.2.2.1 (GenP.outsAt0 (F := Ideal) m c (n - 1) hlt).2.2.2.2.2.1 (GenP.outsAt0 (F := Ideal) m c (n - 1) hlt).2.2.2.2.2.2.1 (GenP.outsAt0 (F := Ideal) m c (n - 1) hlt).2.2.2.2.2.2.2.1 (GenP.outsAt0 (F := Ideal) m c (n - 1) hlt).2.2.2.2.2.2.2.2 i0 i1 i2 i3 i4 i5 i6 i7

theorem block_eq (c : Dev nD) (t : Fin cfg0.N) :
    (GenP.outsAt0 (F := Ideal) m c t.val t.isLt).1
      = OutB (iblk m c 0 t) (iblk m c 1 t) (iblk m c 2 t) (iblk m c 3 t) (iblk m c 4 t) :=
  (inv m c t.val t.isLt).1

end Cert.KernelIdeal.Block

end
-- ==== Proof.KHost.lean ====
/- The arrays the banded program's region finds in its windows, as functions of the arguments. -/
import proofs.«102070_g2000507141466659_pallasbulk_1049_20_alg».proof.Proof.Gen.KernelIdeal.Frame.Runs
import proofs.«102070_g2000507141466659_pallasbulk_1049_20_alg».proof.Proof.Spec
import Idealize.ShloMosaic.Lib.ValueIdx
import Idealize.ShloMosaic.Lib.ValueIdxRank6
import Idealize.ShloMosaic.Lib.Pipeline.Value
import Idealize.ShloMosaic.Lib.ValueLayout
import Idealize.ShloMosaic.Lib.StableHlo.Run

set_option maxRecDepth 16384

noncomputable section

open Idealize.ShloMosaic Idealize.ShloMosaic.ValueIdx Idealize.ShloMosaic.TcCoe
open Cert.KernelIdeal Cert.KernelIdeal.Gen

namespace Cert.KernelIdeal.HostVal

section ScatterGeneral

variable {α : Type} {s si u : Shape} {w : Nat}

def step (d : ScatterDims s si u) (f : α → α → α) (idx : IVec si w) (upd : u.Idx → α) (r : s.Idx → α) (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

theorem step_miss (d : ScatterDims s si u) (f : α → α → α) (idx : IVec si w) (upd : u.Idx → α) (r : s.Idx → α) (n : Fin u.numel)
    (i' : s.Idx) (h : d.resultIdx? (u.rowMajor.symm n) idx ≠ some i') : step d f idx upd r n i' = r i' := by
  unfold step
  cases hr : d.resultIdx? (u.rowMajor.symm n) idx with
  | none => rfl
  | some i =>
    have hne : i' ≠ i := fun e => h (by rw [hr, e])
    simp only [if_neg hne]

theorem step_hit (d : ScatterDims s si u) (f : α → α → α) (idx : IVec si w) (upd : u.Idx → α) (r : s.Idx → α) (n : Fin u.numel)
    (i' : s.Idx) (h : d.resultIdx? (u.rowMajor.symm n) idx = some i') :
    step d f idx upd r n i' = f (r i') (upd (u.rowMajor.symm n)) := by
  unfold step
  rw [h]
  simp only [if_true]

theorem foldl_miss (d : ScatterDims s si u) (f : α → α → α) (idx : IVec si w) (upd : u.Idx → α) (i' : s.Idx) :
    ∀ (l : List (Fin u.numel)) (r : s.Idx → α), (∀ n ∈ l, d.resultIdx? (u.rowMajor.symm n) idx ≠ some i') →
      l.foldl (step d f idx upd) r i' = r i'
  | [], _, _ => rfl
  | n :: l, r, h => by
    rw [List.foldl_cons, foldl_miss d f idx upd i' l _ (fun k hk => h k (List.mem_cons_of_mem _ hk))]
    exact step_miss d f idx upd r n i' (h n List.mem_cons_self)

theorem foldl_hit (d : ScatterDims s si u) (f : α → α → α) (idx : IVec si w) (upd : u.Idx → α) (i' : s.Idx) (n₀ : Fin u.numel)
    (h₀ : d.resultIdx? (u.rowMajor.symm n₀) idx = some i') :
    ∀ (l : List (Fin u.numel)) (r : s.Idx → α), l.Nodup → n₀ ∈ l →
      (∀ n ∈ l, d.resultIdx? (u.rowMajor.symm n) idx = some i' → n = n₀) →
      l.foldl (step d f idx upd) r i' = f (r i') (upd (u.rowMajor.symm n₀))
  | [], _, _, hm, _ => absurd hm List.not_mem_nil
  | n :: l, r, hnd, hm, hu => by
    rw [List.foldl_cons]
    have hnd' := List.nodup_cons.1 hnd
    by_cases e : n = n₀
    · subst e
      rw [foldl_miss d f idx upd i' l _ (fun k hk hk' => hnd'.1 (by rw [← hu k (List.mem_cons_of_mem _ hk) hk']; exact hk))]
      exact step_hit d f idx upd r n i' h₀
    · have hm' : n₀ ∈ l := by
        rcases List.mem_cons.1 hm with h | h
        · exact absurd h.symm e
        · exact h
      rw [foldl_hit d f idx upd i' n₀ h₀ l _ hnd'.2 hm' (fun k hk => hu k (List.mem_cons_of_mem _ hk))]
      rw [step_miss d f idx upd r n i' (fun hh => e (hu n List.mem_cons_self hh))]

theorem scatter_apply_miss (d : ScatterDims s si u) (f : α → α → α) (x : s.Idx → α) (idx : IVec si w) (upd : u.Idx → α) (i' : s.Idx)
    (h : ∀ j : u.Idx, d.resultIdx? j idx ≠ some i') : Host.scatter d f x idx upd i' = x i' := by
  rw [scatter_eq_foldl]
  exact foldl_miss d f idx upd i' _ x (fun n _ => h _)

theorem scatter_apply_hit (d : ScatterDims s si u) (f : α → α → α) (x : s.Idx → α) (idx : IVec si w) (upd : u.Idx → α) (i' : s.Idx)
    (j : u.Idx) (h₀ : d.resultIdx? j idx = some i') (hu : ∀ j' : u.Idx, d.resultIdx? j' idx = some i' → j' = j) :
    Host.scatter d f x idx upd i' = f (x i') (upd j) := by
  rw [scatter_eq_foldl]
  have e : u.rowMajor.symm (u.rowMajor j) = j := Equiv.symm_apply_apply _ _
  have := foldl_hit d f idx upd i' (u.rowMajor j) (by rw [e]; exact h₀) (List.finRange u.numel) x (List.nodup_finRange _)
    (List.mem_finRange _) (fun n _ hn => by rw [← hu _ hn, Equiv.apply_symm_apply])
  rw [this, e]

theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hb =>
      have := congrFun (Option.some.inj h) a
      have h2 := congrArg Fin.val this
      simp only at h2
      have := (hb a).1
      omega
    · exact absurd h (by simp)
  · intro h
    have hb : ∀ a, 0 ≤ d.start j idx a + d.window j a ∧ d.start j idx a + d.window j a < s.size a := fun a => by
      rw [h a]; exact ⟨Int.natCast_nonneg _, by exact_mod_cast (i a).isLt⟩
    rw [dif_pos hb]
    refine congrArg some (funext fun a => Fin.ext ?_)
    show (d.start j idx a + d.window j a).toNat = (i a).val
    rw [h a]; exact Int.toNat_natCast _

end ScatterGeneral

abbrev D := scatter_S3x3x4x128x2x128_S2_S3x3x128x128_0123_24_24_0

variable (j : S3x3x128x128.Idx) (idx : S2.Idx → BitVec 32)

theorem start_2 : D.start j idx ⟨2, by decide⟩ = (idx (ix1 (0 : Fin 2))).toInt := by
  show (idx _).toInt = _
  refine congrArg (fun k => (idx k).toInt) (funext fun b => ?_)
  match b with | ⟨0, _⟩ => rfl
theorem start_4 : D.start j idx ⟨4, by decide⟩ = (idx (ix1 (1 : Fin 2))).toInt := by
  show (idx _).toInt = _
  refine congrArg (fun k => (idx k).toInt) (funext fun b => ?_)
  match b with | ⟨0, _⟩ => rfl

def cat256 (a b : S128.Idx → EReal) : S256.Idx → EReal :=
  concatenate S256 0 [⟨S128, a⟩, ⟨S128, b⟩] Facts₀.concatenates_S128_S128_S256_d0
theorem cat256_def (a b : S128.Idx → EReal) :
    concatenate S256 0 [⟨S128, a⟩, ⟨S128, b⟩] Facts₀.concatenates_S128_S128_S256_d0 = cat256 a b := rfl

def cat2 (a b : S1.Idx → BitVec 32) : S2.Idx → BitVec 32 :=
  concatenate S2 0 [⟨S1, a⟩, ⟨S1, b⟩] Facts₀.concatenates_S1_S1_S2_d0
theorem cat2_def (a b : S1.Idx → BitVec 32) :
    concatenate S2 0 [⟨S1, a⟩, ⟨S1, b⟩] Facts₀.concatenates_S1_S1_S2_d0 = cat2 a b := rfl

def t2T (t : S128.Idx → EReal) : S1x256.Idx → EReal :=
  shapeCast S1x256 (cat256 t t) Facts₀.shapeCasts_S256_S1x256

def wT (w : S128x128x3x3x3.Idx → EReal) (s : S128.Idx → EReal) : S3x3x3x128x128.Idx → EReal :=
  transpose S3x3x3x128x128 [2, 3, 4, 1, 0]
    (mulf (F := Ideal) (φ := .f32) w
      (broadcastInDim S128x128x3x3x3 ![0, 1, 2, 3, 4] Facts₀.bcast_S128x1x1x1x1_S128x128x3x3x3_0_1_2_3_4
        (broadcastInDim S128x1x1x1x1 ![0] Facts₀.bcast_S128_S128x1x1x1x1_0 s)))
    Facts₀.transposes_S128x128x3x3x3_S3x3x3x128x128_2_3_4_1_0

def slc (off : Fin 5 → Nat) (h : S3x3x3x128x128.Slices off S3x3x1x128x128) (wt : S3x3x3x128x128.Idx → EReal) : S3x3x128x128.Idx → EReal :=
  shapeCast S3x3x128x128 (extractStridedSlice S3x3x1x128x128 off wt h) Facts₀.shapeCasts_S3x3x1x128x128_S3x3x128x128

def ivec (a b : BitVec 32) : S2.Idx → BitVec 32 :=
  cat2 (broadcastInDim S1 ![] Facts₀.bcast_S_S1 (constantI S_ 32 a)) (broadcastInDim S1 ![] Facts₀.bcast_S_S1 (constantI S_ 32 b))

def scat (x : S3x3x4x128x2x128.Idx → EReal) (i : S2.Idx → BitVec 32) (u : S3x3x128x128.Idx → EReal) : S3x3x4x128x2x128.Idx → EReal :=
  Host.scatter scatter_S3x3x4x128x2x128_S2_S3x3x128x128_0123_24_24_0 (fun _ b => b) x i u

def zero6 : S3x3x4x128x2x128.Idx → EReal :=
  broadcastInDim S3x3x4x128x2x128 ![] Facts₀.bcast_S_S3x3x4x128x2x128 (constant (F := Ideal) S_ .f32 0x00000000#32)

def bandT (wt : S3x3x3x128x128.Idx → EReal) : S3x3x4x128x2x128.Idx → EReal :=
  scat (scat (scat (scat (scat (scat zero6
    (ivec 0#32 0#32) (slc ![0, 0, 0, 0, 0] Facts₀.slices_S3x3x3x128x128_S3x3x1x128x128_0_0_0_0_0 wt))
    (ivec 1#32 0#32) (slc ![0, 0, 1, 0, 0] Facts₀.slices_S3x3x3x128x128_S3x3x1x128x128_0_0_1_0_0 wt))
    (ivec 2#32 0#32) (slc ![0, 0, 2, 0, 0] Facts₀.slices_S3x3x3x128x128_S3x3x1x128x128_0_0_2_0_0 wt))
    (ivec 1#32 1#32) (slc ![0, 0, 0, 0, 0] Facts₀.slices_S3x3x3x128x128_S3x3x1x128x128_0_0_0_0_0 wt))
    (ivec 2#32 1#32) (slc ![0, 0, 1, 0, 0] Facts₀.slices_S3x3x3x128x128_S3x3x1x128x128_0_0_1_0_0 wt))
    (ivec 3#32 1#32) (slc ![0, 0, 2, 0, 0] Facts₀.slices_S3x3x3x128x128_S3x3x1x128x128_0_0_2_0_0 wt)

def bT (wt : S3x3x3x128x128.Idx → EReal) : S9x512x256.Idx → EReal :=
  truncf (F := Ideal) (φ := .f32) .bf16 (shapeCast S9x512x256 (bandT wt) Facts₀.shapeCasts_S3x3x4x128x2x128_S9x512x256) Facts₀.bitsLt_bf16_f32

theorem t2T_apply (t : S128.Idx → EReal) (u : Fin 1) (i : Fin 256) :
    t2T t (ix2 u i) = t (ix1 ⟨i.val % 128, Nat.mod_lt _ (by norm_num)⟩) := by
  unfold t2T
  refine (shapeCast_a_1a_apply _ _ u i).trans ?_
  unfold cat256
  by_cases h : i.val < 128
  · refine (concatenate_pair_apply_left (t := S256) (s₁ := S128) (s₂ := S128) 0 t t _ (ix1 i) rfl (ix1 ⟨i.val, h⟩) ?_).trans ?_
    · intro b; match b with | ⟨0, _⟩ => rfl
    · exact congrArg t (funext fun a => match a with | ⟨0, _⟩ => Fin.ext (by show i.val = i.val % 128; omega))
  · refine (concatenate_pair_apply_right (t := S256) (s₁ := S128) (s₂ := S128) 0 t t _ (ix1 i) rfl rfl
      (ix1 ⟨i.val - 128, by have := i.isLt; omega⟩) ?_ ?_).trans ?_
    · intro b hb; match b with | ⟨0, _⟩ => exact absurd rfl hb
    · show i.val - 128 + 128 = i.val; omega
    · exact congrArg t (funext fun a => match a with | ⟨0, _⟩ => Fin.ext (by show i.val - 128 = i.val % 128; have := i.isLt; omega))

theorem wT_apply (w : S128x128x3x3x3.Idx → EReal) (s : S128.Idx → EReal) (kd kh kw : Fin 3) (ci co : Fin 128) :
    wT w s (ix5 kd kh kw ci co) = Cert.Spec.wgt w s kd kh kw ci co := by
  unfold wT
  refine (transpose_apply _ _ _ (ix5 kd kh kw ci co) (ix5 co ci kd kh kw) ?_).trans ?_
  · intro b; match b with | ⟨0, _⟩ => rfl | ⟨1, _⟩ => rfl | ⟨2, _⟩ => rfl | ⟨3, _⟩ => rfl | ⟨4, _⟩ => rfl
  · show w (ix5 co ci kd kh kw) * _ = w (ix5 co ci kd kh kw) * s (ix1 co)
    refine congrArg (w (ix5 co ci kd kh kw) * ·) ?_
    refine (broadcastInDim_apply _ _ _ (ix5 co ci kd kh kw) (ix5 co (0 : Fin 1) (0 : Fin 1) (0 : Fin 1) (0 : Fin 1)) ?_).trans ?_
    · intro a; match a with | ⟨0, _⟩ => rfl | ⟨1, _⟩ => rfl | ⟨2, _⟩ => rfl | ⟨3, _⟩ => rfl | ⟨4, _⟩ => rfl
    · refine (broadcastInDim_apply _ _ _ (ix5 co (0 : Fin 1) (0 : Fin 1) (0 : Fin 1) (0 : Fin 1)) (ix1 co) ?_).trans rfl
      intro a; match a with | ⟨0, _⟩ => rfl

theorem slc_apply (off : Fin 5 → Nat) (h : S3x3x3x128x128.Slices off S3x3x1x128x128) (wt : S3x3x3x128x128.Idx → EReal) (kw : Fin 3)
    (h0 : off 0 = 0) (h1 : off 1 = 0) (h2 : off 2 = kw.val) (h3 : off 3 = 0) (h4 : off 4 = 0) (kd kh : Fin 3) (ci co : Fin 128) :
    slc off h wt (ix4 kd kh ci co) = wt (ix5 kd kh kw ci co) := by
  unfold slc
  refine (shapeCast_apply _ _ (ix4 kd kh ci co) (ix5 kd kh (0 : Fin 1) ci co) ?_).trans ?_
  · rw [Shape.rowMajor_val_five, Shape.rowMajor_val_four]
    show (((kd.val * 3 + kh.val) * 1 + 0) * 128 + ci.val) * 128 + co.val = ((kd.val * 3 + kh.val) * 128 + ci.val) * 128 + co.val
    omega
  · refine extractStridedSlice_apply off wt h (ix5 kd kh (0 : Fin 1) ci co) (ix5 kd kh kw ci co) ?_
    intro a
    match a with
    | ⟨0, _⟩ => show kd.val = off 0 + kd.val; omega
    | ⟨1, _⟩ => show kh.val = off 1 + kh.val; omega
    | ⟨2, _⟩ => show kw.val = off 2 + 0; omega
    | ⟨3, _⟩ => show ci.val = off 3 + ci.val; omega
    | ⟨4, _⟩ => show co.val = off 4 + co.val; omega

theorem ivec_apply0 (a b : BitVec 32) : ivec a b (ix1 (0 : Fin 2)) = a := by
  unfold ivec cat2
  exact concatenate_pair_apply_left (t := S2) (s₁ := S1) (s₂ := S1) 0 _ _ _ (ix1 (0 : Fin 2)) rfl (ix1 (0 : Fin 1))
    (fun b => match b with | ⟨0, _⟩ => rfl)
theorem ivec_apply1 (a b : BitVec 32) : ivec a b (ix1 (1 : Fin 2)) = b := by
  unfold ivec cat2
  exact concatenate_pair_apply_right (t := S2) (s₁ := S1) (s₂ := S1) 0 _ _ _ (ix1 (1 : Fin 2)) rfl rfl (ix1 (0 : Fin 1))
    (fun b hb => match b with | ⟨0, _⟩ => absurd rfl hb) rfl

theorem zero6_apply (i : S3x3x4x128x2x128.Idx) : zero6 i = 0 := by
  show Ideal.ofBits .f32 0x00000000#32 = 0
  simp [Ideal.ofBits, Ideal.ieee]

theorem resultIdx_iff (idx : S2.Idx → BitVec 32) (P Q : Nat)
    (hP : (idx (ix1 (0 : Fin 2))).toInt = (P : Int)) (hQ : (idx (ix1 (1 : Fin 2))).toInt = (Q : Int))
    (kd' kh' : Fin 3) (ci' co' : Fin 128) (kd kh : Fin 3) (p : Fin 4) (ci : Fin 128) (wq : Fin 2) (co : Fin 128) :
    D.resultIdx? (ix4 kd' kh' ci' co') idx = some (ix6 kd kh p ci wq co) ↔
      kd' = kd ∧ kh' = kh ∧ p.val = P ∧ ci' = ci ∧ wq.val = Q ∧ co' = co := by
  rw [resultIdx?_eq_some_iff]
  constructor
  · intro h
    have h0 : (0 : Int) + ((kd'.val : Nat) : Int) = ((kd.val : Nat) : Int) := h ⟨0, by decide⟩
    have h1 : (0 : Int) + ((kh'.val : Nat) : Int) = ((kh.val : Nat) : Int) := h ⟨1, by decide⟩
    have h2 := h ⟨2, by decide⟩
    rw [start_2, hP] at h2
    have h2' : (P : Int) + ((0 : Nat) : Int) = ((p.val : Nat) : Int) := h2
    have h3 : (0 : Int) + ((ci'.val : Nat) : Int) = ((ci.val : Nat) : Int) := h ⟨3, by decide⟩
    have h4 := h ⟨4, by decide⟩
    rw [start_4, hQ] at h4
    have h4' : (Q : Int) + ((0 : Nat) : Int) = ((wq.val : Nat) : Int) := h4
    have h5 : (0 : Int) + ((co'.val : Nat) : Int) = ((co.val : Nat) : Int) := h ⟨5, by decide⟩
    exact ⟨Fin.ext (by omega), Fin.ext (by omega), by omega, Fin.ext (by omega), by omega, Fin.ext (by omega)⟩
  · rintro ⟨rfl, rfl, hp, rfl, hq, rfl⟩ a
    match a with
    | ⟨0, _⟩ => show (0 : Int) + ((kd'.val : Nat) : Int) = ((kd'.val : Nat) : Int); omega
    | ⟨1, _⟩ => show (0 : Int) + ((kh'.val : Nat) : Int) = ((kh'.val : Nat) : Int); omega
    | ⟨2, _⟩ =>
      rw [start_2, hP]
      show (P : Int) + ((0 : Nat) : Int) = ((p.val : Nat) : Int)
      omega
    | ⟨3, _⟩ => show (0 : Int) + ((ci'.val : Nat) : Int) = ((ci'.val : Nat) : Int); omega
    | ⟨4, _⟩ =>
      rw [start_4, hQ]
      show (Q : Int) + ((0 : Nat) : Int) = ((wq.val : Nat) : Int)
      omega
    | ⟨5, _⟩ => show (0 : Int) + ((co'.val : Nat) : Int) = ((co'.val : Nat) : Int); omega

theorem scat_apply (x : S3x3x4x128x2x128.Idx → EReal) (a b : BitVec 32) (upd : S3x3x128x128.Idx → EReal) (P Q : Nat)
    (hP : a.toInt = (P : Int)) (hQ : b.toInt = (Q : Int))
    (kd kh : Fin 3) (p : Fin 4) (ci : Fin 128) (wq : Fin 2) (co : Fin 128) :
    scat x (ivec a b) upd (ix6 kd kh p ci wq co) =
      if p.val = P ∧ wq.val = Q then upd (ix4 kd kh ci co) else x (ix6 kd kh p ci wq co) := by
  have hI := resultIdx_iff (ivec a b) P Q (by rw [ivec_apply0]; exact hP) (by rw [ivec_apply1]; exact hQ)
  unfold scat
  by_cases h : p.val = P ∧ wq.val = Q
  · rw [if_pos h]
    refine scatter_apply_hit D _ x _ upd _ (ix4 kd kh ci co) ((hI kd kh ci co kd kh p ci wq co).2 ⟨rfl, rfl, h.1, rfl, h.2, rfl⟩) ?_
    intro j' hj'
    obtain ⟨a', b', c', d, rfl⟩ : ∃ a' b' c' d, j' = ix4 a' b' c' d := ⟨_, _, _, _, eq_ix4 j'⟩
    obtain ⟨e0, e1, -, e3, -, e5⟩ := (hI a' b' c' d kd kh p ci wq co).1 hj'
    rw [e0, e1, e3, e5]
  · rw [if_neg h]
    refine scatter_apply_miss D _ x _ upd _ ?_
    intro j hj
    obtain ⟨a', b', c', d, rfl⟩ : ∃ a' b' c' d, j = ix4 a' b' c' d := ⟨_, _, _, _, eq_ix4 j⟩
    obtain ⟨-, -, e2, -, e4, -⟩ := (hI a' b' c' d kd kh p ci wq co).1 hj
    exact h ⟨e2, e4⟩

theorem bandT_apply (wt : S3x3x3x128x128.Idx → EReal) (kd kh : Fin 3) (p : Fin 4) (ci : Fin 128) (wq : Fin 2) (co : Fin 128) :
    bandT wt (ix6 kd kh p ci wq co) =
      if h : wq.val ≤ p.val ∧ p.val ≤ wq.val + 2 then wt (ix5 kd kh ⟨p.val - wq.val, by omega⟩ ci co) else 0 := by
  unfold bandT
  rw [scat_apply _ _ _ _ 3 1 (by decide) (by decide),
    scat_apply _ _ _ _ 2 1 (by decide) (by decide),
    scat_apply _ _ _ _ 1 1 (by decide) (by decide),
    scat_apply _ _ _ _ 2 0 (by decide) (by decide),
    scat_apply _ _ _ _ 1 0 (by decide) (by decide),
    scat_apply _ _ _ _ 0 0 (by decide) (by decide),
    zero6_apply,
    slc_apply ![0, 0, 0, 0, 0] _ wt 0 rfl rfl rfl rfl rfl, slc_apply ![0, 0, 1, 0, 0] _ wt 1 rfl rfl rfl rfl rfl,
    slc_apply ![0, 0, 2, 0, 0] _ wt 2 rfl rfl rfl rfl rfl]
  have hp := p.isLt
  have hq := wq.isLt
  split_ifs
  all_goals first
    | rfl
    | (exfalso; omega)
    | (refine congrArg wt (congrArg (fun z => ix5 kd kh z ci co) (Fin.ext ?_))
       first | (show 0 = p.val - wq.val; omega) | (show 1 = p.val - wq.val; omega) | (show 2 = p.val - wq.val; omega))

theorem bT_apply (wt : S3x3x3x128x128.Idx → EReal) (t : Fin 9) (k : Fin 512) (col : Fin 256) :
    bT wt (ix3 t k col) =
      bandT wt (ix6 (⟨t.val / 3, by omega⟩ : Fin 3) (⟨t.val % 3, Nat.mod_lt _ (by norm_num)⟩ : Fin 3)
        (⟨k.val / 128, by omega⟩ : Fin 4) (⟨k.val % 128, Nat.mod_lt _ (by norm_num)⟩ : Fin 128)
        (⟨col.val / 128, by omega⟩ : Fin 2) (⟨col.val % 128, Nat.mod_lt _ (by norm_num)⟩ : Fin 128)) := by
  unfold bT
  refine (truncf_apply (s := S9x512x256) (φ := .f32) (ψ := .bf16)
    (shapeCast S9x512x256 (bandT wt) Facts₀.shapeCasts_S3x3x4x128x2x128_S9x512x256) Facts₀.bitsLt_bf16_f32 (ix3 t k col)).trans ?_
  refine shapeCast_apply (bandT wt) _ (ix3 t k col) _ ?_
  rw [Shape.rowMajor_val_six, Shape.rowMajor_val_three]
  show ((((t.val / 3 * 3 + t.val % 3) * 4 + k.val / 128) * 128 + k.val % 128) * 2 + col.val / 128) * 128 + col.val % 128
    = (t.val * 512 + k.val) * 256 + col.val
  omega

theorem bT_wT_eq (w : S128x128x3x3x3.Idx → EReal) (s : S128.Idx → EReal) (j : S9x512x256.Idx) :
    bT (wT w s) j = Cert.Spec.band w s (j 0) (j 1) (j 2) := by
  obtain ⟨t, k, col, rfl⟩ : ∃ t k col, j = ix3 t k col := ⟨_, _, _, eq_ix3 j⟩
  show bT (wT w s) (ix3 t k col) = Cert.Spec.band w s t k col
  rw [bT_apply, bandT_apply]
  unfold Cert.Spec.band
  by_cases h : col.val / 128 ≤ k.val / 128 ∧ k.val / 128 ≤ col.val / 128 + 2
  · rw [dif_pos h, dif_pos h]
    exact wT_apply w s _ _ _ _ _
  · rw [dif_neg h, dif_neg h]

macro "host_results" : tactic =>
  `(tactic| (simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', cat256_def, cat2_def]))

variable (m : (ℓ : Loc nD τ sig) → Buf (Elt Ideal) ℓ) (c : Dev nD)

theorem v0_term : (V m c main_v0 : S128x8x8x8x128.Idx → EReal) =
    transpose S128x8x8x8x128 [0, 2, 3, 4, 1] (m ((c : Thread nD τ).loc main_arg0) : S128x128x8x8x8.Idx → EReal)
      Facts₀.transposes_S128x128x8x8x8_S128x8x8x8x128_0_2_3_4_1 := by
  show StableHlo.after hostOps0 (fun b => m (c, b)) (Proc.devRef .tc main_v0) = _
  host_results

set_option maxHeartbeats 1600000 in
theorem v51_term : (V m c main_v51 : S9x512x256.Idx → EReal) =
    bT (wT (m ((c : Thread nD τ).loc main_arg1)) (Cert.Spec.scaleK (m ((c : Thread nD τ).loc main_arg3)) (m ((c : Thread nD τ).loc main_arg6)))) := by
  show StableHlo.after hostOps0 (fun b => m (c, b)) (Proc.devRef .tc main_v51) = _
  host_results
  rfl

theorem v53_term : (V m c main_v53 : S1x256.Idx → EReal) =
    t2T (Cert.Spec.shift (Cert.Spec.scaleK (m ((c : Thread nD τ).loc main_arg3)) (m ((c : Thread nD τ).loc main_arg6))) (m ((c : Thread nD τ).loc main_arg2))
      (m ((c : Thread nD τ).loc main_arg4)) (m ((c : Thread nD τ).loc main_arg5))) := by
  show StableHlo.after hostOps0 (fun b => m (c, b)) (Proc.devRef .tc main_v53) = _
  host_results
  rfl

set_option maxHeartbeats 1600000 in
theorem v104_term : (V m c main_v104 : S9x512x256.Idx → EReal) =
    bT (wT (m ((c : Thread nD τ).loc main_arg7)) (Cert.Spec.scaleK (m ((c : Thread nD τ).loc main_arg9)) (m ((c : Thread nD τ).loc main_arg12)))) := by
  show StableHlo.after hostOps0 (fun b => m (c, b)) (Proc.devRef .tc main_v104) = _
  host_results
  rfl

theorem v106_term : (V m c main_v106 : S1x256.Idx → EReal) =
    t2T (Cert.Spec.shift (Cert.Spec.scaleK (m ((c : Thread nD τ).loc main_arg9)) (m ((c : Thread nD τ).loc main_arg12))) (m ((c : Thread nD τ).loc main_arg8))
      (m ((c : Thread nD τ).loc main_arg10)) (m ((c : Thread nD τ).loc main_arg11))) := by
  show StableHlo.after hostOps0 (fun b => m (c, b)) (Proc.devRef .tc main_v106) = _
  host_results
  rfl

theorem v0_eq : (V m c main_v0 : S128x8x8x8x128.Idx → EReal) = Cert.Spec.xn (m ((c : Thread nD τ).loc main_arg0)) := by
  rw [v0_term]
  funext j
  exact transpose_apply _ _ _ j (ix5 (j 0) (j 4) (j 1) (j 2) (j 3))
    (fun b => match b with | ⟨0, _⟩ => rfl | ⟨1, _⟩ => rfl | ⟨2, _⟩ => rfl | ⟨3, _⟩ => rfl | ⟨4, _⟩ => rfl)

theorem v51_eq : (V m c main_v51 : S9x512x256.Idx → EReal) = fun j =>
    Cert.Spec.band (m ((c : Thread nD τ).loc main_arg1))
      (Cert.Spec.scaleK (m ((c : Thread nD τ).loc main_arg3)) (m ((c : Thread nD τ).loc main_arg6))) (j 0) (j 1) (j 2) := by
  rw [v51_term]
  funext j
  exact bT_wT_eq _ _ j

theorem v53_eq : (V m c main_v53 : S1x256.Idx → EReal) = fun j =>
    Cert.Spec.shift (Cert.Spec.scaleK (m ((c : Thread nD τ).loc main_arg3)) (m ((c : Thread nD τ).loc main_arg6)))
      (m ((c : Thread nD τ).loc main_arg2)) (m ((c : Thread nD τ).loc main_arg4)) (m ((c : Thread nD τ).loc main_arg5))
      (ix1 ⟨(j 1).val % 128, Nat.mod_lt _ (by norm_num)⟩) := by
  rw [v53_term]
  funext j
  obtain ⟨u, i, rfl⟩ : ∃ u i, j = ix2 u i := ⟨_, _, eq_ix2 j⟩
  exact t2T_apply _ u i

theorem v104_eq : (V m c main_v104 : S9x512x256.Idx → EReal) = fun j =>
    Cert.Spec.band (m ((c : Thread nD τ).loc main_arg7))
      (Cert.Spec.scaleK (m ((c : Thread nD τ).loc main_arg9)) (m ((c : Thread nD τ).loc main_arg12))) (j 0) (j 1) (j 2) := by
  rw [v104_term]
  funext j
  exact bT_wT_eq _ _ j

theorem v106_eq : (V m c main_v106 : S1x256.Idx → EReal) = fun j =>
    Cert.Spec.shift (Cert.Spec.scaleK (m ((c : Thread nD τ).loc main_arg9)) (m ((c : Thread nD τ).loc main_arg12)))
      (m ((c : Thread nD τ).loc main_arg8)) (m ((c : Thread nD τ).loc main_arg10)) (m ((c : Thread nD τ).loc main_arg11))
      (ix1 ⟨(j 1).val % 128, Nat.mod_lt _ (by norm_num)⟩) := by
  rw [v106_term]
  funext j
  obtain ⟨u, i, rfl⟩ : ∃ u i, j = ix2 u i := ⟨_, _, eq_ix2 j⟩
  exact t2T_apply _ u i

end Cert.KernelIdeal.HostVal

end
-- ==== Proof.KBridge.lean ====
/- An entry of the banded grid point is the banded residual block of its sample. -/
import proofs.«102070_g2000507141466659_pallasbulk_1049_20_alg».proof.Proof.KSpec

noncomputable section

open scoped BigOperators
open Idealize.ShloMosaic Idealize.ShloMosaic.ValueIdx

namespace Cert.KSpec

open Cert.Spec

theorem convRow_window (a : Vol2) (w : SW.Idx → EReal) (s : SC.Idx → EReal) (d h : Fin 8) (q : Fin 4) (sm : Fin 2)
    (col : Fin 256) :
    convRow (window a) (fun i => band w s (i 0) (i 1) (i 2)) d h ⟨2 * q.val + sm.val, by omega⟩ col
      = convK (a sm) w s d h q col := by
  have e1 : (⟨(2 * q.val + sm.val) % 2, Nat.mod_lt _ (by norm_num)⟩ : Fin 2) = sm := Fin.ext (by simp only; omega)
  have e2 : (2 * q.val + sm.val) / 2 = q.val := by omega
  unfold convRow convK window
  refine Finset.sum_congr rfl fun t _ => Finset.sum_congr rfl fun k _ => ?_
  show padded (a ⟨(2 * q.val + sm.val) % 2, _⟩) (d.val + t.val / 3) (h.val + t.val % 3)
      (2 * ((2 * q.val + sm.val) / 2) + k.val / 128) ⟨k.val % 128, _⟩ * band w s t k col = _
  rw [e1, e2]

private theorem xpair_self (x0 : SB.Idx → EReal) (n : Fin 8) :
    xpair x0 ⟨n.val / 2, by omega⟩ ⟨n.val % 2, Nat.mod_lt _ (by norm_num)⟩
      = fun d h w c => x0 (ix5 n d h w c) := by
  funext d h w c
  have e : (⟨2 * (n.val / 2) + n.val % 2, by omega⟩ : Fin 8) = n := Fin.ext (by simp only; omega)
  show x0 (ix5 (⟨2 * (n.val / 2) + n.val % 2, _⟩ : Fin 8) d h w c) = _
  rw [e]

private theorem shiftRow_apply (t : SC.Idx → EReal) (wq : Nat) (hw : wq < 2) (c : Fin 128) :
    (fun i : ST.Idx => t (ix1 ⟨(i 1).val % 128, Nat.mod_lt _ (by norm_num)⟩))
        (ix2 (0 : Fin 1) (⟨wq * 128 + c.val, by omega⟩ : Fin 256)) = t (ix1 c) := by
  have e : (⟨(wq * 128 + c.val) % 128, Nat.mod_lt _ (by norm_num)⟩ : Fin 128) = c := Fin.ext (by simp only; omega)
  show t (ix1 ⟨(wq * 128 + c.val) % 128, _⟩) = _
  rw [e]

theorem outB_eq (x0 : SB.Idx → EReal) (w1 : Cert.Spec.SW.Idx → EReal) (s1 t1 : Cert.Spec.SC.Idx → EReal)
    (w2 : Cert.Spec.SW.Idx → EReal) (s2 t2 : Cert.Spec.SC.Idx → EReal) (n d h w : Fin 8) (c : Fin 128) :
    outAt x0 (fun i => Cert.Spec.band w1 s1 (i 0) (i 1) (i 2))
        (fun i => t1 (ValueIdx.ix1 ⟨(i 1).val % 128, Nat.mod_lt _ (by norm_num)⟩))
        (fun i => Cert.Spec.band w2 s2 (i 0) (i 1) (i 2))
        (fun i => t2 (ValueIdx.ix1 ⟨(i 1).val % 128, Nat.mod_lt _ (by norm_num)⟩)) n d h w c
      = Cert.Spec.blockK Cert.Spec.leakyK (fun d' h' w' c' => x0 (ValueIdx.ix5 n d' h' w' c')) w1 s1 t1 w2 s2 t2 d h w c := by
  have hy : ypair x0 (fun i => band w1 s1 (i 0) (i 1) (i 2))
        (fun i => t1 (ix1 ⟨(i 1).val % 128, Nat.mod_lt _ (by norm_num)⟩)) ⟨n.val / 2, by omega⟩
        ⟨n.val % 2, Nat.mod_lt _ (by norm_num)⟩
      = fun d' h' w' c' => leakyK (convK (fun d' h' w' c' => x0 (ix5 n d' h' w' c')) w1 s1 d' h'
          ⟨w'.val / 2, by omega⟩ ⟨(w'.val % 2) * 128 + c'.val, by omega⟩ + t1 (ix1 c')) := by
    funext d' h' w' c'
    unfold ypair
    rw [shiftRow_apply t1 (w'.val % 2) (Nat.mod_lt _ (by norm_num)) c',
      convRow_window (xpair x0 ⟨n.val / 2, by omega⟩) w1 s1 d' h' ⟨w'.val / 2, by omega⟩
        ⟨n.val % 2, Nat.mod_lt _ (by norm_num)⟩, xpair_self]
  unfold outAt blockK
  rw [shiftRow_apply t2 (w.val % 2) (Nat.mod_lt _ (by norm_num)) c,
    convRow_window _ w2 s2 d h ⟨w.val / 2, by omega⟩ ⟨n.val % 2, Nat.mod_lt _ (by norm_num)⟩, hy]

end Cert.KSpec

end
-- ==== Proof.KValue.lean ====
/- From the sixteen grid points to the banded program's whole result array. -/
import proofs.«102070_g2000507141466659_pallasbulk_1049_20_alg».proof.Proof.KBlock
import proofs.«102070_g2000507141466659_pallasbulk_1049_20_alg».proof.Proof.KHost
import proofs.«102070_g2000507141466659_pallasbulk_1049_20_alg».proof.Proof.KBridge
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.ShloMosaic.StableHlo Idealize.ShloMosaic.ValueIdx Idealize.SL.Sem
open Cert.KernelIdeal Cert.KernelIdeal.Gen

namespace Cert.KernelIdeal.Value

variable (m : (ℓ : Loc nD τ sig) → Buf (Elt Ideal) ℓ)

abbrev aX (c : Dev nD) : Cert.Spec.SX.Idx → EReal := m ((c : Thread nD τ).loc main_arg0)
abbrev s1 (c : Dev nD) : Cert.Spec.SC.Idx → EReal :=
  Cert.Spec.scaleK (m ((c : Thread nD τ).loc main_arg3)) (m ((c : Thread nD τ).loc main_arg6))
abbrev t1 (c : Dev nD) : Cert.Spec.SC.Idx → EReal :=
  Cert.Spec.shift (s1 m c) (m ((c : Thread nD τ).loc main_arg2)) (m ((c : Thread nD τ).loc main_arg4)) (m ((c : Thread nD τ).loc main_arg5))
abbrev s2 (c : Dev nD) : Cert.Spec.SC.Idx → EReal :=
  Cert.Spec.scaleK (m ((c : Thread nD τ).loc main_arg9)) (m ((c : Thread nD τ).loc main_arg12))
abbrev t2 (c : Dev nD) : Cert.Spec.SC.Idx → EReal :=
  Cert.Spec.shift (s2 m c) (m ((c : Thread nD τ).loc main_arg8)) (m ((c : Thread nD τ).loc main_arg10)) (m ((c : Thread nD τ).loc main_arg11))

def G (c : Dev nD) : S128x8x8x8x128.Idx → EReal := fun i =>
  Cert.Spec.blockK Cert.Spec.leakyK (fun d h w ch => Cert.Spec.xn (aX m c) (ix5 (i 0) d h w ch))
    (m ((c : Thread nD τ).loc main_arg1)) (s1 m c) (t1 m c) (m ((c : Thread nD τ).loc main_arg7)) (s2 m c) (t2 m c)
    (i 1) (i 2) (i 3) (i 4)

theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_5.index t (0 : Fin 5) = t.val ∧ win0_5.index t (1 : Fin 5) = 0 ∧ win0_5.index t (2 : Fin 5) = 0
    ∧ win0_5.index t (3 : Fin 5) = 0 ∧ win0_5.index t (4 : Fin 5) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

theorem t_lt (t : Fin cfg0.N) : t.val < 16 := by
  have h : t.val < cfg0.N := t.isLt
  have e : cfg0.N = 16 := N_0
  omega

theorem iblk0_apply (c : Dev nD) (t : Fin cfg0.N) (n d h w : Fin 8) (ch : Fin 128) :
    (iblk m c 0 t : S8x8x8x8x128.Idx → EReal) (ix5 n d h w ch)
      = (V m c main_v0 : S128x8x8x8x128.Idx → EReal) (ix5 (⟨8 * t.val + n.val, by have := t_lt t; omega⟩ : Fin 128) d h w ch) := by
  obtain ⟨e0, e1, e2, e3, e4, -⟩ := idx_facts t
  unfold iblk
  rw [View.read_apply]
  show V m c main_v0 (((cfg0.win 0).blk t).view.emb (ix5 n d h w ch)) = V m c main_v0 _
  congr 1
  funext a
  apply Fin.ext
  match a with
  | ⟨0, _⟩ => show win0_0.index t (0 : Fin 5) * 8 + 1 * n.val = 8 * t.val + n.val; rw [e0]; omega
  | ⟨1, _⟩ => show win0_0.index t (1 : Fin 5) * 8 + 1 * d.val = d.val; rw [e1]; omega
  | ⟨2, _⟩ => show win0_0.index t (2 : Fin 5) * 8 + 1 * h.val = h.val; rw [e2]; omega
  | ⟨3, _⟩ => show win0_0.index t (3 : Fin 5) * 8 + 1 * w.val = w.val; rw [e3]; omega
  | ⟨4, _⟩ => show win0_0.index t (4 : Fin 5) * 128 + 1 * ch.val = ch.val; rw [e4]; omega

theorem iblk1_eq (c : Dev nD) (t : Fin cfg0.N) :
    (iblk m c 1 t : S9x512x256.Idx → EReal) = (V m c main_v51 : S9x512x256.Idx → EReal) := by
  obtain ⟨-, -, -, -, -, -, -, -, -, -, e0, e1, e2, -⟩ := idx_facts t
  funext y
  unfold iblk
  rw [View.read_apply]
  show V m c main_v51 (((cfg0.win 1).blk t).view.emb y) = V m c main_v51 y
  congr 1
  funext a
  apply Fin.ext
  match a with
  | ⟨0, _⟩ => show win0_1.index t (0 : Fin 3) * 9 + 1 * (y 0).val = (y 0).val; rw [e0]; omega
  | ⟨1, _⟩ => show win0_1.index t (1 : Fin 3) * 512 + 1 * (y 1).val = (y 1).val; rw [e1]; omega
  | ⟨2, _⟩ => show win0_1.index t (2 : Fin 3) * 256 + 1 * (y 2).val = (y 2).val; rw [e2]; omega

theorem iblk2_eq (c : Dev nD) (t : Fin cfg0.N) :
    (iblk m c 2 t : S1x256.Idx → EReal) = (V m c main_v53 : S1x256.Idx → EReal) := by
  obtain ⟨-, -, -, -, -, -, -, -, -, -, -, -, -, e0, e1, -⟩ := idx_facts t
  funext y
  unfold iblk
  rw [View.read_apply]
  show V m c main_v53 (((cfg0.win 2).blk t).view.emb y) = V m c main_v53 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

theorem iblk3_eq (c : Dev nD) (t : Fin cfg0.N) :
    (iblk m c 3 t : S9x512x256.Idx → EReal) = (V m c main_v104 : S9x512x256.Idx → EReal) := by
  obtain ⟨-, -, -, -, -, -, -, -, -, -, -, -, -, -, -, e0, e1, e2, -⟩ := idx_facts t
  funext y
  unfold iblk
  rw [View.read_apply]
  show V m c main_v104 (((cfg0.win 3).blk t).view.emb y) = V m c main_v104 y
  congr 1
  funext a
  apply Fin.ext
  match a with
  | ⟨0, _⟩ => show win0_3.index t (0 : Fin 3) * 9 + 1 * (y 0).val = (y 0).val; rw [e0]; omega
  | ⟨1, _⟩ => show win0_3.index t (1 : Fin 3) * 512 + 1 * (y 1).val = (y 1).val; rw [e1]; omega
  | ⟨2, _⟩ => show win0_3.index t (2 : Fin 3) * 256 + 1 * (y 2).val = (y 2).val; rw [e2]; omega

theorem iblk4_eq (c : Dev nD) (t : Fin cfg0.N) :
    (iblk m c 4 t : S1x256.Idx → EReal) = (V m c main_v106 : S1x256.Idx → EReal) := by
  obtain ⟨-, -, -, -, -, -, -, -, -, -, -, -, -, -, -, -, -, -, e0, e1⟩ := idx_facts t
  funext y
  unfold iblk
  rw [View.read_apply]
  show V m c main_v106 (((cfg0.win 4).blk t).view.emb y) = V m c main_v106 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

theorem outB_at (c : Dev nD) (t : Fin cfg0.N) (n d h w : Fin 8) (ch : Fin 128) :
    Cert.KSpec.outAt (iblk m c 0 t) (iblk m c 1 t) (iblk m c 2 t) (iblk m c 3 t) (iblk m c 4 t) n d h w ch
      = G m c (ix5 (⟨8 * t.val + n.val, by have := t_lt t; omega⟩ : Fin 128) d h w ch) := by
  have e1 : (iblk m c 1 t : S9x512x256.Idx → EReal) = fun j => Cert.Spec.band (m ((c : Thread nD τ).loc main_arg1)) (s1 m c) (j 0) (j 1) (j 2) :=
    (iblk1_eq m c t).trans (Cert.KernelIdeal.HostVal.v51_eq m c)
  have e2 : (iblk m c 2 t : S1x256.Idx → EReal) = fun j => t1 m c (ix1 ⟨(j 1).val % 128, Nat.mod_lt _ (by norm_num)⟩) :=
    (iblk2_eq m c t).trans (Cert.KernelIdeal.HostVal.v53_eq m c)
  have e3 : (iblk m c 3 t : S9x512x256.Idx → EReal) = fun j => Cert.Spec.band (m ((c : Thread nD τ).loc main_arg7)) (s2 m c) (j 0) (j 1) (j 2) :=
    (iblk3_eq m c t).trans (Cert.KernelIdeal.HostVal.v104_eq m c)
  have e4 : (iblk m c 4 t : S1x256.Idx → EReal) = fun j => t2 m c (ix1 ⟨(j 1).val % 128, Nat.mod_lt _ (by norm_num)⟩) :=
    (iblk4_eq m c t).trans (Cert.KernelIdeal.HostVal.v106_eq m c)
  have e0 : (fun d' h' w' c' => (iblk m c 0 t : S8x8x8x8x128.Idx → EReal) (ix5 n d' h' w' c'))
      = fun d' h' w' c' => Cert.Spec.xn (aX m c) (ix5 (⟨8 * t.val + n.val, by have := t_lt t; omega⟩ : Fin 128) d' h' w' c') := by
    funext d' h' w' c'
    rw [iblk0_apply, Cert.KernelIdeal.HostVal.v0_eq]
  rw [e1, e2, e3, e4]
  refine (Cert.KSpec.outB_eq (iblk m c 0 t) _ _ _ _ _ _ n d h w ch).trans ?_
  rw [e0]
  rfl

theorem flushed_eq (c : Dev nD) (t : Fin cfg0.N) :
    (GenP.dats m 0 c).flushed 5 t = ((cfg0.win 5).blk t).view.read (Elt Ideal) (G m c) := by
  obtain ⟨-, -, -, -, -, e0, e1, e2, e3, e4, -⟩ := idx_facts t
  show (cfg0.win 5).cut (grid0.coords t) ((GenP.dats m 0 c).after 5 t) = _
  rw [GenP.after0_5, Cert.KernelIdeal.Block.block_eq]
  funext j
  rw [View.read_apply]
  refine (outB_at m c t _ _ _ _ _).trans ?_
  congr 1
  funext a
  apply Fin.ext
  match a with
  | ⟨0, _⟩ => show 8 * t.val + (j 0).val = win0_5.index t (0 : Fin 5) * 8 + 1 * (j 0).val; rw [e0]; omega
  | ⟨1, _⟩ => show (j 1).val = win0_5.index t (1 : Fin 5) * 8 + 1 * (j 1).val; rw [e1]; omega
  | ⟨2, _⟩ => show (j 2).val = win0_5.index t (2 : Fin 5) * 8 + 1 * (j 2).val; rw [e2]; omega
  | ⟨3, _⟩ => show (j 3).val = win0_5.index t (3 : Fin 5) * 8 + 1 * (j 3).val; rw [e3]; omega
  | ⟨4, _⟩ => show (j 4).val = win0_5.index t (4 : Fin 5) * 128 + 1 * (j 4).val; rw [e4]; omega

theorem mem_blk (t : Fin cfg0.N) (i : S128x8x8x8x128.Idx) :
    i ∈ ((cfg0.win 5).blk t).view.set ↔ ∀ a : Fin 5, win0_5.index t a * S8x8x8x8x128.size a ≤ (i a).val
      ∧ (i a).val < win0_5.index t a * S8x8x8x8x128.size a + S8x8x8x8x128.size a := by
  show i ∈ ((View.whole main_v107).slice (win0_5.rect t)).set ↔ _
  rw [View.set_slice_whole, Rect.mem_set_unit]
  exact Iff.rfl

theorem covered (i : S128x8x8x8x128.Idx) :
    ∃ t : Fin cfg0.N, (cfg0.win 5).flush t = true ∧ i ∈ ((cfg0.win 5).blk t).view.set := by
  have hi0 : (i 0).val < 128 := (i 0).isLt
  have hi1 : (i 1).val < 8 := (i 1).isLt
  have hi2 : (i 2).val < 8 := (i 2).isLt
  have hi3 : (i 3).val < 8 := (i 3).isLt
  have hi4 : (i 4).val < 128 := (i 4).isLt
  have hN : cfg0.N = 16 := N_0
  have ht : (i 0).val / 8 < cfg0.N := by omega
  obtain ⟨-, -, -, -, -, e0, e1, e2, e3, e4, -⟩ := idx_facts ⟨(i 0).val / 8, ht⟩
  refine ⟨⟨(i 0).val / 8, ht⟩, flush0_5 _, ?_⟩
  rw [mem_blk]
  intro a
  match a with
  | ⟨0, _⟩ =>
    show win0_5.index ⟨(i 0).val / 8, ht⟩ (0 : Fin 5) * 8 ≤ (i 0).val ∧ (i 0).val < win0_5.index ⟨(i 0).val / 8, ht⟩ (0 : Fin 5) * 8 + 8
    rw [e0]; show (i 0).val / 8 * 8 ≤ (i 0).val ∧ (i 0).val < (i 0).val / 8 * 8 + 8; omega
  | ⟨1, _⟩ =>
    show win0_5.index ⟨(i 0).val / 8, ht⟩ (1 : Fin 5) * 8 ≤ (i 1).val ∧ (i 1).val < win0_5.index ⟨(i 0).val / 8, ht⟩ (1 : Fin 5) * 8 + 8
    rw [e1]; omega
  | ⟨2, _⟩ =>
    show win0_5.index ⟨(i 0).val / 8, ht⟩ (2 : Fin 5) * 8 ≤ (i 2).val ∧ (i 2).val < win0_5.index ⟨(i 0).val / 8, ht⟩ (2 : Fin 5) * 8 + 8
    rw [e2]; omega
  | ⟨3, _⟩ =>
    show win0_5.index ⟨(i 0).val / 8, ht⟩ (3 : Fin 5) * 8 ≤ (i 3).val ∧ (i 3).val < win0_5.index ⟨(i 0).val / 8, ht⟩ (3 : Fin 5) * 8 + 8
    rw [e3]; omega
  | ⟨4, _⟩ =>
    show win0_5.index ⟨(i 0).val / 8, ht⟩ (4 : Fin 5) * 128 ≤ (i 4).val ∧ (i 4).val < win0_5.index ⟨(i 0).val / 8, ht⟩ (4 : Fin 5) * 128 + 128
    rw [e4]; omega

theorem final (c : Dev nD) : (GenP.dats m 0 c).arrAt 5 cfg0.N = G m c :=
  (GenP.dats m 0 c).arrAt_eq_of_cover 5 (G m c) (fun t _ => flushed_eq m c t) (covered)

theorem tail (c : Dev nD) :
    (Pipeline.afterTail₀ cfgs (GenP.dats m) 0 (V0 m) [hostOps1] c main_v108 : S128x128x8x8x8.Idx → EReal)
      = Cert.Spec.resultK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  have e : (Pipeline.afterTail₀ cfgs (GenP.dats m) 0 (V0 m) [hostOps1] c main_v108 : S128x128x8x8x8.Idx → EReal)
      = transpose S128x128x8x8x8 [0, 4, 1, 2, 3] (G m c) Facts₀.transposes_S128x8x8x8x128_S128x128x8x8x8_0_4_1_2_3 := by
    unfold Pipeline.afterTail₀
    show StableHlo.after hostOps1 _ (Proc.devRef .tc main_v108) = _
    after_results
    exact congrArg (fun X : S128x8x8x8x128.Idx → EReal => transpose S128x128x8x8x8 [0, 4, 1, 2, 3] X
        Facts₀.transposes_S128x8x8x8x128_S128x128x8x8x8_0_4_1_2_3)
      ((Pipeline.withArrays_arr spec0 launch0.win.arr_inj c _ _ 5).trans (final m c))
  rw [e]
  funext j
  refine (transpose_apply _ _ _ j (ix5 (j 0) (j 2) (j 3) (j 4) (j 1)) fun b => match b with
    | ⟨0, _⟩ => rfl | ⟨1, _⟩ => rfl | ⟨2, _⟩ => rfl | ⟨3, _⟩ => rfl | ⟨4, _⟩ => rfl).trans ?_
  rfl

theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v108)
        = Cert.Spec.resultK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v108 (Pipeline.mem_restRefs_of main_v108 (by decide) (by decide))).trans (tail m c),
      ((h c).2 main_arg0 (Pipeline.mem_restRefs_of main_arg0 (by decide) (by decide))).trans (W_main_arg0 m (GenP.dats m) c),
      ((h c).2 main_arg1 (Pipeline.mem_restRefs_of main_arg1 (by decide) (by decide))).trans (W_main_arg1 m (GenP.dats m) c),
      ((h c).2 main_arg2 (Pipeline.mem_restRefs_of main_arg2 (by decide) (by decide))).trans (W_main_arg2 m (GenP.dats m) c),
      ((h c).2 main_arg3 (Pipeline.mem_restRefs_of main_arg3 (by decide) (by decide))).trans (W_main_arg3 m (GenP.dats m) c),
      ((h c).2 main_arg4 (Pipeline.mem_restRefs_of main_arg4 (by decide) (by decide))).trans (W_main_arg4 m (GenP.dats m) c),
      ((h c).2 main_arg5 (Pipeline.mem_restRefs_of main_arg5 (by decide) (by decide))).trans (W_main_arg5 m (GenP.dats m) c),
      ((h c).2 main_arg6 (Pipeline.mem_restRefs_of main_arg6 (by decide) (by decide))).trans (W_main_arg6 m (GenP.dats m) c),
      ((h c).2 main_arg7 (Pipeline.mem_restRefs_of main_arg7 (by decide) (by decide))).trans (W_main_arg7 m (GenP.dats m) c),
      ((h c).2 main_arg8 (Pipeline.mem_restRefs_of main_arg8 (by decide) (by decide))).trans (W_main_arg8 m (GenP.dats m) c),
      ((h c).2 main_arg9 (Pipeline.mem_restRefs_of main_arg9 (by decide) (by decide))).trans (W_main_arg9 m (GenP.dats m) c),
      ((h c).2 main_arg10 (Pipeline.mem_restRefs_of main_arg10 (by decide) (by decide))).trans (W_main_arg10 m (GenP.dats m) c),
      ((h c).2 main_arg11 (Pipeline.mem_restRefs_of main_arg11 (by decide) (by decide))).trans (W_main_arg11 m (GenP.dats m) c),
      ((h c).2 main_arg12 (Pipeline.mem_restRefs_of main_arg12 (by decide) (by decide))).trans (W_main_arg12 m (GenP.dats m) c)⟩)
    (GenP.run_main m ρ)

end Cert.KernelIdeal.Value

end
-- ==== Proof.RLoop.lean ====
/- The first counted loop of the body: its trip and its invariant. -/
import proofs.«102070_g2000507141466659_pallasbulk_1049_20_alg».proof.Proof.Gen.ReferenceIdeal.Loops

set_option maxRecDepth 8192
set_option maxHeartbeats 4000000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

abbrev Trip_k0_t1 (c : Dev nD) (arg2 : Memref sig .tc .vmem S9x384x128 .bf16) (arg7 : Memref sig .tc .vmem S10x10x8x384 .bf16) (arg8 : Memref sig .tc .vmem S10x10x8x384 .bf16) (X_arg2 : BufTy.Contents (Elt F) arg2.view.ty) (X_arg7 : BufTy.Contents (Elt F) arg7.view.ty) (f_arg8 : BufTy.Contents (Elt F) arg8.view.ty) : sProp 𝕄G :=
  iprop((arg2.view.loc (c : Thread nD τ) ↦[arg2.view.set]{fullShare} X_arg2) ∗ (arg7.view.loc (c : Thread nD τ) ↦[arg7.view.set]{fullShare} X_arg7) ∗ (arg8.view.loc (c : Thread nD τ) ↦[arg8.view.set]{fullShare} f_arg8))

@[irreducible] def trip_k0_t1 (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec F S1x128 .f32) (X_arg2 : BufTy.Contents (Elt F) arg2.view.ty) (X_arg7 : BufTy.Contents (Elt F) arg7.view.ty) (k : Fin k0_t1_loop.trips) :
    { L_arg8 : BufTy.Contents (Elt F) arg8.view.ty → List (View.Piece (Elt F) S10x10x8x384 .bf16) // ∀ (E : Set ℕ) (f_arg8 : BufTy.Contents (Elt F) arg8.view.ty),
      Trip_k0_t1 (F := F) c arg2 arg7 arg8 X_arg2 X_arg7 f_arg8
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 v53 k PUnit.unit)
          (fun _ => Trip_k0_t1 (F := F) c arg2 arg7 arg8 X_arg2 X_arg7 (arg8.view.writes (Elt F) f_arg8 (L_arg8 f_arg8))) } := by
  have hk : k.val < 2 := Nat.lt_of_lt_of_le k.isLt k0_t1_abs.2.1
  refine ⟨?_, fun E f_arg8 => ?run⟩
  case run =>
    unfold k0_t1_body
    iintro ⟨HR_arg2, HR_arg7, HW_arg8⟩
    sl_exec
    sl_step
    sl_close

abbrev tripL_k0_t1 (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec F S1x128 .f32) (X_arg2 : BufTy.Contents (Elt F) arg2.view.ty) (X_arg7 : BufTy.Contents (Elt F) arg7.view.ty) (k : Fin k0_t1_loop.trips) : BufTy.Contents (Elt F) arg8.view.ty → List (View.Piece (Elt F) S10x10x8x384 .bf16) :=
  (trip_k0_t1 (F := F) 𝒱 c bd i arg1 harg1 arg2 harg2 arg3 harg3 arg4 harg4 arg5 harg5 arg6 harg6 arg7 harg7 arg8 harg8 v53 X_arg2 X_arg7 k).1

@[irreducible] def pb_k0_t1Step (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec F S1x128 .f32) (X_arg2 : BufTy.Contents (Elt F) arg2.view.ty) (X_arg7 : BufTy.Contents (Elt F) arg7.view.ty) (G_arg8 : BufTy.Contents (Elt F) arg8.view.ty) (k : ℕ) (prev : List (View.Piece (Elt F) S10x10x8x384 .bf16)) : List (View.Piece (Elt F) S10x10x8x384 .bf16) :=
  if h : k < k0_t1_loop.trips then
    (tripL_k0_t1 (F := F) 𝒱 c bd i arg1 harg1 arg2 harg2 arg3 harg3 arg4 harg4 arg5 harg5 arg6 harg6 arg7 harg7 arg8 harg8 v53 X_arg2 X_arg7 ⟨k, h⟩ (arg8.view.writes (Elt F) G_arg8 prev)) ++ prev
  else prev

def pb_k0_t1 (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec F S1x128 .f32) (X_arg2 : BufTy.Contents (Elt F) arg2.view.ty) (X_arg7 : BufTy.Contents (Elt F) arg7.view.ty) (G_arg8 : BufTy.Contents (Elt F) arg8.view.ty) : ℕ → List (View.Piece (Elt F) S10x10x8x384 .bf16)
  | 0 => []
  | k + 1 => pb_k0_t1Step 𝒱 c bd i arg1 harg1 arg2 harg2 arg3 harg3 arg4 harg4 arg5 harg5 arg6 harg6 arg7 harg7 arg8 harg8 v53 X_arg2 X_arg7 G_arg8 k (pb_k0_t1 𝒱 c bd i arg1 harg1 arg2 harg2 arg3 harg3 arg4 harg4 arg5 harg5 arg6 harg6 arg7 harg7 arg8 harg8 v53 X_arg2 X_arg7 G_arg8 k)

theorem pb_k0_t1_succ (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec F S1x128 .f32) (X_arg2 : BufTy.Contents (Elt F) arg2.view.ty) (X_arg7 : BufTy.Contents (Elt F) arg7.view.ty) (G_arg8 : BufTy.Contents (Elt F) arg8.view.ty) (k : Fin k0_t1_loop.trips) :
    pb_k0_t1 (F := F) 𝒱 c bd i arg1 harg1 arg2 harg2 arg3 harg3 arg4 harg4 arg5 harg5 arg6 harg6 arg7 harg7 arg8 harg8 v53 X_arg2 X_arg7 G_arg8 (k.val + 1)
      = (tripL_k0_t1 (F := F) 𝒱 c bd i arg1 harg1 arg2 harg2 arg3 harg3 arg4 harg4 arg5 harg5 arg6 harg6 arg7 harg7 arg8 harg8 v53 X_arg2 X_arg7 k (arg8.view.writes (Elt F) G_arg8 (pb_k0_t1 (F := F) 𝒱 c bd i arg1 harg1 arg2 harg2 arg3 harg3 arg4 harg4 arg5 harg5 arg6 harg6 arg7 harg7 arg8 harg8 v53 X_arg2 X_arg7 G_arg8 k.val)))
        ++ (pb_k0_t1 (F := F) 𝒱 c bd i arg1 harg1 arg2 harg2 arg3 harg3 arg4 harg4 arg5 harg5 arg6 harg6 arg7 harg7 arg8 harg8 v53 X_arg2 X_arg7 G_arg8 k.val) := by
  rw [pb_k0_t1.eq_2]; unfold pb_k0_t1Step; exact dif_pos k.isLt

abbrev inv_k0_t1 (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec F S1x128 .f32) (X_arg2 : BufTy.Contents (Elt F) arg2.view.ty) (X_arg7 : BufTy.Contents (Elt F) arg7.view.ty) (G_arg8 : BufTy.Contents (Elt F) arg8.view.ty) (k : ℕ) (acc : Unit) : sProp 𝕄G :=
  iprop((arg2.view.loc (c : Thread nD τ) ↦[arg2.view.set]{fullShare} X_arg2) ∗ (arg7.view.loc (c : Thread nD τ) ↦[arg7.view.set]{fullShare} X_arg7) ∗ (∃ f, (arg8.view.loc (c : Thread nD τ) ↦[arg8.view.set]{fullShare} f) ∗ ⌜f = arg8.view.writes (Elt F) G_arg8 (pb_k0_t1 (F := F) 𝒱 c bd i arg1 harg1 arg2 harg2 arg3 harg3 arg4 harg4 arg5 harg5 arg6 harg6 arg7 harg7 arg8 harg8 v53 X_arg2 X_arg7 G_arg8 k)⌝))

set_option warn.classDefReducibility false in
@[sl_loop] def loopInv_k0_t1 (𝒱 : Variants) (c : Dev nD) (bd : Option 𝒱.V) (E : Set ℕ) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec F S1x128 .f32) (X_arg2 : BufTy.Contents (Elt F) arg2.view.ty) (X_arg7 : BufTy.Contents (Elt F) arg7.view.ty) (G_arg8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 v53 where
  inv := inv_k0_t1 (F := F) 𝒱 c bd i arg1 harg1 arg2 harg2 arg3 harg3 arg4 harg4 arg5 harg5 arg6 harg6 arg7 harg7 arg8 harg8 v53 X_arg2 X_arg7 G_arg8
  step k acc := by
    iintro ⟨HR_arg2, HR_arg7, ⟨%f_arg8, HW_arg8, %h_arg8⟩⟩
    iapply (wp_wand_r Idealize.ShloMosaic.frame (wpE (defs₀ (F := F)) 𝒱 (c : Thread nD τ) bd) E)
    isplitl [HR_arg2 HR_arg7 HW_arg8]
    · iapply ((trip_k0_t1 (F := F) 𝒱 c bd i arg1 harg1 arg2 harg2 arg3 harg3 arg4 harg4 arg5 harg5 arg6 harg6 arg7 harg7 arg8 harg8 v53 X_arg2 X_arg7 k).2 E f_arg8)
      isplitl [HR_arg2]; · iexact HR_arg2
      isplitl [HR_arg7]; · iexact HR_arg7
      iexact HW_arg8
    · iintro %_ ⟨HR_arg2, HR_arg7, HW_arg8⟩
      isplitl [HR_arg2]; · iexact HR_arg2
      isplitl [HR_arg7]; · iexact HR_arg7
      iexists _; isplitl [HW_arg8]; · iexact HW_arg8
      ipureintro; rw [pb_k0_t1_succ, View.writes_append, h_arg8]

end Cert.ReferenceIdeal.Hand

end
-- ==== Proof.RRun.lean ====
/- The body as one triple: rims zeroed, the input scattered, two convolutions. -/
import proofs.«102070_g2000507141466659_pallasbulk_1049_20_alg».proof.Proof.RLoop
import proofs.«102070_g2000507141466659_pallasbulk_1049_20_alg».proof.Proof.Gen.ReferenceIdeal.Frame

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def refRun (c : Dev nD) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole)
    (x0 : Vec F S1x8x8x8x128 .f32) (x1 : Vec F S9x384x128 .bf16) (x2 : Vec F S1x128 .f32) (x3 : Vec F S9x384x128 .bf16) (x4 : Vec F S1x128 .f32) (d7 d8 : Vec F S10x10x8x384 .bf16) :
    { L6 : List (View.Piece (Elt F) S1x8x8x8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare d7 ∗ owns (c : Thread nD τ) arg8 fullShare d8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ (∃ f, arg7.view.loc (c : Thread nD τ) ↦[arg7.view.set]{fullShare} f) ∗ (∃ f, arg8.view.loc (c : Thread nD τ) ↦[arg8.view.set]{fullShare} f)) -∗ K ⟨⟩))
          ⊢ wp frame (wpE (defs₀ (F := F)) Variants.none c none) E (cc0_resblock3d_kernel i arg1 harg1 arg2 harg2 arg3 harg3 arg4 harg4 arg5 harg5 arg6 harg6 arg7 harg7 arg8 harg8) K } := by
  refine ⟨?_, fun E K => ?run⟩
  case run =>
    simp only [cc0_resblock3d_kernel_eq_skeleton]; unfold cc0_resblock3d_kernel_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f7, %hf7, HS7⟩, ⟨%f8, %hf8, HS8⟩, Hk⟩
    obtain rfl := harg1.eq_unread hf0; obtain rfl := harg2.eq_unread hf1; obtain rfl := harg3.eq_unread hf2; obtain rfl := harg4.eq_unread hf3; obtain rfl := harg5.eq_unread hf4
    obtain rfl := harg7.eq_unread hf7; obtain rfl := harg8.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS7]; · iexists _; iexact HS7
    iexists _; iexact HS8

end Cert.ReferenceIdeal.Hand

end
-- ==== Proof.RDefs.lean ====
/- The body's memrefs at a grid point and the two pieces of four depth rows that tile the output block. -/
import proofs.«102070_g2000507141466659_pallasbulk_1049_20_alg».proof.Proof.RRun

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev VO5 : View sig .tc .vmem S1x8x8x8x128 .f32 := (Memref.whole cc0_stg5_0 : Memref sig .tc .vmem S1x8x8x8x128 .f32).view
abbrev ms0_0 (t : Fin cfg0.N) : Memref sig .tc .vmem S1x8x8x8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x384x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x384x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x8x8x128 .f32 := win0_5.stage (cfg0.slots t 5)
abbrev hs0_5 (t : Fin cfg0.N) : (ms0_5 t).IsWhole := hstage0_5 ((cfg0.slots t 5).cast nbuf0_5)
abbrev scM7 : Memref sig .tc .vmem S10x10x8x384 .bf16 := Memref.whole cc0_scratch0
abbrev scM8 : Memref sig .tc .vmem S10x10x8x384 .bf16 := Memref.whole cc0_scratch1

theorem PhiA0_eq (c : Dev nD) :
    (Pipeline.ΦA spec0 c : sProp 𝕄)
      = iprop(iprop((∃ d, owns (c : Thread nD τ) scM7 fullShare d) ∗ (∃ d, owns (c : Thread nD τ) scM8 fullShare d)) ∗ (∃ r, prngReg c r)) := by
  unfold Pipeline.ΦA; rw [scopedRest0_eq]; simp only [scM7, scM8, owns_whole]; try rfl

def junkS : Vec F S10x10x8x384 .bf16 := scM7.view.read (Elt F) scM7.view.junk

theorem coverR (c : Dev nD) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole)
    (x0 : Vec F S1x8x8x8x128 .f32) (x1 : Vec F S9x384x128 .bf16) (x2 : Vec F S1x128 .f32) (x3 : Vec F S9x384x128 .bf16) (x4 : Vec F S1x128 .f32) (d7 d8 : Vec F S10x10x8x384 .bf16) (y : S1x8x8x8x128.Idx) :
    ∃ pc ∈ (refRun c i arg1 harg1 arg2 harg2 arg3 harg3 arg4 harg4 arg5 harg5 arg6 harg6 arg7 harg7 arg8 harg8 x0 x1 x2 x3 x4 d7 d8).1, y ∈ pc.1.set :=
  View.cover_of_tiledL (refRun c i arg1 harg1 arg2 harg2 arg3 harg3 arg4 harg4 arg5 harg5 arg6 harg6 arg7 harg7 arg8 harg8 x0 x1 x2 x3 x4 d7 d8).1 S1x4x8x8x128.size (by sl_kernel_rfl) y

def outR (c : Dev nD) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole)
    (x0 : Vec F S1x8x8x8x128 .f32) (x1 : Vec F S9x384x128 .bf16) (x2 : Vec F S1x128 .f32) (x3 : Vec F S9x384x128 .bf16) (x4 : Vec F S1x128 .f32) : Vec F S1x8x8x8x128 .f32 :=
  VO5.read (Elt F) (VO5.writes (Elt F) VO5.junk (refRun c i arg1 harg1 arg2 harg2 arg3 harg3 arg4 harg4 arg5 harg5 arg6 harg6 arg7 harg7 arg8 harg8 x0 x1 x2 x3 x4 junkS junkS).1)

end Cert.ReferenceIdeal.Hand

end
-- ==== Proof.RSpec.lean ====
/- One grid point of the plain form, index by index: one sample, halo scratches of three columns, nine-tap rows. -/
import proofs.«102070_g2000507141466659_pallasbulk_1049_20_alg».proof.Proof.Spec

noncomputable section

open scoped BigOperators
open Idealize.ShloMosaic Idealize.ShloMosaic.ValueIdx

namespace Cert.RSpec

open Cert.Spec

abbrev SB1 : Shape := ⟨5, ![1, 8, 8, 8, 128]⟩
abbrev SScrR : Shape := ⟨4, ![10, 10, 8, 384]⟩
abbrev SWtR : Shape := ⟨3, ![9, 384, 128]⟩
abbrev STR : Shape := ⟨2, ![1, 128]⟩

abbrev Vol := Fin 8 → Fin 8 → Fin 8 → Fin 128 → EReal

def vol (x0 : SB1.Idx → EReal) : Vol := fun d h w c => x0 (ix5 (0 : Fin 1) d h w c)

def windowR (a : Vol) : SScrR.Idx → EReal := fun j =>
  padded a (j 0).val (j 1).val ((j 2).val + (j 3).val / 128) ⟨(j 3).val % 128, Nat.mod_lt _ (by norm_num)⟩

def convRowR (A : SScrR.Idx → EReal) (W : SWtR.Idx → EReal) (d h w : Fin 8) (co : Fin 128) : EReal :=
  ∑ t : Fin 9, ∑ k : Fin 384,
    A (ix4 (⟨d.val + t.val / 3, by omega⟩ : Fin 10) (⟨h.val + t.val % 3, by omega⟩ : Fin 10) w k) * W (ix3 t k co)

def yvol (x0 : SB1.Idx → EReal) (W1 : SWtR.Idx → EReal) (T1 : STR.Idx → EReal) : Vol :=
  fun d h w c => leakyR (convRowR (windowR (vol x0)) W1 d h w c + T1 (ix2 (0 : Fin 1) c))

def outAtR (x0 : SB1.Idx → EReal) (W1 : SWtR.Idx → EReal) (T1 : STR.Idx → EReal) (W2 : SWtR.Idx → EReal) (T2 : STR.Idx → EReal)
    (d h w : Fin 8) (c : Fin 128) : EReal :=
  leakyR (convRowR (windowR (yvol x0 W1 T1)) W2 d h w c + T2 (ix2 (0 : Fin 1) c) + x0 (ix5 (0 : Fin 1) d h w c))

def OutR (x0 : SB1.Idx → EReal) (W1 : SWtR.Idx → EReal) (T1 : STR.Idx → EReal) (W2 : SWtR.Idx → EReal) (T2 : STR.Idx → EReal) :
    SB1.Idx → EReal := fun j => outAtR x0 W1 T1 W2 T2 (j 1) (j 2) (j 3) (j 4)

def HaloZeroR (f : SScrR.Idx → EReal) : Prop :=
  ∀ j : SScrR.Idx, ¬(1 ≤ (j 0).val ∧ (j 0).val ≤ 8 ∧ 1 ≤ (j 1).val ∧ (j 1).val ≤ 8
      ∧ 1 ≤ (j 2).val + (j 3).val / 128 ∧ (j 2).val + (j 3).val / 128 ≤ 8) → f j = 0

theorem windowR_haloZero (a : Vol) : HaloZeroR (windowR a) := by
  intro j hj
  unfold windowR padded
  rw [if_neg hj]

end Cert.RSpec

end
-- ==== Proof.LibBlend.lean ====
/- A store of part of a word, over contents the read-back describes, is the store of its window alone. -/
import Idealize.ShloMosaic.Lib.Writes
import Idealize.ShloMosaic.PureOps.ShapeOps
import Idealize.ShloMosaic.Signature.Memref

noncomputable section

namespace Cert.LibBlend

open Idealize.ShloMosaic Idealize.ShloMosaic.View

variable {sig : RefSig} {κ : Kind} {sp : Space} {s : Shape} {e : EltTy} {Val : EltTy → Type}

theorem writes_cons_blend (v : View sig κ sp s e) (f : v.ty.Contents Val)
    {off size usz st off' : Fin s.rank → ℕ} (inb : ∀ b, off b + size b ≤ s.size b)
    (h : (Rect.unit (s := s) off size inb).shape.Slices st ⟨s.rank, usz⟩)
    (hoff : ∀ b, off' b = off b + st b)
    (inb' : ∀ b, off' b + usz b ≤ s.size b)
    (old : (Rect.unit (s := s) off size inb).shape.Idx → Val e) (a : Shape.Idx ⟨s.rank, usz⟩ → Val e)
    (L : List (Piece Val s e))
    (hold : ∀ x : (Rect.unit (s := s) off size inb).shape.Idx,
        old x = v.read Val (v.writes Val f L) ((Rect.unit off size inb).emb x)) :
    v.writes Val f (⟨Rect.unit off size inb, updateSlice old a st h⟩ :: L)
      = v.writes Val f (⟨Rect.unit off' usz inb', a⟩ :: L) := by
  refine contents_ext v (fun y => ?_) (fun i hi => ?_)
  · by_cases hy' : y ∈ (Rect.unit off' usz inb').set
    · obtain ⟨x', rfl⟩ : ∃ x', (Rect.unit off' usz inb').emb x' = y :=
        (Rect.unit off' usz inb').exists_idx_of_mem hy'
      rw [read_writes_cons_emb]
      have hx : ∀ b : Fin s.rank, st b + (x' b).val < size b := fun b =>
        Nat.lt_of_lt_of_le (Nat.add_lt_add_left (x' b).isLt _) (h.2 b)
      have hemb : (Rect.unit off' usz inb').emb x'
          = (Rect.unit off size inb).emb (fun b => ⟨st b + (x' b).val, hx b⟩) := by
        funext b; apply Fin.ext
        simp only [Rect.emb_apply, Rect.off_unit, Rect.stride_unit, Nat.one_mul]
        have := hoff b
        omega
      rw [hemb, read_writes_cons_emb]
      unfold updateSlice
      rw [dif_pos (fun b => ⟨Nat.le_add_right _ _, Nat.add_lt_add_left (x' b).isLt _⟩)]
      congr 1
      funext b; apply Fin.ext
      simp only [Fin.cast_mk, Fin.coe_cast, Nat.add_sub_cancel_left]
      rfl
    · rw [writes_cons (p := ⟨Rect.unit off' usz inb', a⟩),
        read_slice_write_of_not_mem _ _ _ _ (by rwa [Rect.map_emb_univ])]
      by_cases hy : y ∈ (Rect.unit off size inb).set
      · obtain ⟨x, rfl⟩ : ∃ x, (Rect.unit off size inb).emb x = y :=
          (Rect.unit off size inb).exists_idx_of_mem hy
        rw [read_writes_cons_emb]
        unfold updateSlice
        rw [dif_neg, hold x]
        refine fun hin => hy' (Rect.mem_set_unit.mpr fun b => ?_)
        have h1 := hin b
        simp only [Rect.emb_apply, Rect.off_unit, Rect.stride_unit, Nat.one_mul]
        have h2 : st b ≤ (x b).val := h1.1
        have h3 : (x b).val < st b + usz b := h1.2
        have h4 := hoff b
        exact ⟨by omega, by omega⟩
      · rw [writes_cons, read_slice_write_of_not_mem _ _ _ _ (by rwa [Rect.map_emb_univ])]
  · rw [writes_apply_of_forall_ne v f _ hi, writes_apply_of_forall_ne v f _ hi]

theorem writes_cons_congr (v : View sig κ sp s e) (f : v.ty.Contents Val) (p : Piece Val s e) {L L' : List (Piece Val s e)}
    (h : v.writes Val f L = v.writes Val f L') : v.writes Val f (p :: L) = v.writes Val f (p :: L') := by
  rw [writes_cons, writes_cons, h]

theorem writes_eq_of_cover_whole {m : Memref sig κ sp s e} (hw : m.IsWhole) (f f' : m.view.ty.Contents Val)
    (L : List (Piece Val s e)) (hc : ∀ y : s.Idx, ∃ p ∈ L, y ∈ p.1.set) :
    m.view.writes Val f L = m.view.writes Val f' L := by
  obtain ⟨b, rfl, rfl, rfl, h⟩ := hw; cases h
  funext y
  exact View.read_writes_apply_eq (View.whole b) f (View.whole b) f' y L (hc y)

theorem readAt_unit_of_disjoint (v : View sig κ sp s e) (f : v.ty.Contents Val) (L : List (Piece Val s e))
    {off size : Fin s.rank → ℕ} (inb : ∀ b, off b + size b ≤ s.size b)
    (hd : ∀ p ∈ L, Disjoint (Rect.unit (s := s) off size inb).set p.1.set)
    (x : (Rect.unit (s := s) off size inb).shape.Idx) :
    v.readAt Val (Rect.unit off size inb).toLoadRect f x
      = v.read Val (v.writes Val f L) ((Rect.unit off size inb).emb x) := by
  refine (read_writes_apply_of_forall_not_mem v f ((Rect.unit off size inb).emb x) L fun p hp hm => ?_).symm
  have hx : (Rect.unit (s := s) off size inb).emb x ∈ (Rect.unit (s := s) off size inb).set := by
    rw [← Rect.map_emb_univ]; exact Finset.mem_map_of_mem _ (Finset.mem_univ x)
  exact Finset.disjoint_left.mp (hd p hp) hx hm

end Cert.LibBlend

end
-- ==== Proof.RTrip1Pieces.lean ====
/- Three shifted stores of one block leave the window of the volume on what they cover. -/
import proofs.«102070_g2000507141466659_pallasbulk_1049_20_alg».proof.Proof.RSpec
import Idealize.ShloMosaic.Lib.Writes

set_option maxRecDepth 16384

noncomputable section

open Idealize.ShloMosaic Idealize.ShloMosaic.ValueIdx

namespace Cert.ReferenceIdeal.Trip1Pieces

open Cert.Spec Cert.RSpec

def Covered (d0 : ℕ) (j : SScrR.Idx) : Prop :=
  d0 + 1 ≤ (j 0).val ∧ (j 0).val ≤ d0 + 4 ∧ 1 ≤ (j 1).val ∧ (j 1).val ≤ 8
    ∧ 1 ≤ (j 2).val + (j 3).val / 128 ∧ (j 2).val + (j 3).val / 128 ≤ 8

theorem windowR_at (Y : Vol) (j : SScrR.Idx) (d h w : Fin 8) (c : Fin 128)
    (h0 : (j 0).val = d.val + 1) (h1 : (j 1).val = h.val + 1) (h2 : (j 2).val + (j 3).val / 128 = w.val + 1)
    (h3 : (j 3).val % 128 = c.val) : windowR Y j = Y d h w c := by
  have hd := d.isLt; have hh := h.isLt; have hw := w.isLt
  unfold windowR padded
  rw [if_pos (by omega)]
  have e0 : pred8 (j 0).val = d := Fin.ext (by show ((j 0).val + 7) % 8 = d.val; omega)
  have e1 : pred8 (j 1).val = h := Fin.ext (by show ((j 1).val + 7) % 8 = h.val; omega)
  have e2 : pred8 ((j 2).val + (j 3).val / 128) = w := Fin.ext (by show ((j 2).val + (j 3).val / 128 + 7) % 8 = w.val; omega)
  have e3 : (⟨(j 3).val % 128, Nat.mod_lt _ (by norm_num)⟩ : Fin 128) = c := Fin.ext h3
  rw [e0, e1, e2, e3]

theorem mem_unit_lit (o0 o1 o2 o3 s0 s1 s2 s3 : ℕ)
    (inb : ∀ b, (![o0, o1, o2, o3] : Fin 4 → ℕ) b + (![s0, s1, s2, s3] : Fin 4 → ℕ) b ≤ SScrR.size b) (j : SScrR.Idx) :
    j ∈ (Rect.unit (s := SScrR) ![o0, o1, o2, o3] ![s0, s1, s2, s3] inb).set ↔
      (o0 ≤ (j 0).val ∧ (j 0).val < o0 + s0) ∧ (o1 ≤ (j 1).val ∧ (j 1).val < o1 + s1)
        ∧ (o2 ≤ (j 2).val ∧ (j 2).val < o2 + s2) ∧ (o3 ≤ (j 3).val ∧ (j 3).val < o3 + s3) := by
  rw [Rect.mem_set_unit]
  constructor
  · intro h
    exact ⟨h 0, h 1, h 2, h 3⟩
  · rintro ⟨h0, h1, h2, h3⟩ a
    match a with
    | ⟨0, _⟩ => exact h0
    | ⟨1, _⟩ => exact h1
    | ⟨2, _⟩ => exact h2
    | ⟨3, _⟩ => exact h3

theorem piece_agree (Y : Vol) (n d0 o2 kw δ : ℕ)
    (inb : ∀ b, (![d0 + 1, 1, o2, 128 * kw] : Fin 4 → ℕ) b + (![4, 8, n, 128] : Fin 4 → ℕ) b ≤ SScrR.size b)
    (hd0 : d0 + 4 ≤ 8) (hn : δ + n ≤ 8) (hs : o2 + kw = δ + 1)
    (P : (⟨4, ![4, 8, n, 128]⟩ : Shape).Idx → EReal)
    (hP : ∀ (dl : Fin 4) (h : Fin 8) (w : Fin n) (c : Fin 128),
      P (ix4 dl h w c) = Y ⟨d0 + dl.val, by have := dl.isLt; omega⟩ h ⟨w.val + δ, by have := w.isLt; omega⟩ c)
    (x : (⟨4, ![4, 8, n, 128]⟩ : Shape).Idx) :
    P x = windowR Y ((Rect.unit (s := SScrR) ![d0 + 1, 1, o2, 128 * kw] ![4, 8, n, 128] inb).emb x) := by
  obtain ⟨dl, h, w, c, rfl⟩ : ∃ (dl : Fin 4) (h : Fin 8) (w : Fin n) (c : Fin 128), x = ix4 dl h w c :=
    ⟨x 0, x 1, x 2, x 3, eq_ix4 x⟩
  have hd := dl.isLt; have hh := h.isLt; have hw := w.isLt; have hc := c.isLt
  rw [hP]
  refine (windowR_at Y _ _ _ _ _ ?_ ?_ ?_ ?_).symm
  · show d0 + 1 + 1 * dl.val = d0 + dl.val + 1; omega
  · show 1 + 1 * h.val = h.val + 1; omega
  · show o2 + 1 * w.val + (128 * kw + 1 * c.val) / 128 = w.val + δ + 1; omega
  · show (128 * kw + 1 * c.val) % 128 = c.val; omega

section
variable {sig : RefSig} {κ : Kind} {sp : Space} (v : View sig κ sp SScrR .bf16) (f : v.ty.Contents (Elt Ideal))
  (Y : Vol) (d0 : ℕ) (hd0 : d0 + 4 ≤ 8)
  {off4 off6 off8 : Fin 4 → ℕ}
  {inb4 : ∀ b, off4 b + (![4, 8, 8, 128] : Fin 4 → ℕ) b ≤ SScrR.size b}
  {inb6 : ∀ b, off6 b + (![4, 8, 7, 128] : Fin 4 → ℕ) b ≤ SScrR.size b}
  {inb8 : ∀ b, off8 b + (![4, 8, 7, 128] : Fin 4 → ℕ) b ≤ SScrR.size b}
  (h4 : off4 = ![d0 + 1, 1, 0, 128]) (h6 : off6 = ![d0 + 1, 1, 1, 0]) (h8 : off8 = ![d0 + 1, 1, 0, 256])
  (P4 : (⟨4, ![4, 8, 8, 128]⟩ : Shape).Idx → EReal) (P6 P8 : (⟨4, ![4, 8, 7, 128]⟩ : Shape).Idx → EReal)
  (hP4 : ∀ (dl : Fin 4) (h w : Fin 8) (c : Fin 128), P4 (ix4 dl h w c) = Y ⟨d0 + dl.val, by have := dl.isLt; omega⟩ h w c)
  (hP6 : ∀ (dl : Fin 4) (h : Fin 8) (w : Fin 7) (c : Fin 128),
    P6 (ix4 dl h w c) = Y ⟨d0 + dl.val, by have := dl.isLt; omega⟩ h ⟨w.val, by have := w.isLt; omega⟩ c)
  (hP8 : ∀ (dl : Fin 4) (h : Fin 8) (w : Fin 7) (c : Fin 128),
    P8 (ix4 dl h w c) = Y ⟨d0 + dl.val, by have := dl.isLt; omega⟩ h ⟨w.val + 1, by have := w.isLt; omega⟩ c)
  (j : SScrR.Idx)

include hd0 h4 h6 h8 hP4 hP6 hP8 in
theorem pieces_read_in (hj : Covered d0 j) :
    v.read (Elt Ideal) (v.writes (Elt Ideal) f
        [⟨Rect.unit (s := SScrR) off8 ![4, 8, 7, 128] inb8, P8⟩, ⟨Rect.unit (s := SScrR) off6 ![4, 8, 7, 128] inb6, P6⟩,
         ⟨Rect.unit (s := SScrR) off4 ![4, 8, 8, 128] inb4, P4⟩]) j
      = windowR Y j := by
  subst h4 h6 h8
  refine View.read_writes_apply_of_pieces v f (windowR Y) _ ?_ j ?_
  · intro p hp x
    simp only [List.mem_cons, List.mem_nil_iff, or_false] at hp
    rcases hp with rfl | rfl | rfl
    · exact piece_agree Y 7 d0 0 2 1 inb8 hd0 (by omega) (by omega) P8 hP8 x
    · exact piece_agree Y 7 d0 1 0 0 inb6 hd0 (by omega) (by omega) P6 hP6 x
    · exact piece_agree Y 8 d0 0 1 0 inb4 hd0 (by omega) (by omega) P4 hP4 x
  · obtain ⟨a0, a1, b0, b1, c0, c1⟩ := hj
    have i2 : (j 2).val < 8 := (j 2).isLt
    have i3 : (j 3).val < 384 := (j 3).isLt
    by_cases hA : (j 3).val < 128
    · exact ⟨_, List.mem_cons_of_mem _ List.mem_cons_self, (mem_unit_lit _ _ _ _ _ _ _ _ inb6 j).mpr (by omega)⟩
    · by_cases hB : (j 3).val < 256
      · exact ⟨_, List.mem_cons_of_mem _ (List.mem_cons_of_mem _ List.mem_cons_self), (mem_unit_lit _ _ _ _ _ _ _ _ inb4 j).mpr (by omega)⟩
      · exact ⟨_, List.mem_cons_self, (mem_unit_lit _ _ _ _ _ _ _ _ inb8 j).mpr (by omega)⟩

include h4 h6 h8 in
theorem pieces_read_off (hj : ¬Covered d0 j) :
    v.read (Elt Ideal) (v.writes (Elt Ideal) f
        [⟨Rect.unit (s := SScrR) off8 ![4, 8, 7, 128] inb8, P8⟩, ⟨Rect.unit (s := SScrR) off6 ![4, 8, 7, 128] inb6, P6⟩,
         ⟨Rect.unit (s := SScrR) off4 ![4, 8, 8, 128] inb4, P4⟩]) j
      = v.read (Elt Ideal) f j := by
  subst h4 h6 h8
  refine View.read_writes_apply_of_forall_not_mem v f j _ ?_
  intro p hp hm
  have i2 : (j 2).val < 8 := (j 2).isLt
  have i3 : (j 3).val < 384 := (j 3).isLt
  simp only [List.mem_cons, List.mem_nil_iff, or_false] at hp
  rcases hp with rfl | rfl | rfl
  · have hm' := (mem_unit_lit _ _ _ _ _ _ _ _ inb8 j).mp hm
    exact hj (by unfold Covered; omega)
  · have hm' := (mem_unit_lit _ _ _ _ _ _ _ _ inb6 j).mp hm
    exact hj (by unfold Covered; omega)
  · have hm' := (mem_unit_lit _ _ _ _ _ _ _ _ inb4 j).mp hm
    exact hj (by unfold Covered; omega)
end

end Cert.ReferenceIdeal.Trip1Pieces
end
-- ==== Proof.RScratch.lean ====
/- The two halo scratches read index by index after the rim stores and the scatter. -/
import proofs.«102070_g2000507141466659_pallasbulk_1049_20_alg».proof.Proof.Gen.ReferenceIdeal.Skeleton
import proofs.«102070_g2000507141466659_pallasbulk_1049_20_alg».proof.Proof.RSpec
import proofs.«102070_g2000507141466659_pallasbulk_1049_20_alg».proof.Proof.LibBlend
import proofs.«102070_g2000507141466659_pallasbulk_1049_20_alg».proof.Proof.RTrip1Pieces
import Idealize.ShloMosaic.Lib.Writes
import Idealize.ShloMosaic.Lib.WritesUnit
import Idealize.ShloMosaic.Lib.Ring
import Idealize.ShloMosaic.Lib.Tactic
import Idealize.ShloMosaic.Lib.WholeRead
import Idealize.ShloMosaic.Lib.Pipeline.Value
import Idealize.ShloMosaic.PureOps.ShapeOps
import Idealize.ShloMosaic.Signature.Memref

set_option maxRecDepth 16384
set_option maxHeartbeats 4000000

noncomputable section

namespace Cert.ReferenceIdeal.Hand

open Cert.ReferenceIdeal Cert.ReferenceIdeal.Gen
open Idealize.ShloMosaic Idealize.ShloMosaic.View Idealize.ShloMosaic.ValueIdx
open Cert.LibBlend

section Halo

variable {F : FTy → Type} [FloatOps F] (arg : Memref sig .tc .vmem S10x10x8x384 .bf16)

def haloF (f : BufTy.Contents (Elt F) arg.view.ty) (z0 z9 : FVec F S1x10x8x384 .bf16) (y0 y9 : FVec F S8x1x8x384 .bf16)
    (w0 w7 : FVec F S8x8x1x128 .bf16) : List (Piece (Elt F) S10x10x8x384 .bf16) :=
  [⟨Rect.unit (s := S10x10x8x384) ![1, 1, 6, 256] S8x8x2x128.size inb_S10x10x8x384_S8x8x2x128_1_1_6_256,
      updateSlice (View.readAt (Elt F) arg.view (Rect.unit (s := S10x10x8x384) ![1, 1, 6, 256] S8x8x2x128.size inb_S10x10x8x384_S8x8x2x128_1_1_6_256).toLoadRect f)
        w7 ![0, 0, 1, 0] slices_S8x8x2x128_S8x8x1x128_0_0_1_0⟩,
    ⟨Rect.unit (s := S10x10x8x384) ![1, 1, 0, 0] S8x8x2x128.size inb_S10x10x8x384_S8x8x2x128_1_1_0_0,
      updateSlice (View.readAt (Elt F) arg.view (Rect.unit (s := S10x10x8x384) ![1, 1, 0, 0] S8x8x2x128.size inb_S10x10x8x384_S8x8x2x128_1_1_0_0).toLoadRect f)
        w0 ![0, 0, 0, 0] slices_S8x8x2x128_S8x8x1x128_0_0_0_0⟩,
    ⟨Rect.unit (s := S10x10x8x384) ![1, 9, 0, 0] S8x1x8x384.size inb_S10x10x8x384_S8x1x8x384_1_9_0_0, y9⟩,
    ⟨Rect.unit (s := S10x10x8x384) ![1, 0, 0, 0] S8x1x8x384.size inb_S10x10x8x384_S8x1x8x384_1_0_0_0, y0⟩,
    ⟨Rect.unit (s := S10x10x8x384) ![9, 0, 0, 0] S1x10x8x384.size inb_S10x10x8x384_S1x10x8x384_9_0_0_0, z9⟩,
    ⟨Rect.unit (s := S10x10x8x384) ![0, 0, 0, 0] S1x10x8x384.size inb_S10x10x8x384_S1x10x8x384_0_0_0_0, z0⟩]

def haloC (z0 z9 : FVec F S1x10x8x384 .bf16) (y0 y9 : FVec F S8x1x8x384 .bf16)
    (w0 w7 : FVec F S8x8x1x128 .bf16) : List (Piece (Elt F) S10x10x8x384 .bf16) :=
  [⟨Rect.unit (s := S10x10x8x384) ![1, 1, 7, 256] S8x8x1x128.size (by decide), w7⟩,
    ⟨Rect.unit (s := S10x10x8x384) ![1, 1, 0, 0] S8x8x1x128.size (by decide), w0⟩,
    ⟨Rect.unit (s := S10x10x8x384) ![1, 9, 0, 0] S8x1x8x384.size inb_S10x10x8x384_S8x1x8x384_1_9_0_0, y9⟩,
    ⟨Rect.unit (s := S10x10x8x384) ![1, 0, 0, 0] S8x1x8x384.size inb_S10x10x8x384_S8x1x8x384_1_0_0_0, y0⟩,
    ⟨Rect.unit (s := S10x10x8x384) ![9, 0, 0, 0] S1x10x8x384.size inb_S10x10x8x384_S1x10x8x384_9_0_0_0, z9⟩,
    ⟨Rect.unit (s := S10x10x8x384) ![0, 0, 0, 0] S1x10x8x384.size inb_S10x10x8x384_S1x10x8x384_0_0_0_0, z0⟩]

theorem halo_clean (f : BufTy.Contents (Elt F) arg.view.ty) (z0 z9 : FVec F S1x10x8x384 .bf16) (y0 y9 : FVec F S8x1x8x384 .bf16)
    (w0 w7 : FVec F S8x8x1x128 .bf16) :
    arg.view.writes (Elt F) f (haloF arg f z0 z9 y0 y9 w0 w7) = arg.view.writes (Elt F) f (haloC z0 z9 y0 y9 w0 w7) := by
  unfold haloF haloC
  refine (writes_cons_blend arg.view f (off := ![1, 1, 6, 256]) (size := S8x8x2x128.size) (usz := S8x8x1x128.size)
    (st := ![0, 0, 1, 0]) (off' := ![1, 1, 7, 256]) inb_S10x10x8x384_S8x8x2x128_1_1_6_256 slices_S8x8x2x128_S8x8x1x128_0_0_1_0
    (by decide) (by decide) _ _ _ ?h2).trans ?_
  case h2 =>
    intro x
    refine readAt_unit_of_disjoint arg.view f _ _ (fun p hp => ?_) x
    simp only [List.mem_cons, List.mem_nil_iff, or_false] at hp
    rcases hp with rfl | rfl | rfl | rfl | rfl
    · dsimp only; exact Rect.unit_disjoint 3 (Or.inr (by decide))
    · dsimp only; exact Rect.unit_disjoint 1 (Or.inl (by decide))
    · dsimp only; exact Rect.unit_disjoint 1 (Or.inr (by decide))
    · dsimp only; exact Rect.unit_disjoint 0 (Or.inl (by decide))
    · dsimp only; exact Rect.unit_disjoint 0 (Or.inr (by decide))
  refine writes_cons_congr _ _ _ ?_
  refine writes_cons_blend arg.view f (off := ![1, 1, 0, 0]) (size := S8x8x2x128.size) (usz := S8x8x1x128.size)
    (st := ![0, 0, 0, 0]) (off' := ![1, 1, 0, 0]) inb_S10x10x8x384_S8x8x2x128_1_1_0_0 slices_S8x8x2x128_S8x8x1x128_0_0_0_0
    (by decide) (by decide) _ _ _ ?h1
  case h1 =>
    intro x
    refine readAt_unit_of_disjoint arg.view f _ _ (fun p hp => ?_) x
    simp only [List.mem_cons, List.mem_nil_iff, or_false] at hp
    rcases hp with rfl | rfl | rfl | rfl
    · dsimp only; exact Rect.unit_disjoint 1 (Or.inl (by decide))
    · dsimp only; exact Rect.unit_disjoint 1 (Or.inr (by decide))
    · dsimp only; exact Rect.unit_disjoint 0 (Or.inl (by decide))
    · dsimp only; exact Rect.unit_disjoint 0 (Or.inr (by decide))

end Halo

theorem mem4 (o0 o1 o2 o3 s0 s1 s2 s3 : ℕ)
    (inb : ∀ a, (![o0, o1, o2, o3] : Fin 4 → ℕ) a + (![s0, s1, s2, s3] : Fin 4 → ℕ) a ≤ S10x10x8x384.size a) (j : S10x10x8x384.Idx)
    (h : (o0 ≤ (j 0).val ∧ (j 0).val < o0 + s0) ∧ (o1 ≤ (j 1).val ∧ (j 1).val < o1 + s1)
      ∧ (o2 ≤ (j 2).val ∧ (j 2).val < o2 + s2) ∧ (o3 ≤ (j 3).val ∧ (j 3).val < o3 + s3)) :
    j ∈ (Rect.unit (s := S10x10x8x384) ![o0, o1, o2, o3] ![s0, s1, s2, s3] inb).set :=
  Rect.mem_set_unit.mpr fun a => match a with
    | ⟨0, _⟩ => h.1 | ⟨1, _⟩ => h.2.1 | ⟨2, _⟩ => h.2.2.1 | ⟨3, _⟩ => h.2.2.2

section HaloZero

variable (arg : Memref sig .tc .vmem S10x10x8x384 .bf16)

theorem halo_zero (f : BufTy.Contents (Elt Ideal) arg.view.ty) (z0 z9 : FVec Ideal S1x10x8x384 .bf16) (y0 y9 : FVec Ideal S8x1x8x384 .bf16)
    (w0 w7 : FVec Ideal S8x8x1x128 .bf16) (hz0 : ∀ x, z0 x = 0) (hz9 : ∀ x, z9 x = 0) (hy0 : ∀ x, y0 x = 0) (hy9 : ∀ x, y9 x = 0)
    (hw0 : ∀ x, w0 x = 0) (hw7 : ∀ x, w7 x = 0) :
    Cert.RSpec.HaloZeroR (arg.view.read (Elt Ideal) (arg.view.writes (Elt Ideal) f (haloF arg f z0 z9 y0 y9 w0 w7))) := by
  rw [halo_clean]
  intro j hj
  refine View.read_writes_apply_of_pieces arg.view f (fun _ => (0 : EReal)) (haloC z0 z9 y0 y9 w0 w7) (fun p hp x => ?_) j ?_
  · simp only [haloC, List.mem_cons, List.mem_nil_iff, or_false] at hp
    rcases hp with rfl | rfl | rfl | rfl | rfl | rfl
    · exact hw7 x
    · exact hw0 x
    · exact hy9 x
    · exact hy0 x
    · exact hz9 x
    · exact hz0 x
  · have b0 : (j 0).val < 10 := (j 0).isLt
    have b1 : (j 1).val < 10 := (j 1).isLt
    have b2 : (j 2).val < 8 := (j 2).isLt
    have b3 : (j 3).val < 384 := (j 3).isLt
    unfold haloC
    by_cases c0 : (j 0).val = 0
    · exact ⟨⟨Rect.unit (s := S10x10x8x384) ![0, 0, 0, 0] S1x10x8x384.size inb_S10x10x8x384_S1x10x8x384_0_0_0_0, z0⟩, by simp only [List.mem_cons, List.mem_nil_iff, true_or, or_true], mem4 0 0 0 0 1 10 8 384 inb_S10x10x8x384_S1x10x8x384_0_0_0_0 j (by omega)⟩
    by_cases c9 : (j 0).val = 9
    · exact ⟨⟨Rect.unit (s := S10x10x8x384) ![9, 0, 0, 0] S1x10x8x384.size inb_S10x10x8x384_S1x10x8x384_9_0_0_0, z9⟩, by simp only [List.mem_cons, List.mem_nil_iff, true_or, or_true], mem4 9 0 0 0 1 10 8 384 inb_S10x10x8x384_S1x10x8x384_9_0_0_0 j (by omega)⟩
    by_cases e0 : (j 1).val = 0
    · exact ⟨⟨Rect.unit (s := S10x10x8x384) ![1, 0, 0, 0] S8x1x8x384.size inb_S10x10x8x384_S8x1x8x384_1_0_0_0, y0⟩, by simp only [List.mem_cons, List.mem_nil_iff, true_or, or_true], mem4 1 0 0 0 8 1 8 384 inb_S10x10x8x384_S8x1x8x384_1_0_0_0 j (by omega)⟩
    by_cases e9 : (j 1).val = 9
    · exact ⟨⟨Rect.unit (s := S10x10x8x384) ![1, 9, 0, 0] S8x1x8x384.size inb_S10x10x8x384_S8x1x8x384_1_9_0_0, y9⟩, by simp only [List.mem_cons, List.mem_nil_iff, true_or, or_true], mem4 1 9 0 0 8 1 8 384 inb_S10x10x8x384_S8x1x8x384_1_9_0_0 j (by omega)⟩
    by_cases g0 : (j 2).val + (j 3).val / 128 = 0
    · exact ⟨⟨Rect.unit (s := S10x10x8x384) ![1, 1, 0, 0] S8x8x1x128.size (by decide), w0⟩, by simp only [List.mem_cons, List.mem_nil_iff, true_or, or_true], mem4 1 1 0 0 8 8 1 128 (by decide) j (by omega)⟩
    · exact ⟨⟨Rect.unit (s := S10x10x8x384) ![1, 1, 7, 256] S8x8x1x128.size (by decide), w7⟩, by simp only [List.mem_cons, List.mem_nil_iff, true_or, or_true], mem4 1 1 7 256 8 8 1 128 (by decide) j (by omega)⟩

end HaloZero

section Fill

variable {F : FTy → Type} [FloatOps F] (arg7 : Memref sig .tc .vmem S10x10x8x384 .bf16)

def fillF (f : BufTy.Contents (Elt F) arg7.view.ty) (v : Vec F S1x8x8x8x128 .f32) : List (Piece (Elt F) S10x10x8x384 .bf16) :=
  ⟨Rect.unit (s := S10x10x8x384) ![1, 1, 0, 256] S8x8x8x128.size inb_S10x10x8x384_S8x8x8x128_1_1_0_256,
      updateSlice (View.readAt (Elt F) arg7.view (Rect.unit (s := S10x10x8x384) ![1, 1, 0, 256] S8x8x8x128.size inb_S10x10x8x384_S8x8x8x128_1_1_0_256).toLoadRect
          (arg7.view.writes (Elt F) f
            (⟨Rect.unit (s := S10x10x8x384) ![1, 1, 0, 0] S8x8x8x128.size inb_S10x10x8x384_S8x8x8x128_1_1_0_0,
                updateSlice (View.readAt (Elt F) arg7.view (Rect.unit (s := S10x10x8x384) ![1, 1, 0, 0] S8x8x8x128.size inb_S10x10x8x384_S8x8x8x128_1_1_0_0).toLoadRect
                    (arg7.view.writes (Elt F) f
                      (⟨Rect.unit (s := S10x10x8x384) ![1, 1, 0, 128] S8x8x8x128.size inb_S10x10x8x384_S8x8x8x128_1_1_0_128, k0_pay29 v⟩ :: haloF arg7 f k0_pay16 k0_pay17 k0_pay18 k0_pay19 k0_pay20 k0_pay21)))
                  (k0_pay1 (k0_pay30 v)) ![0, 0, 1, 0] slices_S8x8x8x128_S8x8x7x128_0_0_1_0⟩ ::
              ⟨Rect.unit (s := S10x10x8x384) ![1, 1, 0, 128] S8x8x8x128.size inb_S10x10x8x384_S8x8x8x128_1_1_0_128, k0_pay29 v⟩ :: haloF arg7 f k0_pay16 k0_pay17 k0_pay18 k0_pay19 k0_pay20 k0_pay21)))
        (k0_pay2 (k0_pay28 v)) ![0, 0, 0, 0] slices_S8x8x8x128_S8x8x7x128_0_0_0_0⟩ ::
    ⟨Rect.unit (s := S10x10x8x384) ![1, 1, 0, 0] S8x8x8x128.size inb_S10x10x8x384_S8x8x8x128_1_1_0_0,
        updateSlice (View.readAt (Elt F) arg7.view (Rect.unit (s := S10x10x8x384) ![1, 1, 0, 0] S8x8x8x128.size inb_S10x10x8x384_S8x8x8x128_1_1_0_0).toLoadRect
            (arg7.view.writes (Elt F) f
              (⟨Rect.unit (s := S10x10x8x384) ![1, 1, 0, 128] S8x8x8x128.size inb_S10x10x8x384_S8x8x8x128_1_1_0_128, k0_pay29 v⟩ :: haloF arg7 f k0_pay16 k0_pay17 k0_pay18 k0_pay19 k0_pay20 k0_pay21)))
          (k0_pay1 (k0_pay30 v)) ![0, 0, 1, 0] slices_S8x8x8x128_S8x8x7x128_0_0_1_0⟩ ::
      ⟨Rect.unit (s := S10x10x8x384) ![1, 1, 0, 128] S8x8x8x128.size inb_S10x10x8x384_S8x8x8x128_1_1_0_128, k0_pay29 v⟩ :: haloF arg7 f k0_pay16 k0_pay17 k0_pay18 k0_pay19 k0_pay20 k0_pay21

def fillC (v : Vec F S1x8x8x8x128 .f32) : List (Piece (Elt F) S10x10x8x384 .bf16) :=
  ⟨Rect.unit (s := S10x10x8x384) ![1, 1, 0, 256] S8x8x7x128.size (by decide), k0_pay2 (k0_pay28 v)⟩ :: ⟨Rect.unit (s := S10x10x8x384) ![1, 1, 1, 0] S8x8x7x128.size (by decide), k0_pay1 (k0_pay30 v)⟩ :: ⟨Rect.unit (s := S10x10x8x384) ![1, 1, 0, 128] S8x8x8x128.size inb_S10x10x8x384_S8x8x8x128_1_1_0_128, k0_pay29 v⟩ ::
    haloC k0_pay16 k0_pay17 k0_pay18 k0_pay19 k0_pay20 k0_pay21

theorem fill_clean (f : BufTy.Contents (Elt F) arg7.view.ty) (v : Vec F S1x8x8x8x128 .f32) :
    arg7.view.writes (Elt F) f (fillF arg7 f v) = arg7.view.writes (Elt F) f (fillC v) := by
  unfold fillF fillC
  refine (writes_cons_blend arg7.view f (off := ![1, 1, 0, 256]) (size := S8x8x8x128.size) (usz := S8x8x7x128.size)
    (st := ![0, 0, 0, 0]) (off' := ![1, 1, 0, 256]) inb_S10x10x8x384_S8x8x8x128_1_1_0_256 slices_S8x8x8x128_S8x8x7x128_0_0_0_0
    (by decide) (by decide) _ _ _ (fun x => rfl)).trans ?_
  refine writes_cons_congr _ _ _ ?_
  refine (writes_cons_blend arg7.view f (off := ![1, 1, 0, 0]) (size := S8x8x8x128.size) (usz := S8x8x7x128.size)
    (st := ![0, 0, 1, 0]) (off' := ![1, 1, 1, 0]) inb_S10x10x8x384_S8x8x8x128_1_1_0_0 slices_S8x8x8x128_S8x8x7x128_0_0_1_0
    (by decide) (by decide) _ _ _ (fun x => rfl)).trans ?_
  refine writes_cons_congr _ _ _ ?_
  refine writes_cons_congr _ _ _ ?_
  exact halo_clean arg7 f _ _ _ _ _ _

theorem fill_cover (v : Vec F S1x8x8x8x128 .f32) (y : S10x10x8x384.Idx) : ∃ p ∈ fillC (F := F) v, y ∈ p.1.set :=
  View.cover_of_tiledBy (fillC (F := F) v) ![1, 1, 1, 128] (by sl_kernel_rfl) y

end Fill

section FillRead

open Cert.RSpec Cert.Spec

theorem bf16_zero : Ideal.ofBits .bf16 0x0000#16 = 0 := by simp [Ideal.ofBits, Ideal.ieee]

theorem emb4 {off size : Fin S10x10x8x384.rank → ℕ} (inb : ∀ a, off a + size a ≤ S10x10x8x384.size a)
    (x : (Rect.unit (s := S10x10x8x384) off size inb).shape.Idx) (a : Fin S10x10x8x384.rank) :
    ((Rect.unit (s := S10x10x8x384) off size inb).emb x a).val = off a + (x a).val := by
  rw [Rect.emb_apply]; simp

/-- A box all of whose points lie on the rim: the window is zero on it. -/
theorem rim_block (a : Vol) (o0 o1 o2 o3 s0 s1 s2 s3 : ℕ)
    (inb : ∀ b, (![o0, o1, o2, o3] : Fin 4 → ℕ) b + (![s0, s1, s2, s3] : Fin 4 → ℕ) b ≤ S10x10x8x384.size b)
    (h : ∀ x0 x1 x2 x3, x0 < s0 → x1 < s1 → x2 < s2 → x3 < s3 → ¬(1 ≤ o0 + x0 ∧ o0 + x0 ≤ 8 ∧ 1 ≤ o1 + x1 ∧ o1 + x1 ≤ 8
      ∧ 1 ≤ o2 + x2 + (o3 + x3) / 128 ∧ o2 + x2 + (o3 + x3) / 128 ≤ 8))
    (x : (Rect.unit (s := S10x10x8x384) ![o0, o1, o2, o3] ![s0, s1, s2, s3] inb).shape.Idx) :
    (0 : EReal) = windowR a ((Rect.unit (s := S10x10x8x384) ![o0, o1, o2, o3] ![s0, s1, s2, s3] inb).emb x) := by
  refine (windowR_haloZero a _ fun hin => h _ _ _ _ (x 0).isLt (x 1).isLt (x 2).isLt (x 3).isLt ?_).symm
  rw [emb4 inb x 0, emb4 inb x 1, emb4 inb x 2, emb4 inb x 3] at hin
  exact hin

/-- A box inside the rim at depth and height offset 1: the window there is the volume at the box's own column. -/
theorem in_block (a : Vol) (o2 o3 s2 : ℕ)
    (inb : ∀ b, (![1, 1, o2, o3] : Fin 4 → ℕ) b + (![8, 8, s2, 128] : Fin 4 → ℕ) b ≤ S10x10x8x384.size b)
    (x : (Rect.unit (s := S10x10x8x384) ![1, 1, o2, o3] ![8, 8, s2, 128] inb).shape.Idx) (w : Fin 8)
    (hw : o2 + (x 2).val + o3 / 128 = w.val + 1) (ho : o3 % 128 = 0) :
    windowR a ((Rect.unit (s := S10x10x8x384) ![1, 1, o2, o3] ![8, 8, s2, 128] inb).emb x) = a (x 0) (x 1) w (x 3) := by
  have e := emb4 inb x
  have b3 : (x 3).val < 128 := (x 3).isLt
  exact Trip1Pieces.windowR_at a _ (x 0) (x 1) w (x 3) (by rw [e 0]; show 1 + (x 0).val = (x 0).val + 1; omega)
    (by rw [e 1]; show 1 + (x 1).val = (x 1).val + 1; omega)
    (by rw [e 2, e 3]; show o2 + (x 2).val + (o3 + (x 3).val) / 128 = w.val + 1; omega)
    (by rw [e 3]; show (o3 + (x 3).val) % 128 = (x 3).val; omega)

theorem pay28_apply (v : Vec Ideal S1x8x8x8x128 .f32) (x : S8x8x8x128.Idx) :
    k0_pay28 (F := Ideal) v x = v (ix5 (0 : Fin 1) (x 0) (x 1) (x 2) (x 3)) :=
  (shapeCast_dropUnit_apply ![8, 8, 8, 128] v shapeCasts_S1x8x8x8x128_S8x8x8x128 x).trans
    (congrArg v (funext fun a => match a with | ⟨0, _⟩ => rfl | ⟨1, _⟩ => rfl | ⟨2, _⟩ => rfl | ⟨3, _⟩ => rfl | ⟨4, _⟩ => rfl))

theorem pay29_apply (v : Vec Ideal S1x8x8x8x128 .f32) (x : S8x8x8x128.Idx) :
    k0_pay29 (F := Ideal) v x = v (ix5 (0 : Fin 1) (x 0) (x 1) (x 2) (x 3)) :=
  (congrFun (shapeCast_self (k0_pay28 (F := Ideal) v) shapeCasts_S8x8x8x128_S8x8x8x128) x).trans (pay28_apply v x)

theorem pay1_pay30_apply (v : Vec Ideal S1x8x8x8x128 .f32) (x : S8x8x7x128.Idx) :
    k0_pay1 (F := Ideal) (k0_pay30 v) x = v (ix5 (0 : Fin 1) (x 0) (x 1) ⟨(x 2).val, Nat.lt_trans (x 2).isLt (by decide)⟩ (x 3)) :=
  (congrFun (shapeCast_self (k0_pay30 (F := Ideal) v) shapeCasts_S8x8x7x128_S8x8x7x128) x).trans
    ((extractStridedSlice_apply ![0, 0, 0, 0] (k0_pay28 (F := Ideal) v) slices_S8x8x8x128_o0_0_0_0_S8x8x7x128 x
      (ix4 (x 0) (x 1) ⟨(x 2).val, Nat.lt_trans (x 2).isLt (by decide)⟩ (x 3))
      (fun a => match a with | ⟨0, _⟩ => (Nat.zero_add _).symm | ⟨1, _⟩ => (Nat.zero_add _).symm | ⟨2, _⟩ => (Nat.zero_add _).symm | ⟨3, _⟩ => (Nat.zero_add _).symm)).trans
      (pay28_apply v _))

theorem pay2_pay28_apply (v : Vec Ideal S1x8x8x8x128 .f32) (x : S8x8x7x128.Idx) :
    k0_pay2 (F := Ideal) (k0_pay28 v) x = v (ix5 (0 : Fin 1) (x 0) (x 1) ⟨(x 2).val + 1, Nat.succ_lt_succ (x 2).isLt⟩ (x 3)) := by
  have hx2 : (x 2).val < 7 := (x 2).isLt
  show shapeCast S8x8x7x128 (extractStridedSlice S8x8x7x128 ![0, 0, 1, 0] (k0_pay28 (F := Ideal) v) slices_S8x8x8x128_o0_0_1_0_S8x8x7x128)
      shapeCasts_S8x8x7x128_S8x8x7x128 x = _
  rw [shapeCast_self]
  rw [extractStridedSlice_apply ![0, 0, 1, 0] (k0_pay28 (F := Ideal) v) slices_S8x8x8x128_o0_0_1_0_S8x8x7x128 x
    (ix4 (x 0) (x 1) (⟨(x 2).val + 1, by omega⟩ : Fin 8) (x 3))
    (fun a => match a with
      | ⟨0, _⟩ => by show (x 0).val = 0 + (x 0).val; omega
      | ⟨1, _⟩ => by show (x 1).val = 0 + (x 1).val; omega
      | ⟨2, _⟩ => by show (x 2).val + 1 = 1 + (x 2).val; omega
      | ⟨3, _⟩ => by show (x 3).val = 0 + (x 3).val; omega)]
  exact pay28_apply v _

end FillRead

section FillReadMain

open Cert.RSpec Cert.Spec

variable (arg7 : Memref sig .tc .vmem S10x10x8x384 .bf16)

theorem fill_read (f : BufTy.Contents (Elt Ideal) arg7.view.ty) (v : Vec Ideal S1x8x8x8x128 .f32) (x0 : SB1.Idx → EReal)
    (hv : ∀ k, v k = x0 k) :
    arg7.view.read (Elt Ideal) (arg7.view.writes (Elt Ideal) f (fillF arg7 f v)) = windowR (vol x0) := by
  rw [fill_clean]
  funext j
  refine View.read_writes_apply_of_pieces arg7.view f (windowR (vol x0)) (fillC v) (fun p hp x => ?_) j (fill_cover v j)
  simp only [fillC, haloC, List.mem_cons, List.mem_nil_iff, or_false] at hp
  rcases hp with rfl | rfl | rfl | rfl | rfl | rfl | rfl | rfl | rfl
  · dsimp only
    rw [pay2_pay28_apply, hv]
    exact (in_block (vol x0) 0 256 7 (by decide) x ⟨(x 2).val + 1, Nat.succ_lt_succ (x 2).isLt⟩ (by show 0 + (x 2).val + 256 / 128 = (x 2).val + 1 + 1; omega) rfl).symm
  · dsimp only
    rw [pay1_pay30_apply, hv]
    exact (in_block (vol x0) 1 0 7 (by decide) x ⟨(x 2).val, Nat.lt_trans (x 2).isLt (show 7 < 8 by decide)⟩ (by show 1 + (x 2).val + 0 / 128 = (x 2).val + 1; omega) rfl).symm
  · dsimp only
    rw [pay29_apply, hv]
    exact (in_block (vol x0) 0 128 8 inb_S10x10x8x384_S8x8x8x128_1_1_0_128 x (x 2) (by show 0 + (x 2).val + 128 / 128 = (x 2).val + 1; omega) rfl).symm
  · exact (show k0_pay21 (F := Ideal) x = 0 from bf16_zero).trans (rim_block _ 1 1 7 256 8 8 1 128 (by decide) (fun _ _ _ _ _ _ _ _ h => by omega) x)
  · exact (show k0_pay20 (F := Ideal) x = 0 from bf16_zero).trans (rim_block _ 1 1 0 0 8 8 1 128 (by decide) (fun _ _ _ _ _ _ _ _ h => by omega) x)
  · exact (show k0_pay19 (F := Ideal) x = 0 from bf16_zero).trans (rim_block _ 1 9 0 0 8 1 8 384 inb_S10x10x8x384_S8x1x8x384_1_9_0_0 (fun _ _ _ _ _ _ _ _ h => by omega) x)
  · exact (show k0_pay18 (F := Ideal) x = 0 from bf16_zero).trans (rim_block _ 1 0 0 0 8 1 8 384 inb_S10x10x8x384_S8x1x8x384_1_0_0_0 (fun _ _ _ _ _ _ _ _ h => by omega) x)
  · exact (show k0_pay17 (F := Ideal) x = 0 from bf16_zero).trans (rim_block _ 9 0 0 0 1 10 8 384 inb_S10x10x8x384_S1x10x8x384_9_0_0_0 (fun _ _ _ _ _ _ _ _ h => by omega) x)
  · exact (show k0_pay16 (F := Ideal) x = 0 from bf16_zero).trans (rim_block _ 0 0 0 0 1 10 8 384 inb_S10x10x8x384_S1x10x8x384_0_0_0_0 (fun _ _ _ _ _ _ _ _ h => by omega) x)

end FillReadMain

section Loads

open Cert.RSpec Cert.Spec

theorem load_block (arg1 : Memref sig .tc .vmem S1x8x8x8x128 .f32) (harg1 : arg1.IsWhole) (x0 : Vec Ideal S1x8x8x8x128 .f32)
    (k : S1x8x8x8x128.Idx) :
    View.readAt (Elt Ideal) arg1.view
        (Rect.unit (s := S1x8x8x8x128) ![0, 0, 0, 0, 0] S1x8x8x8x128.size inb_S1x8x8x8x128_S1x8x8x8x128_0_0_0_0_0).toLoadRect
        (harg1.unread x0) k = x0 k := by
  refine (harg1.readAt_unread x0
    (Rect.unit (s := S1x8x8x8x128) ![0, 0, 0, 0, 0] S1x8x8x8x128.size inb_S1x8x8x8x128_S1x8x8x8x128_0_0_0_0_0).toLoadRect k).trans
    (congrArg x0 ?_)
  funext a
  rcases a with ⟨a, ha⟩
  have ha' : a < 5 := ha
  interval_cases a <;> exact Fin.ext (by show 0 + 1 * _ = _; omega)

theorem load_row (arg : Memref sig .tc .vmem S1x128 .f32) (harg : arg.IsWhole) (x : Vec Ideal S1x128 .f32) (j : S1x128.Idx) :
    View.readAt (Elt Ideal) arg.view (Rect.unit (s := S1x128) ![0, 0] S1x128.size inb_S1x128_S1x128_0_0).toLoadRect (harg.unread x) j
      = x (ix2 (0 : Fin 1) (j 1)) := by
  refine (harg.readAt_unread x (Rect.unit (s := S1x128) ![0, 0] S1x128.size inb_S1x128_S1x128_0_0).toLoadRect j).trans
    (congrArg x ?_)
  have hj0 : (j 0).val < 1 := (j 0).isLt
  funext a
  rcases a with ⟨a, ha⟩
  have ha' : a < 2 := ha
  interval_cases a
  · exact Fin.ext (by show 0 + 1 * (j 0).val = 0; omega)
  · exact Fin.ext (by show 0 + 1 * (j 1).val = (j 1).val; omega)

theorem x7_read (arg7 : Memref sig .tc .vmem S10x10x8x384 .bf16) (harg7 : arg7.IsWhole) (f : BufTy.Contents (Elt Ideal) arg7.view.ty)
    (v : Vec Ideal S1x8x8x8x128 .f32) (x0 : SB1.Idx → EReal) (hv : ∀ k, v k = x0 k) :
    arg7.view.read (Elt Ideal) (arg7.view.writes (Elt Ideal) arg7.view.junk (fillF arg7 f v)) = windowR (vol x0) := by
  rw [writes_eq_of_cover_whole harg7 arg7.view.junk f (fillF arg7 f v)
    (View.cover_of_tiledBy (fillF arg7 f v) ![1, 1, 1, 128] (by sl_kernel_rfl))]
  exact fill_read arg7 f v x0 hv

theorem g8_halo (arg8 : Memref sig .tc .vmem S10x10x8x384 .bf16) (f : BufTy.Contents (Elt Ideal) arg8.view.ty) :
    HaloZeroR (arg8.view.read (Elt Ideal) (arg8.view.writes (Elt Ideal) f
      (haloF arg8 f (k0_pay22 k0_pay13) (k0_pay23 k0_pay13) (k0_pay24 k0_pay14) (k0_pay25 k0_pay14) (k0_pay26 k0_pay15) (k0_pay27 k0_pay15)))) :=
  halo_zero arg8 f _ _ _ _ _ _ (fun _ => bf16_zero) (fun _ => bf16_zero) (fun _ => bf16_zero) (fun _ => bf16_zero)
    (fun _ => bf16_zero) (fun _ => bf16_zero)

end Loads

end Cert.ReferenceIdeal.Hand

end
-- ==== Proof.RTrip1Ops.lean ====
/- A trip of the first convolution operation by operation at an index. -/
import proofs.«102070_g2000507141466659_pallasbulk_1049_20_alg».proof.Proof.Gen.ReferenceIdeal.Skeleton
import proofs.«102070_g2000507141466659_pallasbulk_1049_20_alg».proof.Proof.RSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.ValueIdx

namespace Cert.ReferenceIdeal.Trip1Ops

open Cert.ReferenceIdeal Cert.ReferenceIdeal.Gen Cert.Spec Cert.RSpec

def row (dl : Fin 4) (h w : Fin 8) : Fin 256 := ⟨64 * dl.val + 8 * h.val + w.val, by omega⟩

def tap (L : S4x8x8x384.Idx → EReal) (W : S1x384x128.Idx → EReal) (dl : Fin 4) (h w : Fin 8) (co : Fin 128) : EReal :=
  ∑ kk : Fin 384, L (ix4 dl h w kk) * W (ix3 (0 : Fin 1) kk co)

theorem lhs_dot_0 (j : S256x128.Idx) (k : dot_S256x384_S384x128_S256x128_1_0_0_1_n_n.contr.Idx) :
    (dot_S256x384_S384x128_S256x128_1_0_0_1_n_n.lhsIdx j k 0).val = (j 0).val := by
  simp [DotDims.lhsIdx, dot_S256x384_S384x128_S256x128_1_0_0_1_n_n]; rfl

theorem lhs_dot_1 (j : S256x128.Idx) (k : dot_S256x384_S384x128_S256x128_1_0_0_1_n_n.contr.Idx) :
    (dot_S256x384_S384x128_S256x128_1_0_0_1_n_n.lhsIdx j k 1).val = (k ⟨0, by decide⟩).val :=
  dot_S256x384_S384x128_S256x128_1_0_0_1_n_n.lhsIdx_val_of_single (cl := 1) rfl j k

theorem rhs_dot_0 (j : S256x128.Idx) (k : dot_S256x384_S384x128_S256x128_1_0_0_1_n_n.contr.Idx) :
    (dot_S256x384_S384x128_S256x128_1_0_0_1_n_n.rhsIdx j k 0).val = (k ⟨0, by decide⟩).val :=
  dot_S256x384_S384x128_S256x128_1_0_0_1_n_n.rhsIdx_val_of_single (cr := 0) rfl j k

theorem rhs_dot_1 (j : S256x128.Idx) (k : dot_S256x384_S384x128_S256x128_1_0_0_1_n_n.contr.Idx) :
    (dot_S256x384_S384x128_S256x128_1_0_0_1_n_n.rhsIdx j k 1).val = (j 1).val := by
  simp [DotDims.rhsIdx, dot_S256x384_S384x128_S256x128_1_0_0_1_n_n]; rfl

theorem matmul_tap (L : FVec Ideal S4x8x8x384 .bf16) (W : FVec Ideal S1x384x128 .bf16) (dl : Fin 4) (h w : Fin 8) (co : Fin 128) :
    matmul (F := Ideal) dot_S256x384_S384x128_S256x128_1_0_0_1_n_n none
        (shapeCast S256x384 L shapeCasts_S4x8x8x384_S256x384)
        (shapeCast S384x128 W shapeCasts_S1x384x128_S384x128)
        (constant (F := Ideal) S256x128 .f32 0x00000000#32) (ix2 (row dl h w) co)
      = tap L W dl h w co := by
  simp only [matmul]
  rw [Ideal.matmul_constant_zero_apply,
    ← Equiv.sum_comp (contrEquiv1 dot_S256x384_S384x128_S256x128_1_0_0_1_n_n 384 rfl rfl).symm]
  unfold tap
  refine Finset.sum_congr rfl fun kk _ => ?_
  have ck := contrEquiv1_symm_val dot_S256x384_S384x128_S256x128_1_0_0_1_n_n 384 rfl rfl kk
  have hd := dl.isLt; have hh := h.isLt; have hw := w.isLt; have hk := kk.isLt; have hc := co.isLt
  congr 1
  · refine shapeCast_apply _ _ _ (ix4 dl h w kk) ?_
    rw [Shape.rowMajor_val_four, Shape.rowMajor_val_two, lhs_dot_0, lhs_dot_1, ck]
    show ((dl.val * 8 + h.val) * 8 + w.val) * 384 + kk.val = (64 * dl.val + 8 * h.val + w.val) * 384 + kk.val
    omega
  · refine shapeCast_apply _ _ _ (ix3 (0 : Fin 1) kk co) ?_
    rw [Shape.rowMajor_val_three, Shape.rowMajor_val_two, rhs_dot_0, rhs_dot_1, ck]
    show ((0 : Nat) * 384 + kk.val) * 128 + co.val = kk.val * 128 + co.val
    omega

theorem leaky_entry (v : EReal) :
    Scalar.select (Ideal.cmp .oge v (Ideal.ofBits .f32 0x00000000#32)) v (Ideal.ofBits .f32 0x3E99999A#32 * v) = leakyR v := by
  rw [Ideal.ofBits_zero_f32]
  unfold Scalar.select Ideal.cmp leakyR Cert.Spec.slope
  by_cases h : (0 : EReal) ≤ v
  · simp [h]
  · simp [h]

theorem pay3_apply (v53 : Vec Ideal S1x128 .f32) (r : Fin 256) (c : Fin 128) :
    k0_pay3 (F := Ideal) v53 (ix2 r c) = v53 (ix2 (0 : Fin 1) c) := by
  unfold k0_pay3
  refine (broadcastTo_1b_ab_apply _ _ r c).trans ?_
  refine (shapeCast_apply _ _ _ (ix2 (0 : Fin 1) c) rfl).trans ?_
  exact shapeCast_apply _ _ _ (ix2 (0 : Fin 1) c) rfl

theorem pay6_apply (L0 L1 L2 : Vec Ideal S4x8x8x384 .bf16) (W0 W1 W2 : Vec Ideal S1x384x128 .bf16)
    (dl : Fin 4) (h w : Fin 8) (c : Fin 128) :
    k0_pay6 (F := Ideal) L0 W0 L1 W1 L2 W2 (ix2 (row dl h w) c)
      = tap L0 W0 dl h w c + tap L1 W1 dl h w c + tap L2 W2 dl h w c := by
  unfold k0_pay6
  simp only [addf_apply, broadcast_apply, matmul_tap]
  show Ideal.ofBits .f32 0x00000000#32 + _ + _ + _ = _
  rw [Ideal.ofBits_zero_f32, zero_add]

theorem pay7_apply (acc : FVec Ideal S256x128 .f32) (L3 L4 L5 L6 : Vec Ideal S4x8x8x384 .bf16) (W3 W4 W5 W6 : Vec Ideal S1x384x128 .bf16)
    (dl : Fin 4) (h w : Fin 8) (c : Fin 128) :
    k0_pay7 (F := Ideal) acc L3 W3 L4 W4 L5 W5 L6 W6 (ix2 (row dl h w) c)
      = acc (ix2 (row dl h w) c) + tap L3 W3 dl h w c + tap L4 W4 dl h w c + tap L5 W5 dl h w c + tap L6 W6 dl h w c := by
  unfold k0_pay7
  simp only [addf_apply, matmul_tap]

theorem pay8_apply (b acc : FVec Ideal S256x128 .f32) (L7 L8 : Vec Ideal S4x8x8x384 .bf16) (W7 W8 : Vec Ideal S1x384x128 .bf16)
    (dl : Fin 4) (h w : Fin 8) (c : Fin 128) :
    k0_pay8 (F := Ideal) b acc L7 W7 L8 W8 (ix4 dl h w c)
      = leakyR (acc (ix2 (row dl h w) c) + tap L7 W7 dl h w c + tap L8 W8 dl h w c + b (ix2 (row dl h w) c)) := by
  have hd := dl.isLt; have hh := h.isLt; have hw := w.isLt; have hc := c.isLt
  unfold k0_pay8
  refine (shapeCast_apply _ _ _ (ix2 (row dl h w) c) ?_).trans ?_
  · rw [Shape.rowMajor_val_two, Shape.rowMajor_val_four]
    show (64 * dl.val + 8 * h.val + w.val) * 128 + c.val = ((dl.val * 8 + h.val) * 8 + w.val) * 128 + c.val
    omega
  simp only [truncf_apply, select_apply, cmpf_apply, mulf_apply, addf_apply, broadcast_apply, matmul_tap]
  exact leaky_entry _

theorem pay9_apply (b acc : FVec Ideal S256x128 .f32) (L7 L8 : Vec Ideal S4x8x8x384 .bf16) (W7 W8 : Vec Ideal S1x384x128 .bf16)
    (j : S4x8x8x128.Idx) :
    k0_pay9 (F := Ideal) b acc L7 W7 L8 W8 j = k0_pay8 (F := Ideal) b acc L7 W7 L8 W8 j := by
  unfold k0_pay9
  exact shapeCast_apply _ _ _ j rfl

theorem pay10_apply (b acc : FVec Ideal S256x128 .f32) (L7 L8 : Vec Ideal S4x8x8x384 .bf16) (W7 W8 : Vec Ideal S1x384x128 .bf16)
    (dl : Fin 4) (h : Fin 8) (w : Fin 7) (c : Fin 128) :
    k0_pay10 (F := Ideal) b acc L7 W7 L8 W8 (ix4 dl h w c)
      = k0_pay8 (F := Ideal) b acc L7 W7 L8 W8 (ix4 dl h (⟨w.val, by omega⟩ : Fin 8) c) := by
  unfold k0_pay10
  refine (shapeCast_apply _ _ _ (ix4 dl h w c) rfl).trans ?_
  exact extractStridedSlice_apply _ _ _ _ (ix4 dl h (⟨w.val, by omega⟩ : Fin 8) c)
    (fun a => match a with
      | ⟨0, _⟩ => by show dl.val = 0 + dl.val; omega
      | ⟨1, _⟩ => by show h.val = 0 + h.val; omega
      | ⟨2, _⟩ => by show w.val = 0 + w.val; omega
      | ⟨3, _⟩ => by show c.val = 0 + c.val; omega)

theorem pay4_apply (v : FVec Ideal S4x8x8x128 .bf16) (dl : Fin 4) (h : Fin 8) (w : Fin 7) (c : Fin 128) :
    k0_pay4 (F := Ideal) v (ix4 dl h w c) = v (ix4 dl h (⟨w.val + 1, by omega⟩ : Fin 8) c) := by
  unfold k0_pay4
  refine (shapeCast_apply _ _ _ (ix4 dl h w c) rfl).trans ?_
  exact extractStridedSlice_apply _ _ _ _ (ix4 dl h (⟨w.val + 1, by omega⟩ : Fin 8) c)
    (fun a => match a with
      | ⟨0, _⟩ => by show dl.val = 0 + dl.val; omega
      | ⟨1, _⟩ => by show h.val = 0 + h.val; omega
      | ⟨2, _⟩ => by show w.val + 1 = 1 + w.val; omega
      | ⟨3, _⟩ => by show c.val = 0 + c.val; omega)

def tapR (A : SScrR.Idx → EReal) (W : SWtR.Idx → EReal) (d h w : Fin 8) (co : Fin 128) (t : Fin 9) : EReal :=
  ∑ kk : Fin 384, A (ix4 (⟨d.val + t.val / 3, by omega⟩ : Fin 10) (⟨h.val + t.val % 3, by omega⟩ : Fin 10) w kk) * W (ix3 t kk co)

theorem convRowR_eq_taps (A : SScrR.Idx → EReal) (W : SWtR.Idx → EReal) (d h w : Fin 8) (co : Fin 128) :
    convRowR A W d h w co
      = tapR A W d h w co 0 + tapR A W d h w co 1 + tapR A W d h w co 2 + tapR A W d h w co 3 + tapR A W d h w co 4
        + tapR A W d h w co 5 + tapR A W d h w co 6 + tapR A W d h w co 7 + tapR A W d h w co 8 := by
  show ∑ t : Fin 9, tapR A W d h w co t = _
  rw [Fin.sum_univ_castSucc, Fin.sum_univ_eight]
  rfl

theorem tap_eq_tapR (A : SScrR.Idx → EReal) (W : SWtR.Idx → EReal) (L : S4x8x8x384.Idx → EReal) (Wt : S1x384x128.Idx → EReal)
    (kv : ℕ) (hk : kv < 2) (t : Fin 9)
    (hL : ∀ (dl : Fin 4) (h w : Fin 8) (kk : Fin 384),
      L (ix4 dl h w kk) = A (ix4 (⟨4 * kv + t.val / 3 + dl.val, by omega⟩ : Fin 10) (⟨t.val % 3 + h.val, by omega⟩ : Fin 10) w kk))
    (hW : ∀ (kk : Fin 384) (co : Fin 128), Wt (ix3 (0 : Fin 1) kk co) = W (ix3 t kk co))
    (dl : Fin 4) (h w : Fin 8) (co : Fin 128) :
    tap L Wt dl h w co = tapR A W (⟨4 * kv + dl.val, by omega⟩ : Fin 8) h w co t := by
  unfold tap tapR
  refine Finset.sum_congr rfl fun kk _ => ?_
  rw [hL, hW]
  congr 2
  funext a
  match a with
  | ⟨0, _⟩ => exact Fin.ext (by show 4 * kv + t.val / 3 + dl.val = 4 * kv + dl.val + t.val / 3; omega)
  | ⟨1, _⟩ => exact Fin.ext (by show t.val % 3 + h.val = h.val + t.val % 3; omega)
  | ⟨2, _⟩ => rfl
  | ⟨3, _⟩ => rfl

/-- Tap `t = 3r + s` of trip `kv`: the window scratch loaded at `(4kv + r, s)` against the weight loaded at `t`. -/
theorem tap_ld (m7 : Memref sig .tc .vmem S10x10x8x384 .bf16) (X7 : BufTy.Contents (Elt Ideal) m7.view.ty) (a : Vol)
    (hX7 : m7.view.read (Elt Ideal) X7 = windowR a) (m2 : Memref sig .tc .vmem S9x384x128 .bf16) (X2 : BufTy.Contents (Elt Ideal) m2.view.ty)
    (kv : ℕ) (hk : kv < 2) (t : Fin 9) (r s : ℕ) (ht3 : t.val / 3 = r) (htm : t.val % 3 = s)
    {off7 : Fin 4 → ℕ} {inb7 : ∀ a, off7 a + S4x8x8x384.size a ≤ S10x10x8x384.size a} (hoff7 : off7 = ![4 * kv + r, s, 0, 0])
    {off2 : Fin 3 → ℕ} {inb2 : ∀ a, off2 a + S1x384x128.size a ≤ S9x384x128.size a} (hoff2 : off2 = ![t.val, 0, 0])
    (dl : Fin 4) (h w : Fin 8) (co : Fin 128) :
    tap (View.readAt (Elt Ideal) m7.view (Rect.unit (s := S10x10x8x384) off7 S4x8x8x384.size inb7).toLoadRect X7)
        (View.readAt (Elt Ideal) m2.view (Rect.unit (s := S9x384x128) off2 S1x384x128.size inb2).toLoadRect X2) dl h w co
      = tapR (windowR a) (m2.view.read (Elt Ideal) X2) (⟨4 * kv + dl.val, by omega⟩ : Fin 8) h w co t := by
  subst hoff7 hoff2 ht3 htm
  have ht := t.isLt
  refine tap_eq_tapR (windowR a) (m2.view.read (Elt Ideal) X2) _ _ kv hk t (fun dl h w kk => ?_) (fun kk co => ?_) dl h w co
  · rw [View.readAt_apply, hX7]
    congr 1; funext b
    match b with
    | ⟨0, _⟩ => exact Fin.ext (by show 4 * kv + t.val / 3 + 1 * dl.val = 4 * kv + t.val / 3 + dl.val; omega)
    | ⟨1, _⟩ => exact Fin.ext (by show t.val % 3 + 1 * h.val = t.val % 3 + h.val; omega)
    | ⟨2, _⟩ => exact Fin.ext (by show 0 + 1 * w.val = w.val; omega)
    | ⟨3, _⟩ => exact Fin.ext (by show 0 + 1 * kk.val = kk.val; omega)
  · rw [View.readAt_apply]
    congr 1; funext b
    match b with
    | ⟨0, _⟩ => exact Fin.ext (by show t.val + 1 * 0 = t.val; omega)
    | ⟨1, _⟩ => exact Fin.ext (by show 0 + 1 * kk.val = kk.val; omega)
    | ⟨2, _⟩ => exact Fin.ext (by show 0 + 1 * co.val = co.val; omega)

end Cert.ReferenceIdeal.Trip1Ops
end
-- ==== Proof.RTrip1.lean ====
/- A trip of the first loop as values: four rectified depth rows stored three times. -/
import proofs.«102070_g2000507141466659_pallasbulk_1049_20_alg».proof.Proof.RLoop
import proofs.«102070_g2000507141466659_pallasbulk_1049_20_alg».proof.Proof.RSpec
import proofs.«102070_g2000507141466659_pallasbulk_1049_20_alg».proof.Proof.LibBlend
import proofs.«102070_g2000507141466659_pallasbulk_1049_20_alg».proof.Proof.RTrip1Ops
import proofs.«102070_g2000507141466659_pallasbulk_1049_20_alg».proof.Proof.RTrip1Pieces

set_option maxRecDepth 16384
set_option maxHeartbeats 4000000

noncomputable section

open scoped BigOperators
open Idealize.ShloMosaic Idealize.ShloMosaic.ValueIdx

namespace Cert.ReferenceIdeal.Trip1

open Cert.ReferenceIdeal Cert.ReferenceIdeal.Gen Cert.ReferenceIdeal.Hand Cert.Spec Cert.RSpec
open Idealize.ShloMosaic.TcCoe Idealize.ShloMosaic.Tactic

variable (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v53 : Vec Ideal S1x128 .f32) (X_arg2 : BufTy.Contents (Elt Ideal) arg2.view.ty) (X_arg7 : BufTy.Contents (Elt Ideal) arg7.view.ty)

abbrev ld7 (off : Fin 4 → ℕ) (inb : ∀ a, off a + S4x8x8x384.size a ≤ S10x10x8x384.size a) : Vec Ideal S4x8x8x384 .bf16 :=
  View.readAt (Elt Ideal) arg7.view (Rect.unit (s := S10x10x8x384) off S4x8x8x384.size inb).toLoadRect X_arg7

abbrev ld2 (off : Fin 3 → ℕ) (inb : ∀ a, off a + S1x384x128.size a ≤ S9x384x128.size a) : Vec Ideal S1x384x128 .bf16 :=
  View.readAt (Elt Ideal) arg2.view (Rect.unit (s := S9x384x128) off S1x384x128.size inb).toLoadRect X_arg2

def acc7 (k : Fin k0_t1_loop.trips) : FVec Ideal S256x128 .f32 :=
  k0_pay7 (F := Ideal)
    (k0_pay6 (F := Ideal)
      (ld7 arg7 X_arg7 (k0_off1 k 0#32) (k0_off1_inb k 0)) (ld2 arg2 X_arg2 ![0, 0, 0] inb_S9x384x128_S1x384x128_0_0_0)
      (ld7 arg7 X_arg7 (k0_off2 k 0#32) (k0_off2_inb k 0)) (ld2 arg2 X_arg2 ![1, 0, 0] inb_S9x384x128_S1x384x128_1_0_0)
      (ld7 arg7 X_arg7 (k0_off3 k 0#32) (k0_off3_inb k 0)) (ld2 arg2 X_arg2 ![2, 0, 0] inb_S9x384x128_S1x384x128_2_0_0))
    (ld7 arg7 X_arg7 (k0_off1 k 1#32) (k0_off1_inb k 1)) (ld2 arg2 X_arg2 ![3, 0, 0] inb_S9x384x128_S1x384x128_3_0_0)
    (ld7 arg7 X_arg7 (k0_off2 k 1#32) (k0_off2_inb k 1)) (ld2 arg2 X_arg2 ![4, 0, 0] inb_S9x384x128_S1x384x128_4_0_0)
    (ld7 arg7 X_arg7 (k0_off3 k 1#32) (k0_off3_inb k 1)) (ld2 arg2 X_arg2 ![5, 0, 0] inb_S9x384x128_S1x384x128_5_0_0)
    (ld7 arg7 X_arg7 (k0_off1 k 2#32) (k0_off1_inb k 2)) (ld2 arg2 X_arg2 ![6, 0, 0] inb_S9x384x128_S1x384x128_6_0_0)

def yblk (k : Fin k0_t1_loop.trips) : FVec Ideal S4x8x8x128 .bf16 :=
  k0_pay8 (F := Ideal) (k0_pay3 (F := Ideal) v53) (acc7 arg2 arg7 X_arg2 X_arg7 k)
    (ld7 arg7 X_arg7 (k0_off2 k 2#32) (k0_off2_inb k 2)) (ld2 arg2 X_arg2 ![7, 0, 0] inb_S9x384x128_S1x384x128_7_0_0)
    (ld7 arg7 X_arg7 (k0_off3 k 2#32) (k0_off3_inb k 2)) (ld2 arg2 X_arg2 ![8, 0, 0] inb_S9x384x128_S1x384x128_8_0_0)

theorem tripL_eq (k : Fin k0_t1_loop.trips) (f : BufTy.Contents (Elt Ideal) arg8.view.ty) :
    tripL_k0_t1 (F := Ideal) 𝒱 c bd i arg1 harg1 arg2 harg2 arg3 harg3 arg4 harg4 arg5 harg5 arg6 harg6 arg7 harg7 arg8 harg8 v53 X_arg2 X_arg7 k f
      = [⟨Rect.unit (s := S10x10x8x384) (k0_off8 k) S4x8x8x128.size (k0_off8_inb k),
          updateSlice (View.readAt (Elt Ideal) arg8.view (Rect.unit (s := S10x10x8x384) (k0_off8 k) S4x8x8x128.size (k0_off8_inb k)).toLoadRect f)
            (k0_pay4 (F := Ideal) (yblk arg2 arg7 v53 X_arg2 X_arg7 k)) ![0, 0, 0, 0] slices_S4x8x8x128_S4x8x7x128_0_0_0_0⟩,
         ⟨Rect.unit (s := S10x10x8x384) (k0_off6 k) S4x8x8x128.size (k0_off6_inb k),
          updateSlice (View.readAt (Elt Ideal) arg8.view (Rect.unit (s := S10x10x8x384) (k0_off6 k) S4x8x8x128.size (k0_off6_inb k)).toLoadRect f)
            (k0_pay10 (F := Ideal) (k0_pay3 (F := Ideal) v53) (acc7 arg2 arg7 X_arg2 X_arg7 k)
              (ld7 arg7 X_arg7 (k0_off2 k 2#32) (k0_off2_inb k 2)) (ld2 arg2 X_arg2 ![7, 0, 0] inb_S9x384x128_S1x384x128_7_0_0)
              (ld7 arg7 X_arg7 (k0_off3 k 2#32) (k0_off3_inb k 2)) (ld2 arg2 X_arg2 ![8, 0, 0] inb_S9x384x128_S1x384x128_8_0_0))
            ![0, 0, 1, 0] slices_S4x8x8x128_S4x8x7x128_0_0_1_0⟩,
         ⟨Rect.unit (s := S10x10x8x384) (k0_off4 k) S4x8x8x128.size (k0_off4_inb k),
          k0_pay9 (F := Ideal) (k0_pay3 (F := Ideal) v53) (acc7 arg2 arg7 X_arg2 X_arg7 k)
            (ld7 arg7 X_arg7 (k0_off2 k 2#32) (k0_off2_inb k 2)) (ld2 arg2 X_arg2 ![7, 0, 0] inb_S9x384x128_S1x384x128_7_0_0)
            (ld7 arg7 X_arg7 (k0_off3 k 2#32) (k0_off3_inb k 2)) (ld2 arg2 X_arg2 ![8, 0, 0] inb_S9x384x128_S1x384x128_8_0_0)⟩] := by
  unfold tripL_k0_t1 trip_k0_t1
  dsimp only
  sl_unfold_run_names
  rfl

theorem hk2 (k : Fin k0_t1_loop.trips) : k.val < 2 := Nat.lt_of_lt_of_le k.isLt k0_t1_abs.2.1

open Cert.ReferenceIdeal.Trip1Ops

theorem yblk_apply (a : Vol) (hX7 : arg7.view.read (Elt Ideal) X_arg7 = windowR a) (T1 : STR.Idx → EReal)
    (hv53 : ∀ c : Fin 128, v53 (ix2 (0 : Fin 1) c) = T1 (ix2 (0 : Fin 1) c))
    (k : Fin k0_t1_loop.trips) (dl : Fin 4) (h w : Fin 8) (c : Fin 128) :
    yblk arg2 arg7 v53 X_arg2 X_arg7 k (ix4 dl h w c)
      = leakyR (convRowR (windowR a) (arg2.view.read (Elt Ideal) X_arg2) (⟨4 * k.val + dl.val, by have := hk2 k; omega⟩ : Fin 8) h w c
          + T1 (ix2 (0 : Fin 1) c)) := by
  unfold yblk acc7
  rw [pay8_apply, pay7_apply, pay6_apply, pay3_apply, hv53, convRowR_eq_taps]
  have hT := tap_ld arg7 X_arg7 a hX7 arg2 X_arg2 k.val (hk2 k)
  refine congrArg (fun z => leakyR (z + T1 (ix2 (0 : Fin 1) c))) ?_
  refine congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) ?_) ?_) ?_) ?_
  · exact hT 0 0 0 rfl rfl (k0_off1_eq k ⟨0, by decide⟩) rfl dl h w c
  · exact hT 1 0 1 rfl rfl (k0_off2_eq k ⟨0, by decide⟩) rfl dl h w c
  · exact hT 2 0 2 rfl rfl (k0_off3_eq k ⟨0, by decide⟩) rfl dl h w c
  · exact hT 3 1 0 rfl rfl (k0_off1_eq k ⟨1, by decide⟩) rfl dl h w c
  · exact hT 4 1 1 rfl rfl (k0_off2_eq k ⟨1, by decide⟩) rfl dl h w c
  · exact hT 5 1 2 rfl rfl (k0_off3_eq k ⟨1, by decide⟩) rfl dl h w c
  · exact hT 6 2 0 rfl rfl (k0_off1_eq k ⟨2, by decide⟩) rfl dl h w c
  · exact hT 7 2 1 rfl rfl (k0_off2_eq k ⟨2, by decide⟩) rfl dl h w c
  · exact hT 8 2 2 rfl rfl (k0_off3_eq k ⟨2, by decide⟩) rfl dl h w c

open Cert.ReferenceIdeal.Trip1Pieces

theorem off8_window (k : Fin k0_t1_loop.trips) :
    ∀ b, (![4 * k.val + 1, 1, 0, 256] : Fin 4 → ℕ) b = k0_off8 k b + (![0, 0, 0, 0] : Fin 4 → ℕ) b := by
  intro b
  rw [k0_off8_eq]
  match b with
  | ⟨0, _⟩ => rfl
  | ⟨1, _⟩ => rfl
  | ⟨2, _⟩ => rfl
  | ⟨3, _⟩ => rfl

theorem off6_window (k : Fin k0_t1_loop.trips) :
    ∀ b, (![4 * k.val + 1, 1, 1, 0] : Fin 4 → ℕ) b = k0_off6 k b + (![0, 0, 1, 0] : Fin 4 → ℕ) b := by
  intro b
  rw [k0_off6_eq]
  match b with
  | ⟨0, _⟩ => rfl
  | ⟨1, _⟩ => rfl
  | ⟨2, _⟩ => rfl
  | ⟨3, _⟩ => rfl

theorem inb8_window (k : Fin k0_t1_loop.trips) :
    ∀ b, (![4 * k.val + 1, 1, 0, 256] : Fin 4 → ℕ) b + (![4, 8, 7, 128] : Fin 4 → ℕ) b ≤ S10x10x8x384.size b := by
  have hk := hk2 k
  intro b
  match b with
  | ⟨0, _⟩ => show 4 * k.val + 1 + 4 ≤ 10; omega
  | ⟨1, _⟩ => show 1 + 8 ≤ 10; omega
  | ⟨2, _⟩ => show 0 + 7 ≤ 8; omega
  | ⟨3, _⟩ => show 256 + 128 ≤ 384; omega

theorem inb6_window (k : Fin k0_t1_loop.trips) :
    ∀ b, (![4 * k.val + 1, 1, 1, 0] : Fin 4 → ℕ) b + (![4, 8, 7, 128] : Fin 4 → ℕ) b ≤ S10x10x8x384.size b := by
  have hk := hk2 k
  intro b
  match b with
  | ⟨0, _⟩ => show 4 * k.val + 1 + 4 ≤ 10; omega
  | ⟨1, _⟩ => show 1 + 8 ≤ 10; omega
  | ⟨2, _⟩ => show 1 + 7 ≤ 8; omega
  | ⟨3, _⟩ => show 0 + 128 ≤ 384; omega

theorem writes_trip_eq (k : Fin k0_t1_loop.trips) (f : BufTy.Contents (Elt Ideal) arg8.view.ty) :
    arg8.view.writes (Elt Ideal) f (tripL_k0_t1 (F := Ideal) 𝒱 c bd i arg1 harg1 arg2 harg2 arg3 harg3 arg4 harg4 arg5 harg5 arg6 harg6 arg7 harg7 arg8 harg8 v53 X_arg2 X_arg7 k f)
      = arg8.view.writes (Elt Ideal) f
        [⟨Rect.unit (s := S10x10x8x384) ![4 * k.val + 1, 1, 0, 256] ![4, 8, 7, 128] (inb8_window k),
          k0_pay4 (F := Ideal) (yblk arg2 arg7 v53 X_arg2 X_arg7 k)⟩,
         ⟨Rect.unit (s := S10x10x8x384) ![4 * k.val + 1, 1, 1, 0] ![4, 8, 7, 128] (inb6_window k),
          k0_pay10 (F := Ideal) (k0_pay3 (F := Ideal) v53) (acc7 arg2 arg7 X_arg2 X_arg7 k)
            (ld7 arg7 X_arg7 (k0_off2 k 2#32) (k0_off2_inb k 2)) (ld2 arg2 X_arg2 ![7, 0, 0] inb_S9x384x128_S1x384x128_7_0_0)
            (ld7 arg7 X_arg7 (k0_off3 k 2#32) (k0_off3_inb k 2)) (ld2 arg2 X_arg2 ![8, 0, 0] inb_S9x384x128_S1x384x128_8_0_0)⟩,
         ⟨Rect.unit (s := S10x10x8x384) (k0_off4 k) S4x8x8x128.size (k0_off4_inb k),
          k0_pay9 (F := Ideal) (k0_pay3 (F := Ideal) v53) (acc7 arg2 arg7 X_arg2 X_arg7 k)
            (ld7 arg7 X_arg7 (k0_off2 k 2#32) (k0_off2_inb k 2)) (ld2 arg2 X_arg2 ![7, 0, 0] inb_S9x384x128_S1x384x128_7_0_0)
            (ld7 arg7 X_arg7 (k0_off3 k 2#32) (k0_off3_inb k 2)) (ld2 arg2 X_arg2 ![8, 0, 0] inb_S9x384x128_S1x384x128_8_0_0)⟩] := by
  rw [tripL_eq]
  refine (Cert.LibBlend.writes_cons_blend arg8.view f (off := k0_off8 k) (size := S4x8x8x128.size) (usz := ![4, 8, 7, 128])
    (st := ![0, 0, 0, 0]) (off' := ![4 * k.val + 1, 1, 0, 256]) (k0_off8_inb k) slices_S4x8x8x128_S4x8x7x128_0_0_0_0
    (off8_window k) (inb8_window k) _ _ _
    (fun x => Cert.LibBlend.readAt_unit_of_disjoint arg8.view f _ (k0_off8_inb k) ?_ x)).trans ?_
  · intro p hp
    simp only [List.mem_cons, List.mem_nil_iff, or_false] at hp
    rcases hp with rfl | rfl
    · exact Rect.unit_disjoint (inb := k0_off8_inb k) (inb' := k0_off6_inb k) 3 (by rw [k0_off8_eq, k0_off6_eq]; right; show 0 + 128 ≤ 256; omega)
    · exact Rect.unit_disjoint (inb := k0_off8_inb k) (inb' := k0_off4_inb k) 3 (by rw [k0_off8_eq, k0_off4_eq]; right; show 128 + 128 ≤ 256; omega)
  refine Cert.LibBlend.writes_cons_congr arg8.view f _ ?_
  refine Cert.LibBlend.writes_cons_blend arg8.view f (off := k0_off6 k) (size := S4x8x8x128.size) (usz := ![4, 8, 7, 128])
    (st := ![0, 0, 1, 0]) (off' := ![4 * k.val + 1, 1, 1, 0]) (k0_off6_inb k) slices_S4x8x8x128_S4x8x7x128_0_0_1_0
    (off6_window k) (inb6_window k) _ _ _
    (fun x => Cert.LibBlend.readAt_unit_of_disjoint arg8.view f _ (k0_off6_inb k) ?_ x)
  intro p hp
  simp only [List.mem_cons, List.mem_nil_iff, or_false] at hp
  subst hp
  exact Rect.unit_disjoint (inb := k0_off6_inb k) (inb' := k0_off4_inb k) 3 (by rw [k0_off6_eq, k0_off4_eq]; left; show 0 + 128 ≤ 128; omega)

abbrev Yv (a : Vol) (W1 : SWtR.Idx → EReal) (T1 : STR.Idx → EReal) : Vol :=
  fun d h w c => leakyR (convRowR (windowR a) W1 d h w c + T1 (ix2 (0 : Fin 1) c))

section
variable (a : Vol) (hX7 : arg7.view.read (Elt Ideal) X_arg7 = windowR a) (T1 : STR.Idx → EReal)
  (hv53 : ∀ c : Fin 128, v53 (ix2 (0 : Fin 1) c) = T1 (ix2 (0 : Fin 1) c))

include hX7 hv53 in
theorem trip_writes (k : Fin k0_t1_loop.trips) (f : BufTy.Contents (Elt Ideal) arg8.view.ty) (j : S10x10x8x384.Idx)
    (hj : Covered (4 * k.val) j) :
    arg8.view.read (Elt Ideal) (arg8.view.writes (Elt Ideal) f (tripL_k0_t1 (F := Ideal) 𝒱 c bd i arg1 harg1 arg2 harg2 arg3 harg3 arg4 harg4 arg5 harg5 arg6 harg6 arg7 harg7 arg8 harg8 v53 X_arg2 X_arg7 k f)) j
      = windowR (Yv a (arg2.view.read (Elt Ideal) X_arg2) T1) j := by
  have hk := hk2 k
  rw [writes_trip_eq]
  refine pieces_read_in arg8.view f (Yv a (arg2.view.read (Elt Ideal) X_arg2) T1) (4 * k.val) (by omega)
    (k0_off4_eq k) rfl rfl _ _ _ (fun dl h w c => ?_) (fun dl h w c => ?_) (fun dl h w c => ?_) j hj
  · exact (pay9_apply _ _ _ _ _ _ _).trans (yblk_apply arg2 arg7 v53 X_arg2 X_arg7 a hX7 T1 hv53 k dl h w c)
  · exact (pay10_apply _ _ _ _ _ _ dl h w c).trans (yblk_apply arg2 arg7 v53 X_arg2 X_arg7 a hX7 T1 hv53 k dl h _ c)
  · exact (pay4_apply _ dl h w c).trans (yblk_apply arg2 arg7 v53 X_arg2 X_arg7 a hX7 T1 hv53 k dl h _ c)

theorem trip_writes_off (k : Fin k0_t1_loop.trips) (f : BufTy.Contents (Elt Ideal) arg8.view.ty) (j : S10x10x8x384.Idx)
    (hj : ¬Covered (4 * k.val) j) :
    arg8.view.read (Elt Ideal) (arg8.view.writes (Elt Ideal) f (tripL_k0_t1 (F := Ideal) 𝒱 c bd i arg1 harg1 arg2 harg2 arg3 harg3 arg4 harg4 arg5 harg5 arg6 harg6 arg7 harg7 arg8 harg8 v53 X_arg2 X_arg7 k f)) j
      = arg8.view.read (Elt Ideal) f j := by
  rw [writes_trip_eq]
  exact pieces_read_off arg8.view f (4 * k.val) (k0_off4_eq k) rfl rfl _ _ _ j hj

theorem trips_eq : k0_t1_loop.trips = 2 := by decide +kernel

include hX7 hv53 in
theorem x8_read (G : BufTy.Contents (Elt Ideal) arg8.view.ty) (hG : HaloZeroR (arg8.view.read (Elt Ideal) G)) :
    arg8.view.read (Elt Ideal) (arg8.view.writes (Elt Ideal) G (pb_k0_t1 (F := Ideal) 𝒱 c bd i arg1 harg1 arg2 harg2 arg3 harg3 arg4 harg4 arg5 harg5 arg6 harg6 arg7 harg7 arg8 harg8 v53 X_arg2 X_arg7 G 2))
      = windowR (Yv a (arg2.view.read (Elt Ideal) X_arg2) T1) := by
  have ht := trips_eq
  have tw := trip_writes 𝒱 c bd i arg1 harg1 arg2 harg2 arg3 harg3 arg4 harg4 arg5 harg5 arg6 harg6 arg7 harg7 arg8 harg8 v53 X_arg2 X_arg7 a hX7 T1 hv53
  have two := trip_writes_off 𝒱 c bd i arg1 harg1 arg2 harg2 arg3 harg3 arg4 harg4 arg5 harg5 arg6 harg6 arg7 harg7 arg8 harg8 v53 X_arg2 X_arg7
  have sc := pb_k0_t1_succ (F := Ideal) 𝒱 c bd i arg1 harg1 arg2 harg2 arg3 harg3 arg4 harg4 arg5 harg5 arg6 harg6 arg7 harg7 arg8 harg8 v53 X_arg2 X_arg7 G
  set P := pb_k0_t1 (F := Ideal) 𝒱 c bd i arg1 harg1 arg2 harg2 arg3 harg3 arg4 harg4 arg5 harg5 arg6 harg6 arg7 harg7 arg8 harg8 v53 X_arg2 X_arg7 G
  set T := tripL_k0_t1 (F := Ideal) 𝒱 c bd i arg1 harg1 arg2 harg2 arg3 harg3 arg4 harg4 arg5 harg5 arg6 harg6 arg7 harg7 arg8 harg8 v53 X_arg2 X_arg7
  have e1 : P 1 = T ⟨0, by omega⟩ G := (sc ⟨0, by omega⟩).trans (List.append_nil _)
  have e2 : P 2 = T ⟨1, by omega⟩ (arg8.view.writes (Elt Ideal) G (P 1)) ++ P 1 := sc ⟨1, by omega⟩
  funext j
  rw [e2, View.writes_append]
  by_cases h1 : Covered (4 * 1) j
  · exact tw ⟨1, by omega⟩ _ j h1
  · rw [two ⟨1, by omega⟩ _ j h1, e1]
    by_cases h0 : Covered (4 * 0) j
    · exact tw ⟨0, by omega⟩ G j h0
    · rw [two ⟨0, by omega⟩ G j h0]
      have hout : ¬(1 ≤ (j 0).val ∧ (j 0).val ≤ 8 ∧ 1 ≤ (j 1).val ∧ (j 1).val ≤ 8
          ∧ 1 ≤ (j 2).val + (j 3).val / 128 ∧ (j 2).val + (j 3).val / 128 ≤ 8) := by
        intro hin
        unfold Covered at h0 h1
        omega
      rw [hG j hout, windowR_haloZero _ j hout]
end

end Cert.ReferenceIdeal.Trip1
end
-- ==== Proof.RTrip2.lean ====
/- A trip of the second loop as values: four output depths, one function of the index. -/
import proofs.«102070_g2000507141466659_pallasbulk_1049_20_alg».proof.Proof.Gen.ReferenceIdeal.Loops
import proofs.«102070_g2000507141466659_pallasbulk_1049_20_alg».proof.Proof.RSpec
import proofs.«102070_g2000507141466659_pallasbulk_1049_20_alg».proof.Proof.RTrip1Ops
import Idealize.ShloMosaic.Lib.Pipeline.Value
import Idealize.ShloMosaic.Lib.ValueIdx
import Idealize.ShloMosaic.Lib.ValueLayout
import Idealize.ShloMosaic.Lib.Writes
import Idealize.ShloMosaic.PureOps.Ideal.Laws

set_option maxRecDepth 16384

noncomputable section

open scoped BigOperators
open Idealize.ShloMosaic Idealize.ShloMosaic.ValueIdx

namespace Cert.ReferenceIdeal.Trip2

open Cert.ReferenceIdeal Cert.ReferenceIdeal.Gen Cert.Spec Cert.RSpec Cert.ReferenceIdeal.Trip1Ops

/-- The last two taps, the shift and the block's own input, rectified: the stored block at an index. -/
theorem pay5_apply (T : Vec Ideal S1x128 .f32) (acc : FVec Ideal S256x128 .f32) (L7 L8 : Vec Ideal S4x8x8x384 .bf16) (W7 W8 : Vec Ideal S1x384x128 .bf16)
    (x : Vec Ideal S1x4x8x8x128 .f32) (d : Fin 4) (h w : Fin 8) (n : Fin 128) :
    k0_pay5 (F := Ideal) T acc L7 W7 L8 W8 x (ix5 (0 : Fin 1) d h w n)
      = leakyR (acc (ix2 (row d h w) n) + tap L7 W7 d h w n + tap L8 W8 d h w n + T (ix2 (0 : Fin 1) n) + x (ix5 (0 : Fin 1) d h w n)) := by
  have hd := d.isLt; have hh := h.isLt; have hw := w.isLt; have hn := n.isLt
  unfold k0_pay5
  refine (shapeCast_apply _ _ _ (ix4 d h w n) ?_).trans ((shapeCast_apply _ _ _ (ix2 (row d h w) n) ?_).trans ?_)
  · rw [Shape.rowMajor_val_five, Shape.rowMajor_val_four]
    show ((d.val * 8 + h.val) * 8 + w.val) * 128 + n.val = (((0 * 4 + d.val) * 8 + h.val) * 8 + w.val) * 128 + n.val
    omega
  · rw [Shape.rowMajor_val_four, Shape.rowMajor_val_two]
    show (64 * d.val + 8 * h.val + w.val) * 128 + n.val = ((d.val * 8 + h.val) * 8 + w.val) * 128 + n.val
    omega
  simp only [select_apply, cmpf_apply, mulf_apply, addf_apply, broadcast_apply, matmul_tap]
  rw [broadcastTo_1b_ab_apply, shapeCast_self, shapeCast_self,
    shapeCast_apply _ _ _ (ix4 d h w n) (by
      rw [Shape.rowMajor_val_four, Shape.rowMajor_val_two]
      show ((d.val * 8 + h.val) * 8 + w.val) * 128 + n.val = (64 * d.val + 8 * h.val + w.val) * 128 + n.val
      omega),
    shapeCast_apply _ _ _ (ix5 (0 : Fin 1) d h w n) (by
      rw [Shape.rowMajor_val_five, Shape.rowMajor_val_four]
      show (((0 * 4 + d.val) * 8 + h.val) * 8 + w.val) * 128 + n.val = ((d.val * 8 + h.val) * 8 + w.val) * 128 + n.val
      omega)]
  exact leaky_entry _

abbrev Win (arg8 : Memref sig .tc .vmem S10x10x8x384 .bf16) (X : BufTy.Contents (Elt Ideal) arg8.view.ty) (off : Fin 4 → Nat)
    (inb : ∀ a, off a + S4x8x8x384.size a ≤ S10x10x8x384.size a) : Vec Ideal S4x8x8x384 .bf16 :=
  View.readAt (Elt Ideal) arg8.view (Rect.unit (s := S10x10x8x384) off S4x8x8x384.size inb).toLoadRect X
abbrev Wsl (arg4 : Memref sig .tc .vmem S9x384x128 .bf16) (X : BufTy.Contents (Elt Ideal) arg4.view.ty) (off : Fin 3 → Nat)
    (inb : ∀ a, off a + S1x384x128.size a ≤ S9x384x128.size a) : Vec Ideal S1x384x128 .bf16 :=
  View.readAt (Elt Ideal) arg4.view (Rect.unit (s := S9x384x128) off S1x384x128.size inb).toLoadRect X
abbrev Res (arg1 : Memref sig .tc .vmem S1x8x8x8x128 .f32) (X : BufTy.Contents (Elt Ideal) arg1.view.ty) (off : Fin 5 → Nat)
    (inb : ∀ a, off a + S1x4x8x8x128.size a ≤ S1x8x8x8x128.size a) : Vec Ideal S1x4x8x8x128 .f32 :=
  View.readAt (Elt Ideal) arg1.view (Rect.unit (s := S1x8x8x8x128) off S1x4x8x8x128.size inb).toLoadRect X

section Trip

variable (𝒱 : Variants) (c : Dev nD) (bd : Option 𝒱.V) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole) (v57 : Vec Ideal S1x128 .f32) (X_arg1 : BufTy.Contents (Elt Ideal) arg1.view.ty) (X_arg4 : BufTy.Contents (Elt Ideal) arg4.view.ty) (X_arg8 : BufTy.Contents (Elt Ideal) arg8.view.ty)

theorem tripL_eq (k : Fin k0_t2_loop.trips) :
    tripL_k0_t2 (F := Ideal) 𝒱 c bd i arg1 harg1 arg2 harg2 arg3 harg3 arg4 harg4 arg5 harg5 arg6 harg6 arg7 harg7 arg8 harg8 v57 X_arg1 X_arg4 X_arg8 k
      = [⟨Rect.unit (s := S1x8x8x8x128) (k0_off12 k) S1x4x8x8x128.size (k0_off12_inb k),
          k0_pay5 v57
            (k0_pay12
              (k0_pay11
                (Win arg8 X_arg8 (k0_off9 k 0#32) (k0_off9_inb k 0)) (Wsl arg4 X_arg4 ![0, 0, 0] inb_S9x384x128_S1x384x128_0_0_0)
                (Win arg8 X_arg8 (k0_off10 k 0#32) (k0_off10_inb k 0)) (Wsl arg4 X_arg4 ![1, 0, 0] inb_S9x384x128_S1x384x128_1_0_0)
                (Win arg8 X_arg8 (k0_off11 k 0#32) (k0_off11_inb k 0)) (Wsl arg4 X_arg4 ![2, 0, 0] inb_S9x384x128_S1x384x128_2_0_0))
              (Win arg8 X_arg8 (k0_off9 k 1#32) (k0_off9_inb k 1)) (Wsl arg4 X_arg4 ![3, 0, 0] inb_S9x384x128_S1x384x128_3_0_0)
              (Win arg8 X_arg8 (k0_off10 k 1#32) (k0_off10_inb k 1)) (Wsl arg4 X_arg4 ![4, 0, 0] inb_S9x384x128_S1x384x128_4_0_0)
              (Win arg8 X_arg8 (k0_off11 k 1#32) (k0_off11_inb k 1)) (Wsl arg4 X_arg4 ![5, 0, 0] inb_S9x384x128_S1x384x128_5_0_0)
              (Win arg8 X_arg8 (k0_off9 k 2#32) (k0_off9_inb k 2)) (Wsl arg4 X_arg4 ![6, 0, 0] inb_S9x384x128_S1x384x128_6_0_0))
            (Win arg8 X_arg8 (k0_off10 k 2#32) (k0_off10_inb k 2)) (Wsl arg4 X_arg4 ![7, 0, 0] inb_S9x384x128_S1x384x128_7_0_0)
            (Win arg8 X_arg8 (k0_off11 k 2#32) (k0_off11_inb k 2)) (Wsl arg4 X_arg4 ![8, 0, 0] inb_S9x384x128_S1x384x128_8_0_0)
            (Res arg1 X_arg1 (k0_off12 k) (k0_off12_inb k))⟩] := by
  unfold tripL_k0_t2 trip_k0_t2
  rfl

def G (Y : Vol) (W2 : SWtR.Idx → EReal) (T2 : STR.Idx → EReal) (x0 : SB1.Idx → EReal) : SB1.Idx → EReal := fun j =>
  leakyR (convRowR (windowR Y) W2 (j 1) (j 2) (j 3) (j 4) + T2 (ix2 (0 : Fin 1) (j 4)) + x0 j)

variable (Y : Vol) (hX8 : arg8.view.read (Elt Ideal) X_arg8 = windowR Y)
  (T2 : STR.Idx → EReal) (hv57 : ∀ n : Fin 128, v57 (ix2 (0 : Fin 1) n) = T2 (ix2 (0 : Fin 1) n))

include hX8 hv57 in
theorem trip_piece (k : Fin k0_t2_loop.trips) :
    ∀ p ∈ tripL_k0_t2 (F := Ideal) 𝒱 c bd i arg1 harg1 arg2 harg2 arg3 harg3 arg4 harg4 arg5 harg5 arg6 harg6 arg7 harg7 arg8 harg8 v57 X_arg1 X_arg4 X_arg8 k,
      ∀ y : p.1.shape.Idx, p.2 y = G Y (arg4.view.read (Elt Ideal) X_arg4) T2 (arg1.view.read (Elt Ideal) X_arg1) (p.1.emb y) := by
  intro p hp y
  rw [tripL_eq] at hp
  obtain rfl := List.mem_singleton.mp hp
  have hk : k.val < 2 := Nat.lt_of_lt_of_le k.isLt k0_t2_abs.2.1
  obtain ⟨u, d, h, w, n, rfl⟩ : ∃ (u : Fin 1) (d : Fin 4) (h w : Fin 8) (n : Fin 128), y = ix5 u d h w n :=
    ⟨y 0, y 1, y 2, y 3, y 4, eq_ix5 y⟩
  obtain rfl : u = 0 := Subsingleton.elim _ _

  have h12 := k0_off12_eq k
  let d' : Fin 8 := ⟨4 * k.val + d.val, by omega⟩
  have hemb : (Rect.unit (s := S1x8x8x8x128) (k0_off12 k) S1x4x8x8x128.size (k0_off12_inb k)).emb (ix5 (0 : Fin 1) d h w n)
      = ix5 (0 : Fin 1) d' h w n := by
    funext ax; apply Fin.ext
    match ax with
    | ⟨0, _⟩ => show (k0_off12 k) 0 + 1 * 0 = 0; rw [h12]; rfl
    | ⟨1, _⟩ => show (k0_off12 k) 1 + 1 * d.val = 4 * k.val + d.val; rw [h12]; show 4 * k.val + 1 * d.val = _; omega
    | ⟨2, _⟩ => show (k0_off12 k) 2 + 1 * h.val = h.val; rw [h12]; show 0 + 1 * h.val = _; omega
    | ⟨3, _⟩ => show (k0_off12 k) 3 + 1 * w.val = w.val; rw [h12]; show 0 + 1 * w.val = _; omega
    | ⟨4, _⟩ => show (k0_off12 k) 4 + 1 * n.val = n.val; rw [h12]; show 0 + 1 * n.val = _; omega

  have hres : Res arg1 X_arg1 (k0_off12 k) (k0_off12_inb k) (ix5 (0 : Fin 1) d h w n)
      = arg1.view.read (Elt Ideal) X_arg1 (ix5 (0 : Fin 1) d' h w n) := by
    rw [← hemb]; rfl
  show k0_pay5 _ _ _ _ _ _ _ (ix5 (0 : Fin 1) d h w n) = _
  have hT := tap_ld arg8 X_arg8 Y hX8 arg4 X_arg4 k.val hk
  have e12 : @k0_pay12 Ideal _ = @k0_pay7 Ideal _ := rfl
  have e11 : @k0_pay11 Ideal _ = @k0_pay6 Ideal _ := rfl
  rw [pay5_apply, e12, pay7_apply, e11, pay6_apply, hemb, hres, hv57]
  rw [hT 0 0 0 rfl rfl (k0_off9_eq k ⟨0, by decide⟩) (off2 := ![0, 0, 0]) rfl d h w n,
    hT 1 0 1 rfl rfl (k0_off10_eq k ⟨0, by decide⟩) (off2 := ![1, 0, 0]) rfl d h w n,
    hT 2 0 2 rfl rfl (k0_off11_eq k ⟨0, by decide⟩) (off2 := ![2, 0, 0]) rfl d h w n,
    hT 3 1 0 rfl rfl (k0_off9_eq k ⟨1, by decide⟩) (off2 := ![3, 0, 0]) rfl d h w n,
    hT 4 1 1 rfl rfl (k0_off10_eq k ⟨1, by decide⟩) (off2 := ![4, 0, 0]) rfl d h w n,
    hT 5 1 2 rfl rfl (k0_off11_eq k ⟨1, by decide⟩) (off2 := ![5, 0, 0]) rfl d h w n,
    hT 6 2 0 rfl rfl (k0_off9_eq k ⟨2, by decide⟩) (off2 := ![6, 0, 0]) rfl d h w n,
    hT 7 2 1 rfl rfl (k0_off10_eq k ⟨2, by decide⟩) (off2 := ![7, 0, 0]) rfl d h w n,
    hT 8 2 2 rfl rfl (k0_off11_eq k ⟨2, by decide⟩) (off2 := ![8, 0, 0]) rfl d h w n]
  unfold G
  rw [convRowR_eq_taps]

theorem trips_eq : k0_t2_loop.trips = 2 := by decide +kernel

theorem pb_two (h0 : 0 < k0_t2_loop.trips) (h1 : 1 < k0_t2_loop.trips) :
    pb_k0_t2 (F := Ideal) 𝒱 c bd i arg1 harg1 arg2 harg2 arg3 harg3 arg4 harg4 arg5 harg5 arg6 harg6 arg7 harg7 arg8 harg8 v57 X_arg1 X_arg4 X_arg8 2
      = tripL_k0_t2 (F := Ideal) 𝒱 c bd i arg1 harg1 arg2 harg2 arg3 harg3 arg4 harg4 arg5 harg5 arg6 harg6 arg7 harg7 arg8 harg8 v57 X_arg1 X_arg4 X_arg8 ⟨1, h1⟩
        ++ (tripL_k0_t2 (F := Ideal) 𝒱 c bd i arg1 harg1 arg2 harg2 arg3 harg3 arg4 harg4 arg5 harg5 arg6 harg6 arg7 harg7 arg8 harg8 v57 X_arg1 X_arg4 X_arg8 ⟨0, h0⟩ ++ []) :=
  (pb_k0_t2_succ 𝒱 c bd i arg1 harg1 arg2 harg2 arg3 harg3 arg4 harg4 arg5 harg5 arg6 harg6 arg7 harg7 arg8 harg8 v57 X_arg1 X_arg4 X_arg8 ⟨1, h1⟩).trans
    (congrArg (_ ++ ·) (pb_k0_t2_succ 𝒱 c bd i arg1 harg1 arg2 harg2 arg3 harg3 arg4 harg4 arg5 harg5 arg6 harg6 arg7 harg7 arg8 harg8 v57 X_arg1 X_arg4 X_arg8 ⟨0, h0⟩))

theorem mem_block (k : Fin k0_t2_loop.trips) (j : S1x8x8x8x128.Idx) (hlo : 4 * k.val ≤ (j 1).val) (hhi : (j 1).val < 4 * k.val + 4) :
    j ∈ (Rect.unit (s := S1x8x8x8x128) (k0_off12 k) S1x4x8x8x128.size (k0_off12_inb k)).set := by
  rw [Rect.mem_set_unit]
  have h12 := k0_off12_eq k
  intro a
  rw [h12]
  match a with
  | ⟨0, _⟩ => exact ⟨Nat.zero_le _, by have h : (j 0).val < 1 := (j 0).isLt; show (j 0).val < 0 + 1; omega⟩
  | ⟨1, _⟩ => exact ⟨hlo, hhi⟩
  | ⟨2, _⟩ => exact ⟨Nat.zero_le _, by have h : (j 2).val < 8 := (j 2).isLt; show (j 2).val < 0 + 8; omega⟩
  | ⟨3, _⟩ => exact ⟨Nat.zero_le _, by have h : (j 3).val < 8 := (j 3).isLt; show (j 3).val < 0 + 8; omega⟩
  | ⟨4, _⟩ => exact ⟨Nat.zero_le _, by have h : (j 4).val < 128 := (j 4).isLt; show (j 4).val < 0 + 128; omega⟩

include hX8 hv57 in
theorem out_read (f : BufTy.Contents (Elt Ideal) arg6.view.ty) :
    arg6.view.read (Elt Ideal) (arg6.view.writes (Elt Ideal) f
        (pb_k0_t2 (F := Ideal) 𝒱 c bd i arg1 harg1 arg2 harg2 arg3 harg3 arg4 harg4 arg5 harg5 arg6 harg6 arg7 harg7 arg8 harg8 v57 X_arg1 X_arg4 X_arg8 2))
      = G Y (arg4.view.read (Elt Ideal) X_arg4) T2 (arg1.view.read (Elt Ideal) X_arg1) := by
  have hN : k0_t2_loop.trips = 2 := trips_eq
  have h0 : 0 < k0_t2_loop.trips := by omega
  have h1 : 1 < k0_t2_loop.trips := by omega
  funext j
  rw [pb_two 𝒱 c bd i arg1 harg1 arg2 harg2 arg3 harg3 arg4 harg4 arg5 harg5 arg6 harg6 arg7 harg7 arg8 harg8 v57 X_arg1 X_arg4 X_arg8 h0 h1]
  refine View.read_writes_apply_of_pieces arg6.view f _ _ (fun p hp => ?_) j ?_
  · rcases List.mem_append.mp hp with hp | hp
    · exact trip_piece 𝒱 c bd i arg1 harg1 arg2 harg2 arg3 harg3 arg4 harg4 arg5 harg5 arg6 harg6 arg7 harg7 arg8 harg8 v57 X_arg1 X_arg4 X_arg8 Y hX8 T2 hv57 ⟨1, h1⟩ p hp
    · rcases List.mem_append.mp hp with hp | hp
      · exact trip_piece 𝒱 c bd i arg1 harg1 arg2 harg2 arg3 harg3 arg4 harg4 arg5 harg5 arg6 harg6 arg7 harg7 arg8 harg8 v57 X_arg1 X_arg4 X_arg8 Y hX8 T2 hv57 ⟨0, h0⟩ p hp
      · exact absurd hp List.not_mem_nil
  · rw [tripL_eq 𝒱 c bd i arg1 harg1 arg2 harg2 arg3 harg3 arg4 harg4 arg5 harg5 arg6 harg6 arg7 harg7 arg8 harg8 v57 X_arg1 X_arg4 X_arg8 ⟨1, h1⟩, tripL_eq 𝒱 c bd i arg1 harg1 arg2 harg2 arg3 harg3 arg4 harg4 arg5 harg5 arg6 harg6 arg7 harg7 arg8 harg8 v57 X_arg1 X_arg4 X_arg8 ⟨0, h0⟩]
    have hj : (j 1).val < 8 := (j 1).isLt
    by_cases hlt : (j 1).val < 4
    · exact ⟨_, List.mem_append_right _ (List.mem_append_left _ List.mem_cons_self),
        mem_block ⟨0, h0⟩ j (by show 4 * 0 ≤ (j 1).val; omega) (by show (j 1).val < 4 * 0 + 4; omega)⟩
    · exact ⟨_, List.mem_append_left _ List.mem_cons_self,
        mem_block ⟨1, h1⟩ j (by show 4 * 1 ≤ (j 1).val; omega) (by show (j 1).val < 4 * 1 + 4; omega)⟩

end Trip

theorem G_yvol (x0 : SB1.Idx → EReal) (W1 : SWtR.Idx → EReal) (T1 : STR.Idx → EReal) (W2 : SWtR.Idx → EReal)
    (T2 : STR.Idx → EReal) : G (yvol x0 W1 T1) W2 T2 x0 = OutR x0 W1 T1 W2 T2 := by
  funext j
  have hj : j = ix5 (0 : Fin 1) (j 1) (j 2) (j 3) (j 4) := by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl
    | ⟨4, _⟩ => rfl
  exact congrArg (fun z => leakyR (convRowR (windowR (yvol x0 W1 T1)) W2 (j 1) (j 2) (j 3) (j 4)
    + T2 (ix2 (0 : Fin 1) (j 4)) + x0 z)) hj

end Cert.ReferenceIdeal.Trip2

end
-- ==== Proof.ROut.lean ====
/- What the body leaves in its output block as a function of its five input blocks. -/
import proofs.«102070_g2000507141466659_pallasbulk_1049_20_alg».proof.Proof.RDefs
import proofs.«102070_g2000507141466659_pallasbulk_1049_20_alg».proof.Proof.RScratch
import proofs.«102070_g2000507141466659_pallasbulk_1049_20_alg».proof.Proof.RTrip1
import proofs.«102070_g2000507141466659_pallasbulk_1049_20_alg».proof.Proof.RTrip2

set_option maxRecDepth 16384
set_option maxHeartbeats 4000000

noncomputable section

namespace Cert.ReferenceIdeal.Hand

open Cert.ReferenceIdeal Cert.ReferenceIdeal.Gen
open Idealize.ShloMosaic Idealize.ShloMosaic.View Idealize.ShloMosaic.ValueIdx
open Cert.RSpec

theorem outR_spec (c : Dev nD) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole)
    (x0 : Vec Ideal S1x8x8x8x128 .f32) (x1 : Vec Ideal S9x384x128 .bf16) (x2 : Vec Ideal S1x128 .f32) (x3 : Vec Ideal S9x384x128 .bf16) (x4 : Vec Ideal S1x128 .f32) (d7 d8 : Vec Ideal S10x10x8x384 .bf16) :
    VO5.read (Elt Ideal) (VO5.writes (Elt Ideal) VO5.junk (refRun (F := Ideal) c i arg1 harg1 arg2 harg2 arg3 harg3 arg4 harg4 arg5 harg5 arg6 harg6 arg7 harg7 arg8 harg8 x0 x1 x2 x3 x4 d7 d8).1)
      = OutR x0 x1 x2 x3 x4 := by
  rw [View.read_writes_of_cover VO5 VO5.junk arg6.view arg6.view.junk _ (coverR c i arg1 harg1 arg2 harg2 arg3 harg3 arg4 harg4 arg5 harg5 arg6 harg6 arg7 harg7 arg8 harg8 x0 x1 x2 x3 x4 d7 d8)]
  unfold refRun
  dsimp only
  have htr : Scf.trips (0#32) (Scalar.addi 0#32 2#32) 1#32 = 2 := by decide
  rw [htr, View.writes_append]
  refine (Trip2.out_read Variants.none c none i arg1 harg1 arg2 harg2 arg3 harg3 arg4 harg4 arg5 harg5 arg6 harg6 arg7 harg7 arg8 harg8 _ _ _ _ (yvol x0 x1 x2) ?hX8 x4 ?hv57 _).trans ?_
  case hv57 => exact fun n => load_row arg5 harg5 x4 (ix2 (0 : Fin 1) n)
  case hX8 =>
    refine (Trip1.x8_read Variants.none c none i arg1 harg1 arg2 harg2 arg3 harg3 arg4 harg4 arg5 harg5 arg6 harg6 arg7 harg7 arg8 harg8 _ _ _ (vol x0) ?hX7 x2 ?hv53 _ ?hG).trans ?_
    case hv53 => exact fun n => load_row arg3 harg3 x2 (ix2 (0 : Fin 1) n)
    case hX7 => exact x7_read arg7 harg7 (harg7.unread d7) _ x0 (load_block arg1 harg1 x0)
    case hG => exact g8_halo arg8 (harg8.unread d8)
    rw [harg2.read_unread]
    rfl
  rw [harg4.read_unread, harg1.read_unread]
  exact Trip2.G_yvol _ _ _ _ _

theorem outR_indep (c : Dev nD) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole)
    (x0 : Vec Ideal S1x8x8x8x128 .f32) (x1 : Vec Ideal S9x384x128 .bf16) (x2 : Vec Ideal S1x128 .f32) (x3 : Vec Ideal S9x384x128 .bf16) (x4 : Vec Ideal S1x128 .f32) (d7 d8 : Vec Ideal S10x10x8x384 .bf16) :
    VO5.read (Elt Ideal) (VO5.writes (Elt Ideal) VO5.junk (refRun (F := Ideal) c i arg1 harg1 arg2 harg2 arg3 harg3 arg4 harg4 arg5 harg5 arg6 harg6 arg7 harg7 arg8 harg8 x0 x1 x2 x3 x4 d7 d8).1)
      = outR (F := Ideal) c i arg1 harg1 arg2 harg2 arg3 harg3 arg4 harg4 arg5 harg5 arg6 harg6 arg7 harg7 arg8 harg8 x0 x1 x2 x3 x4 :=
  (outR_spec c i arg1 harg1 arg2 harg2 arg3 harg3 arg4 harg4 arg5 harg5 arg6 harg6 arg7 harg7 arg8 harg8 x0 x1 x2 x3 x4 d7 d8).trans (outR_spec c i arg1 harg1 arg2 harg2 arg3 harg3 arg4 harg4 arg5 harg5 arg6 harg6 arg7 harg7 arg8 harg8 x0 x1 x2 x3 x4 junkS junkS).symm

theorem outR_eq (c : Dev nD) (i : grid0.Coords) (arg1 : Memref sig .tc .vmem S1x8x8x8x128 .f32) (harg1 : arg1.IsWhole) (arg2 : Memref sig .tc .vmem S9x384x128 .bf16) (harg2 : arg2.IsWhole) (arg3 : Memref sig .tc .vmem S1x128 .f32) (harg3 : arg3.IsWhole) (arg4 : Memref sig .tc .vmem S9x384x128 .bf16) (harg4 : arg4.IsWhole) (arg5 : Memref sig .tc .vmem S1x128 .f32) (harg5 : arg5.IsWhole) (arg6 : Memref sig .tc .vmem S1x8x8x8x128 .f32) (harg6 : arg6.IsWhole) (arg7 : Memref sig .tc .vmem S10x10x8x384 .bf16) (harg7 : arg7.IsWhole) (arg8 : Memref sig .tc .vmem S10x10x8x384 .bf16) (harg8 : arg8.IsWhole)
    (x0 : Vec Ideal S1x8x8x8x128 .f32) (x1 : Vec Ideal S9x384x128 .bf16) (x2 : Vec Ideal S1x128 .f32) (x3 : Vec Ideal S9x384x128 .bf16) (x4 : Vec Ideal S1x128 .f32) :
    outR (F := Ideal) c i arg1 harg1 arg2 harg2 arg3 harg3 arg4 harg4 arg5 harg5 arg6 harg6 arg7 harg7 arg8 harg8 x0 x1 x2 x3 x4 = OutR x0 x1 x2 x3 x4 :=
  outR_spec c i arg1 harg1 arg2 harg2 arg3 harg3 arg4 harg4 arg5 harg5 arg6 harg6 arg7 harg7 arg8 harg8 x0 x1 x2 x3 x4 junkS junkS

end Cert.ReferenceIdeal.Hand

end
-- ==== Proof.RBody.lean ====
/- The plain program's frame: its region run point by point, nothing carried between points. -/
import proofs.«102070_g2000507141466659_pallasbulk_1049_20_alg».proof.Proof.ROut

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic

variable {F : FTy → Type} [FloatOps F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outR c (grid0.coords t) (ms0_0 t) (hs0_0 t) (ms0_1 t) (hs0_1 t) (ms0_2 t) (hs0_2 t) (ms0_3 t) (hs0_3 t) (ms0_4 t) (hs0_4 t) (ms0_5 t) (hs0_5 t) scM7 (Memref.isWhole_whole _) scM8 (Memref.isWhole_whole _) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = Pipeline.ΦA spec0 c := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outR c (grid0.coords t) (ms0_0 t) (hs0_0 t) (ms0_1 t) (hs0_1 t) (ms0_2 t) (hs0_2 t) (ms0_3 t) (hs0_3 t) (ms0_4 t) (hs0_4 t) (ms0_5 t) (hs0_5 t) scM7 (Memref.isWhole_whole _) scM8 (Memref.isWhole_whole _) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

end Generic

section AtIdeal

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [Phi_eq m c t.succ, Phi_eq m c t.castSucc, PhiA0_eq]
  iintro ⟨⟨⟨⟨%d7, HS7⟩, ⟨%d8, HS8⟩⟩, Hg⟩, Ho, ⟨%d0, H0⟩, ⟨%d1, H1⟩, ⟨%d2, H2⟩, ⟨%d3, H3⟩, ⟨%d4, H4⟩, ⟨%d5, H5⟩⟩
  iapply ((refRun c (grid0.coords t) _ _ _ _ _ _ _ _ _ _ _ _ _ _ _ _ (iblk m c 0 t) (iblk m c 1 t) (iblk m c 2 t) (iblk m c 3 t) (iblk m c 4 t) d7 d8).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS7]; · iexact HS7
  isplitl [HS8]; · iexact HS8
  iintro ⟨H0, H1, H2, H3, H4, ⟨%e5, H5⟩, ⟨%e7, HS7⟩, ⟨%e8, HS8⟩⟩
  isplitl [HS7 HS8 Hg]
  · isplitl [HS7 HS8]
    · isplitl [HS7]
      · iexists _; unfold owns; iexists _; isplitr
        swap; · iexact HS7
        ipureintro; rfl
      iexists _; unfold owns; iexists _; isplitr
      swap; · iexact HS8
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro
  exact (View.read_writes_of_cover _ _ _ _ _ (coverR c _ _ _ _ _ _ _ _ _ _ _ _ _ _ _ _ _ _ _ _ _ _ d7 d8)).trans (outR_indep c _ _ _ _ _ _ _ _ _ _ _ _ _ _ _ _ _ _ _ _ _ _ d7 d8)

theorem body_obligation (c : Dev nD) : BodyObligation (dats (F := Ideal) m 0 c) (defs₀ (F := Ideal)) Variants.none () Set.univ := fun t => by
  rw [bigSep_W0, bigSep_W0]
  exact sound_body m c t

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

set_option backward.isDefEq.respectTransparency.types false in
theorem run_main : θ_run defs (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end AtIdeal

end Cert.ReferenceIdeal.Hand

end
-- ==== Proof.RHost.lean ====
/- The arrays the plain program's region finds in its windows, as functions of the arguments. -/
import proofs.«102070_g2000507141466659_pallasbulk_1049_20_alg».proof.Proof.Gen.ReferenceIdeal.Frame
import proofs.«102070_g2000507141466659_pallasbulk_1049_20_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

noncomputable section

open Idealize.ShloMosaic Idealize.ShloMosaic.TcCoe Idealize.ShloMosaic.StableHlo Idealize.ShloMosaic.ValueIdx
open Cert.ReferenceIdeal Cert.ReferenceIdeal.Gen

namespace Cert.ReferenceIdeal.HostVal

/-- Padding by nothing on every axis changes nothing. -/
theorem pad0 {s : Shape} (x : s.Idx → EReal) (v : S_.Idx → EReal) (lo hi int : Fin s.rank → Nat) (hlo : ∀ a, lo a = 0)
    (hint : ∀ a, int a = 0) (h : s.Pads lo hi int s) (hu : 0 < S_.numel) : pad s lo hi int x v h hu = x := by
  funext j
  exact pad_apply_of_inside _ _ _ x v h hu j j fun a => by
    show (j a).val = lo a + (j a).val * (int a + 1)
    rw [hlo, hint]; omega

theorem row_apply (x : S128.Idx → EReal) (h : S128.ShapeCasts S1x128) (j : S1x128.Idx) :
    shapeCast S1x128 x h j = x (ix1 (j 1)) := by
  conv_lhs => rw [eq_ix2 j]
  exact shapeCast_a_1a_apply x h (j 0) (j 1)

theorem tap_lt (j : S9x384x128.Idx) : (j 0).val < 9 := (j 0).isLt
theorem col_lt (j : S9x384x128.Idx) : (j 1).val < 384 := (j 1).isLt

theorem taps_apply (x : S3x3x3x128x128.Idx → EReal) (h : S3x3x3x128x128.ShapeCasts S9x384x128) (j : S9x384x128.Idx) :
    shapeCast S9x384x128 x h j
      = x (ix5 (⟨(j 0).val / 3, by have := tap_lt j; omega⟩ : Fin 3) (⟨(j 0).val % 3, Nat.mod_lt _ (by norm_num)⟩ : Fin 3)
            (⟨(j 1).val / 128, by have := col_lt j; omega⟩ : Fin 3) (⟨(j 1).val % 128, Nat.mod_lt _ (by norm_num)⟩ : Fin 128) (j 2)) :=
  shapeCast_apply x h j _ (by
    have h0 := tap_lt j
    have h1 := col_lt j
    rw [Shape.rowMajor_val_five, Shape.rowMajor_val_three]
    show (((((j 0).val / 3) * 3 + (j 0).val % 3) * 3 + (j 1).val / 128) * 128 + (j 1).val % 128) * 128 + (j 2).val
      = ((j 0).val * 384 + (j 1).val) * 128 + (j 2).val
    omega)

theorem weights_apply (w : S128x128x3x3x3.Idx → EReal) (s : S128.Idx → EReal)
    (h1 : S128.BroadcastsInDim S128x1x1x1x1 (![0] : Fin 1 → Fin S128x1x1x1x1.rank))
    (h2 : S128x1x1x1x1.BroadcastsInDim S128x128x3x3x3 (![0, 1, 2, 3, 4] : Fin 5 → Fin S128x128x3x3x3.rank))
    (h3 : S128x128x3x3x3.Transposes [2, 3, 4, 1, 0] S3x3x3x128x128) (k : S3x3x3x128x128.Idx) :
    transpose S3x3x3x128x128 [2, 3, 4, 1, 0]
        (mulf (φ := .f32) w (broadcastInDim S128x128x3x3x3 ![0, 1, 2, 3, 4] h2 (broadcastInDim S128x1x1x1x1 ![0] h1 s)) : FVec Ideal S128x128x3x3x3 .f32) h3 k
      = Cert.Spec.wgt w s (k 0) (k 1) (k 2) (k 3) (k 4) := by
  refine (transpose_apply _ _ h3 k (ix5 (k 4) (k 3) (k 0) (k 1) (k 2)) fun b => match b with
    | ⟨0, _⟩ => rfl | ⟨1, _⟩ => rfl | ⟨2, _⟩ => rfl | ⟨3, _⟩ => rfl | ⟨4, _⟩ => rfl).trans ?_
  show w _ * _ = w _ * s _
  congr 1
  refine (broadcastInDim_apply _ h2 _ _ (ix5 (k 4) (0 : Fin 1) (0 : Fin 1) (0 : Fin 1) (0 : Fin 1)) fun a => match a with
    | ⟨0, _⟩ => rfl | ⟨1, _⟩ => rfl | ⟨2, _⟩ => rfl | ⟨3, _⟩ => rfl | ⟨4, _⟩ => rfl).trans ?_
  exact broadcastInDim_apply _ h1 s _ (ix1 (k 4)) fun a => match a with
    | ⟨0, _⟩ => rfl

abbrev wTerm (w : S128x128x3x3x3.Idx → EReal) (s : S128.Idx → EReal) : FVec Ideal S3x3x3x128x128 .f32 :=
  transpose S3x3x3x128x128 [2, 3, 4, 1, 0]
    (mulf (φ := .f32) w (broadcastInDim S128x128x3x3x3 ![0, 1, 2, 3, 4] Facts₀.bcast_S128x1x1x1x1_S128x128x3x3x3_0_1_2_3_4
      (broadcastInDim S128x1x1x1x1 ![0] Facts₀.bcast_S128_S128x1x1x1x1_0 s)))
    Facts₀.transposes_S128x128x3x3x3_S3x3x3x128x128_2_3_4_1_0

abbrev zTerm : FVec Ideal S_ .f32 := sitofp (F := Ideal) .f32 (constantI S_ 32 0#32)

abbrev rowTerm (t : S128.Idx → EReal) : S1x128.Idx → EReal :=
  shapeCast S1x128 (pad S128 ![0] ![0] ![0] t zTerm Facts₀.pads_S128_S128_000 Facts₀.h_S_) Facts₀.shapeCasts_S128_S1x128

abbrev tapsTerm (x : S3x3x3x128x128.Idx → EReal) : S9x384x128.Idx → EReal :=
  truncf (φ := .f32) .bf16 (shapeCast S9x384x128
    (pad S3x3x3x128x128 ![0, 0, 0, 0, 0] ![0, 0, 0, 0, 0] ![0, 0, 0, 0, 0] x zTerm
      Facts₀.pads_S3x3x3x128x128_S3x3x3x128x128_000_000_000_000_000 Facts₀.h_S_)
    Facts₀.shapeCasts_S3x3x3x128x128_S9x384x128 : FVec Ideal S9x384x128 .f32) Facts₀.bitsLt_bf16_f32

theorem rowTerm_apply (t : S128.Idx → EReal) (j : S1x128.Idx) : rowTerm t j = t (ix1 (j 1)) := by
  show shapeCast S1x128 (pad S128 ![0] ![0] ![0] t zTerm _ _) _ j = _
  rw [pad0 _ _ _ _ _ (by decide) (by decide), row_apply]

theorem tapsTerm_apply (w : S128x128x3x3x3.Idx → EReal) (s : S128.Idx → EReal) (j : S9x384x128.Idx) :
    tapsTerm (wTerm w s) j
      = Cert.Spec.wgt w s (⟨(j 0).val / 3, by have := tap_lt j; omega⟩ : Fin 3) (⟨(j 0).val % 3, Nat.mod_lt _ (by norm_num)⟩ : Fin 3)
          (⟨(j 1).val / 128, by have := col_lt j; omega⟩ : Fin 3) (⟨(j 1).val % 128, Nat.mod_lt _ (by norm_num)⟩ : Fin 128) (j 2) := by
  show shapeCast S9x384x128 (pad S3x3x3x128x128 ![0, 0, 0, 0, 0] ![0, 0, 0, 0, 0] ![0, 0, 0, 0, 0] (wTerm w s) zTerm
      Facts₀.pads_S3x3x3x128x128_S3x3x3x128x128_000_000_000_000_000 Facts₀.h_S_) Facts₀.shapeCasts_S3x3x3x128x128_S9x384x128 j = _
  rw [pad0 _ _ _ _ _ (by decide) (by decide), taps_apply]
  exact weights_apply w s _ _ _ _

variable (m : (ℓ : Loc nD τ sig) → Buf (Elt Ideal) ℓ) (c : Dev nD)

theorem v0_eq : (V m c main_v0 : S128x8x8x8x128.Idx → EReal)
    = Cert.Spec.xn (m ((c : Thread nD τ).loc main_arg0)) := by
  have e : (V m c main_v0 : S128x8x8x8x128.Idx → EReal)
      = transpose S128x8x8x8x128 [0, 2, 3, 4, 1] (m ((c : Thread nD τ).loc main_arg0) : S128x128x8x8x8.Idx → EReal)
          Facts₀.transposes_S128x128x8x8x8_S128x8x8x8x128_0_2_3_4_1 := by
    dsimp only [Gen.V, Gen.V0]
    simp only [Gen.hostOps0, Gen.hostOps0_1, Gen.hostOps0_2, Gen.hostOps0_3, Gen.hostOps0_4, Gen.hostOps0_5, Gen.hostOps0_6,
      Gen.hostOps0_7, Gen.hostOps0_8, List.flatten_cons, List.flatten_nil, List.append_nil, List.cons_append, List.nil_append]
    after_results_simp
  rw [e]
  funext j
  exact transpose_apply _ _ _ j (ix5 (j 0) (j 4) (j 1) (j 2) (j 3))
    fun b => match b with | ⟨0, _⟩ => rfl | ⟨1, _⟩ => rfl | ⟨2, _⟩ => rfl | ⟨3, _⟩ => rfl | ⟨4, _⟩ => rfl

set_option maxHeartbeats 1000000 in
theorem v32_term : (V m c main_v32 : S1x128.Idx → EReal)
    = rowTerm (Cert.Spec.shift (Cert.Spec.scaleR (m ((c : Thread nD τ).loc main_arg3)) (m ((c : Thread nD τ).loc main_arg6)))
        (m ((c : Thread nD τ).loc main_arg2)) (m ((c : Thread nD τ).loc main_arg4)) (m ((c : Thread nD τ).loc main_arg5))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [TRef.ofBuf, TRef.toBuf, cast_eq]
  rfl

theorem v32_eq : (V m c main_v32 : S1x128.Idx → EReal)
    = fun j => Cert.Spec.shift (Cert.Spec.scaleR (m ((c : Thread nD τ).loc main_arg3)) (m ((c : Thread nD τ).loc main_arg6)))
        (m ((c : Thread nD τ).loc main_arg2)) (m ((c : Thread nD τ).loc main_arg4)) (m ((c : Thread nD τ).loc main_arg5)) (ix1 (j 1)) := by
  rw [v32_term]
  funext j
  exact rowTerm_apply _ j

set_option maxHeartbeats 1000000 in
theorem v34_term : (V m c main_v34 : S1x128.Idx → EReal)
    = rowTerm (Cert.Spec.shift (Cert.Spec.scaleR (m ((c : Thread nD τ).loc main_arg9)) (m ((c : Thread nD τ).loc main_arg12)))
        (m ((c : Thread nD τ).loc main_arg8)) (m ((c : Thread nD τ).loc main_arg10)) (m ((c : Thread nD τ).loc main_arg11))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [TRef.ofBuf, TRef.toBuf, cast_eq]
  rfl

theorem v34_eq : (V m c main_v34 : S1x128.Idx → EReal)
    = fun j => Cert.Spec.shift (Cert.Spec.scaleR (m ((c : Thread nD τ).loc main_arg9)) (m ((c : Thread nD τ).loc main_arg12)))
        (m ((c : Thread nD τ).loc main_arg8)) (m ((c : Thread nD τ).loc main_arg10)) (m ((c : Thread nD τ).loc main_arg11)) (ix1 (j 1)) := by
  rw [v34_term]
  funext j
  exact rowTerm_apply _ j

set_option maxHeartbeats 1000000 in
theorem v23_term : (V m c main_v23 : S9x384x128.Idx → EReal)
    = tapsTerm (wTerm (m ((c : Thread nD τ).loc main_arg1))
        (Cert.Spec.scaleR (m ((c : Thread nD τ).loc main_arg3)) (m ((c : Thread nD τ).loc main_arg6)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [TRef.ofBuf, TRef.toBuf, cast_eq]
  rfl

theorem v23_eq : (V m c main_v23 : S9x384x128.Idx → EReal)
    = fun j => Cert.Spec.wgt (m ((c : Thread nD τ).loc main_arg1))
        (Cert.Spec.scaleR (m ((c : Thread nD τ).loc main_arg3)) (m ((c : Thread nD τ).loc main_arg6)))
        (⟨(j 0).val / 3, by have := tap_lt j; omega⟩ : Fin 3) (⟨(j 0).val % 3, Nat.mod_lt _ (by norm_num)⟩ : Fin 3)
        (⟨(j 1).val / 128, by have := col_lt j; omega⟩ : Fin 3) (⟨(j 1).val % 128, Nat.mod_lt _ (by norm_num)⟩ : Fin 128) (j 2) := by
  rw [v23_term]
  funext j
  exact tapsTerm_apply _ _ j

set_option maxHeartbeats 1000000 in
theorem v30_term : (V m c main_v30 : S9x384x128.Idx → EReal)
    = tapsTerm (wTerm (m ((c : Thread nD τ).loc main_arg7))
        (Cert.Spec.scaleR (m ((c : Thread nD τ).loc main_arg9)) (m ((c : Thread nD τ).loc main_arg12)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  simp only [TRef.ofBuf, TRef.toBuf, cast_eq]
  rfl

theorem v30_eq : (V m c main_v30 : S9x384x128.Idx → EReal)
    = fun j => Cert.Spec.wgt (m ((c : Thread nD τ).loc main_arg7))
        (Cert.Spec.scaleR (m ((c : Thread nD τ).loc main_arg9)) (m ((c : Thread nD τ).loc main_arg12)))
        (⟨(j 0).val / 3, by have := tap_lt j; omega⟩ : Fin 3) (⟨(j 0).val % 3, Nat.mod_lt _ (by norm_num)⟩ : Fin 3)
        (⟨(j 1).val / 128, by have := col_lt j; omega⟩ : Fin 3) (⟨(j 1).val % 128, Nat.mod_lt _ (by norm_num)⟩ : Fin 128) (j 2) := by
  rw [v30_term]
  funext j
  exact tapsTerm_apply _ _ j

end Cert.ReferenceIdeal.HostVal

end
-- ==== Proof.RBridge.lean ====
/- An entry of the plain grid point is the plain residual block of its sample. -/
import proofs.«102070_g2000507141466659_pallasbulk_1049_20_alg».proof.Proof.RSpec

noncomputable section

open scoped BigOperators
open Idealize.ShloMosaic Idealize.ShloMosaic.ValueIdx

namespace Cert.RSpec

open Cert.Spec

theorem convRowR_windowR (a : Vol) (w : SW.Idx → EReal) (s : SC.Idx → EReal) (d h ww : Fin 8) (co : Fin 128) :
    convRowR (windowR a)
        (fun i => wgt w s ⟨(i 0).val / 3, by have : (i 0).val < 9 := (i 0).isLt; omega⟩
          ⟨(i 0).val % 3, Nat.mod_lt _ (by norm_num)⟩
          ⟨(i 1).val / 128, by have : (i 1).val < 384 := (i 1).isLt; omega⟩
          ⟨(i 1).val % 128, Nat.mod_lt _ (by norm_num)⟩ (i 2)) d h ww co
      = convR a w s d h ww co := by
  unfold convRowR convR windowR
  exact Finset.sum_congr rfl fun t _ => Finset.sum_congr rfl fun k _ => rfl

theorem outR_eq (x0 : SB1.Idx → EReal) (w1 : Cert.Spec.SW.Idx → EReal) (s1 t1 : Cert.Spec.SC.Idx → EReal)
    (w2 : Cert.Spec.SW.Idx → EReal) (s2 t2 : Cert.Spec.SC.Idx → EReal) (d h w : Fin 8) (c : Fin 128) :
    outAtR x0
        (fun i => Cert.Spec.wgt w1 s1 ⟨(i 0).val / 3, by have : (i 0).val < 9 := (i 0).isLt; omega⟩
          ⟨(i 0).val % 3, Nat.mod_lt _ (by norm_num)⟩
          ⟨(i 1).val / 128, by have : (i 1).val < 384 := (i 1).isLt; omega⟩
          ⟨(i 1).val % 128, Nat.mod_lt _ (by norm_num)⟩ (i 2))
        (fun i => t1 (ValueIdx.ix1 (i 1)))
        (fun i => Cert.Spec.wgt w2 s2 ⟨(i 0).val / 3, by have : (i 0).val < 9 := (i 0).isLt; omega⟩
          ⟨(i 0).val % 3, Nat.mod_lt _ (by norm_num)⟩
          ⟨(i 1).val / 128, by have : (i 1).val < 384 := (i 1).isLt; omega⟩
          ⟨(i 1).val % 128, Nat.mod_lt _ (by norm_num)⟩ (i 2))
        (fun i => t2 (ValueIdx.ix1 (i 1))) d h w c
      = Cert.Spec.blockR Cert.Spec.leakyR (vol x0) w1 s1 t1 w2 s2 t2 d h w c := by
  have hy : yvol x0
        (fun i => wgt w1 s1 ⟨(i 0).val / 3, by have : (i 0).val < 9 := (i 0).isLt; omega⟩
          ⟨(i 0).val % 3, Nat.mod_lt _ (by norm_num)⟩
          ⟨(i 1).val / 128, by have : (i 1).val < 384 := (i 1).isLt; omega⟩
          ⟨(i 1).val % 128, Nat.mod_lt _ (by norm_num)⟩ (i 2))
        (fun i => t1 (ix1 (i 1)))
      = fun d' h' w' c' => leakyR (convR (vol x0) w1 s1 d' h' w' c' + t1 (ix1 c')) := by
    funext d' h' w' c'
    unfold yvol
    rw [convRowR_windowR]
  unfold outAtR blockR
  rw [convRowR_windowR, hy]
  rfl

end Cert.RSpec

end
-- ==== Proof.RValue.lean ====
/- From the 128 grid points to the plain program's whole result array. -/
import proofs.«102070_g2000507141466659_pallasbulk_1049_20_alg».proof.Proof.RBody
import proofs.«102070_g2000507141466659_pallasbulk_1049_20_alg».proof.Proof.RHost
import proofs.«102070_g2000507141466659_pallasbulk_1049_20_alg».proof.Proof.RBridge
import Idealize.ShloMosaic.Lib.StableHlo.Run
import Idealize.ShloMosaic.Lib.Pipeline.Value
import Idealize.ShloMosaic.Lib.ValueIdx

set_option maxRecDepth 16384

noncomputable section

namespace Cert.ReferenceIdeal.Value

open Cert.ReferenceIdeal Cert.ReferenceIdeal.Gen Cert.ReferenceIdeal.Hand
open Idealize.ShloMosaic Idealize.ShloMosaic.TcCoe Idealize.ShloMosaic.StableHlo Idealize.ShloMosaic.ValueIdx
open Idealize.SL.Sem
open Idealize.ShloMosaic.Pipeline (Dat)

variable (m : (ℓ : Loc nD τ sig) → Buf (Elt Ideal) ℓ) (ρ : Dev nD → PrngReg)

theorem N128 : cfg0.N = 128 := N_0

theorem idx_facts : ∀ t : Fin cfg0.N,
    (win0_0.index t (0 : Fin 5) = t.val ∧ win0_0.index t (1 : Fin 5) = 0 ∧ win0_0.index t (2 : Fin 5) = 0 ∧ win0_0.index t (3 : Fin 5) = 0 ∧ win0_0.index t (4 : Fin 5) = 0)
    ∧ (win0_5.index t (0 : Fin 5) = t.val ∧ win0_5.index t (1 : Fin 5) = 0 ∧ win0_5.index t (2 : Fin 5) = 0 ∧ win0_5.index t (3 : Fin 5) = 0 ∧ win0_5.index t (4 : Fin 5) = 0)
    ∧ (win0_1.index t (0 : Fin 3) = 0 ∧ win0_1.index t (1 : Fin 3) = 0 ∧ win0_1.index t (2 : Fin 3) = 0)
    ∧ (win0_3.index t (0 : Fin 3) = 0 ∧ win0_3.index t (1 : Fin 3) = 0 ∧ win0_3.index t (2 : Fin 3) = 0)
    ∧ (win0_2.index t (0 : Fin 2) = 0 ∧ win0_2.index t (1 : Fin 2) = 0)
    ∧ (win0_4.index t (0 : Fin 2) = 0 ∧ win0_4.index t (1 : Fin 2) = 0) :=
  (by decide +kernel : ∀ t : Fin grid0.N, _)

def smp (t : Fin cfg0.N) : Fin 128 := ⟨t.val, lt_of_lt_of_eq t.isLt N128⟩

theorem iblk0_eq (c : Dev nD) (t : Fin cfg0.N) :
    (iblk m c 0 t : Vec Ideal S1x8x8x8x128 .f32)
      = fun y => (V m c main_v0 : S128x8x8x8x128.Idx → EReal) (ix5 (smp t) (y 1) (y 2) (y 3) (y 4)) := by
  obtain ⟨⟨e0, e1, e2, e3, e4⟩, -⟩ := idx_facts t
  funext y
  unfold iblk
  rw [View.read_apply]
  show V m c main_v0 _ = V m c main_v0 _
  congr 1
  funext a
  apply Fin.ext
  match a with
  | ⟨0, _⟩ => show win0_0.index t (0 : Fin 5) * 1 + 1 * (y 0).val = t.val; have : (y 0).val < 1 := (y 0).isLt; omega
  | ⟨1, _⟩ => show win0_0.index t (1 : Fin 5) * 8 + 1 * (y 1).val = (y 1).val; omega
  | ⟨2, _⟩ => show win0_0.index t (2 : Fin 5) * 8 + 1 * (y 2).val = (y 2).val; omega
  | ⟨3, _⟩ => show win0_0.index t (3 : Fin 5) * 8 + 1 * (y 3).val = (y 3).val; omega
  | ⟨4, _⟩ => show win0_0.index t (4 : Fin 5) * 128 + 1 * (y 4).val = (y 4).val; omega

theorem iblk1_eq (c : Dev nD) (t : Fin cfg0.N) :
    (iblk m c 1 t : Vec Ideal S9x384x128 .bf16) = (V m c main_v23 : S9x384x128.Idx → EReal) := by
  obtain ⟨-, -, ⟨e0, e1, e2⟩, -⟩ := idx_facts t
  funext y
  unfold iblk
  rw [View.read_apply]
  show V m c main_v23 _ = V m c main_v23 y
  congr 1
  funext a
  apply Fin.ext
  match a with
  | ⟨0, _⟩ => show win0_1.index t (0 : Fin 3) * 9 + 1 * (y 0).val = (y 0).val; omega
  | ⟨1, _⟩ => show win0_1.index t (1 : Fin 3) * 384 + 1 * (y 1).val = (y 1).val; omega
  | ⟨2, _⟩ => show win0_1.index t (2 : Fin 3) * 128 + 1 * (y 2).val = (y 2).val; omega

theorem iblk3_eq (c : Dev nD) (t : Fin cfg0.N) :
    (iblk m c 3 t : Vec Ideal S9x384x128 .bf16) = (V m c main_v30 : S9x384x128.Idx → EReal) := by
  obtain ⟨-, -, -, ⟨e0, e1, e2⟩, -⟩ := idx_facts t
  funext y
  unfold iblk
  rw [View.read_apply]
  show V m c main_v30 _ = V m c main_v30 y
  congr 1
  funext a
  apply Fin.ext
  match a with
  | ⟨0, _⟩ => show win0_3.index t (0 : Fin 3) * 9 + 1 * (y 0).val = (y 0).val; omega
  | ⟨1, _⟩ => show win0_3.index t (1 : Fin 3) * 384 + 1 * (y 1).val = (y 1).val; omega
  | ⟨2, _⟩ => show win0_3.index t (2 : Fin 3) * 128 + 1 * (y 2).val = (y 2).val; omega

theorem iblk2_eq (c : Dev nD) (t : Fin cfg0.N) :
    (iblk m c 2 t : Vec Ideal S1x128 .f32) = (V m c main_v32 : S1x128.Idx → EReal) := by
  obtain ⟨-, -, -, -, ⟨e0, e1⟩, -⟩ := idx_facts t
  funext y
  unfold iblk
  rw [View.read_apply]
  show V m c main_v32 _ = V m c main_v32 y
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem iblk4_eq (c : Dev nD) (t : Fin cfg0.N) :
    (iblk m c 4 t : Vec Ideal S1x128 .f32) = (V m c main_v34 : S1x128.Idx → EReal) := by
  obtain ⟨-, -, -, -, -, ⟨e0, e1⟩⟩ := idx_facts t
  funext y
  unfold iblk
  rw [View.read_apply]
  show V m c main_v34 _ = V m c main_v34 y
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem emb5_eq (t : Fin cfg0.N) (y : S1x8x8x8x128.Idx) :
    (((cfg0.win 5).blk t).view.emb y : S128x8x8x8x128.Idx) = ix5 (smp t) (y 1) (y 2) (y 3) (y 4) := by
  obtain ⟨-, ⟨e0, e1, e2, e3, e4⟩, -⟩ := idx_facts t
  funext a
  apply Fin.ext
  match a with
  | ⟨0, _⟩ => show win0_5.index t (0 : Fin 5) * 1 + 1 * (y 0).val = t.val; have : (y 0).val < 1 := (y 0).isLt; omega
  | ⟨1, _⟩ => show win0_5.index t (1 : Fin 5) * 8 + 1 * (y 1).val = (y 1).val; omega
  | ⟨2, _⟩ => show win0_5.index t (2 : Fin 5) * 8 + 1 * (y 2).val = (y 2).val; omega
  | ⟨3, _⟩ => show win0_5.index t (3 : Fin 5) * 8 + 1 * (y 3).val = (y 3).val; omega
  | ⟨4, _⟩ => show win0_5.index t (4 : Fin 5) * 128 + 1 * (y 4).val = (y 4).val; omega

theorem mem_blk5 (t : Fin cfg0.N) (i : S128x8x8x8x128.Idx) :
    i ∈ ((cfg0.win 5).blk t).view.set ↔ ∀ a : Fin 5, win0_5.index t a * S1x8x8x8x128.size a ≤ (i a).val ∧ (i a).val < win0_5.index t a * S1x8x8x8x128.size a + S1x8x8x8x128.size a := by
  show i ∈ ((View.whole main_v35).slice (win0_5.rect t)).set ↔ _
  rw [View.set_slice_whole, Rect.mem_set_unit]
  exact Iff.rfl

theorem cover5 (i : S128x8x8x8x128.Idx) :
    ∃ t : Fin cfg0.N, (cfg0.win 5).flush t = true ∧ i ∈ ((cfg0.win 5).blk t).view.set := by
  have h0 : (i 0).val < 128 := (i 0).isLt
  have h1 : (i 1).val < 8 := (i 1).isLt
  have h2 : (i 2).val < 8 := (i 2).isLt
  have h3 : (i 3).val < 8 := (i 3).isLt
  have h4 : (i 4).val < 128 := (i 4).isLt
  refine ⟨⟨(i 0).val, lt_of_lt_of_eq h0 N128.symm⟩, flush0_5 _, ?_⟩
  obtain ⟨-, ⟨e0, e1, e2, e3, e4⟩, -⟩ := idx_facts ⟨(i 0).val, lt_of_lt_of_eq h0 N128.symm⟩
  rw [mem_blk5]
  intro a
  match a with
  | ⟨0, _⟩ => show win0_5.index _ (0 : Fin 5) * 1 ≤ (i 0).val ∧ (i 0).val < win0_5.index _ (0 : Fin 5) * 1 + 1; rw [e0]; show (i 0).val * 1 ≤ (i 0).val ∧ (i 0).val < (i 0).val * 1 + 1; omega
  | ⟨1, _⟩ => show win0_5.index _ (1 : Fin 5) * 8 ≤ (i 1).val ∧ (i 1).val < win0_5.index _ (1 : Fin 5) * 8 + 8; omega
  | ⟨2, _⟩ => show win0_5.index _ (2 : Fin 5) * 8 ≤ (i 2).val ∧ (i 2).val < win0_5.index _ (2 : Fin 5) * 8 + 8; omega
  | ⟨3, _⟩ => show win0_5.index _ (3 : Fin 5) * 8 ≤ (i 3).val ∧ (i 3).val < win0_5.index _ (3 : Fin 5) * 8 + 8; omega
  | ⟨4, _⟩ => show win0_5.index _ (4 : Fin 5) * 128 ≤ (i 4).val ∧ (i 4).val < win0_5.index _ (4 : Fin 5) * 128 + 128; omega

def Garr (X : S128x8x8x8x128.Idx → EReal) (W1 : S9x384x128.Idx → EReal) (T1 : S1x128.Idx → EReal)
    (W2 : S9x384x128.Idx → EReal) (T2 : S1x128.Idx → EReal) : S128x8x8x8x128.Idx → EReal := fun j =>
  Cert.RSpec.outAtR (fun y => X (ix5 (j 0) (y 1) (y 2) (y 3) (y 4))) W1 T1 W2 T2 (j 1) (j 2) (j 3) (j 4)

theorem flushed_eq (c : Dev nD) (t : Fin cfg0.N) :
    (dats m 0 c).flushed 5 t = ((cfg0.win 5).blk t).view.read (Elt Ideal)
      (Garr (V m c main_v0) (V m c main_v23) (V m c main_v32) (V m c main_v30) (V m c main_v34)) := by
  show (cfg0.win 5).cut (grid0.coords t) ((dats m 0 c).after 5 t) = _
  rw [after0_5 m c t, Cert.ReferenceIdeal.Hand.outR_eq c (grid0.coords t) (ms0_0 t) (hs0_0 t) (ms0_1 t) (hs0_1 t) (ms0_2 t) (hs0_2 t) (ms0_3 t) (hs0_3 t) (ms0_4 t) (hs0_4 t) (ms0_5 t) (hs0_5 t) scM7 (Memref.isWhole_whole _) scM8 (Memref.isWhole_whole _) (iblk m c 0 t) (iblk m c 1 t) (iblk m c 2 t) (iblk m c 3 t) (iblk m c 4 t),
    iblk0_eq m c t, iblk1_eq m c t, iblk2_eq m c t, iblk3_eq m c t, iblk4_eq m c t]
  funext y
  rw [View.read_apply, emb5_eq t y]
  rfl

theorem final (c : Dev nD) :
    (dats m 0 c).arrAt 5 cfg0.N = Garr (V m c main_v0) (V m c main_v23) (V m c main_v32) (V m c main_v30) (V m c main_v34) :=
  (dats m 0 c).arrAt_eq_of_cover 5 _ (fun t _ => flushed_eq m c t) cover5

theorem Garr_result
    (x : Cert.Spec.SX.Idx → EReal) (w1 : Cert.Spec.SW.Idx → EReal) (b1 g1 be1 mu1 v1 : Cert.Spec.SC.Idx → EReal)
    (w2 : Cert.Spec.SW.Idx → EReal) (b2 g2 be2 mu2 v2 : Cert.Spec.SC.Idx → EReal) (k : S128x128x8x8x8.Idx) :
    Garr (Cert.Spec.xn x)
        (fun j => Cert.Spec.wgt w1 (Cert.Spec.scaleR g1 v1) ⟨(j 0).val / 3, by have : (j 0).val < 9 := (j 0).isLt; omega⟩
          ⟨(j 0).val % 3, Nat.mod_lt _ (by norm_num)⟩ ⟨(j 1).val / 128, by have : (j 1).val < 384 := (j 1).isLt; omega⟩
          ⟨(j 1).val % 128, Nat.mod_lt _ (by norm_num)⟩ (j 2))
        (fun j => Cert.Spec.shift (Cert.Spec.scaleR g1 v1) b1 be1 mu1 (ix1 (j 1)))
        (fun j => Cert.Spec.wgt w2 (Cert.Spec.scaleR g2 v2) ⟨(j 0).val / 3, by have : (j 0).val < 9 := (j 0).isLt; omega⟩
          ⟨(j 0).val % 3, Nat.mod_lt _ (by norm_num)⟩ ⟨(j 1).val / 128, by have : (j 1).val < 384 := (j 1).isLt; omega⟩
          ⟨(j 1).val % 128, Nat.mod_lt _ (by norm_num)⟩ (j 2))
        (fun j => Cert.Spec.shift (Cert.Spec.scaleR g2 v2) b2 be2 mu2 (ix1 (j 1)))
        (ix5 (k 0) (k 2) (k 3) (k 4) (k 1))
      = Cert.Spec.resultR x w1 b1 g1 be1 mu1 v1 w2 b2 g2 be2 mu2 v2 k :=
  Cert.RSpec.outR_eq (fun y => Cert.Spec.xn x (ix5 (k 0) (y 1) (y 2) (y 3) (y 4))) w1 (Cert.Spec.scaleR g1 v1)
    (Cert.Spec.shift (Cert.Spec.scaleR g1 v1) b1 be1 mu1) w2 (Cert.Spec.scaleR g2 v2)
    (Cert.Spec.shift (Cert.Spec.scaleR g2 v2) b2 be2 mu2) (k 2) (k 3) (k 4) (k 1)

theorem Garr_spec (c : Dev nD) (k : S128x128x8x8x8.Idx) :
    Garr (V m c main_v0) (V m c main_v23) (V m c main_v32) (V m c main_v30) (V m c main_v34) (ix5 (k 0) (k 2) (k 3) (k 4) (k 1))
      = Cert.Spec.resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) k := by
  rw [HostVal.v0_eq m c, HostVal.v23_eq m c, HostVal.v32_eq m c, HostVal.v30_eq m c, HostVal.v34_eq m c]
  exact Garr_result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) k

theorem tail_of (dats : (p : Fin 1) → (c : Dev nD) → Dat τ (Elt Ideal) Unit ℕ (UR sig nD τ) ℕ (cfgs p) c) (c : Dev nD) :
    (Pipeline.afterTail₀ cfgs dats 0 (V0 m) [hostOps1] c main_v36 : S128x128x8x8x8.Idx → EReal)
      = fun k => ((dats 0 c).arrAt 5 cfg0.N : S128x8x8x8x128.Idx → EReal) (ix5 (k 0) (k 2) (k 3) (k 4) (k 1)) := by
  unfold Pipeline.afterTail₀
  show StableHlo.after hostOps1 _ (Proc.devRef .tc main_v36) = _
  after_results
  funext k
  refine (transpose_apply _ _ _ k (ix5 (k 0) (k 2) (k 3) (k 4) (k 1)) fun b => ?_).trans ?_
  · match b with
    | ⟨0, _⟩ => rfl | ⟨1, _⟩ => rfl | ⟨2, _⟩ => rfl | ⟨3, _⟩ => rfl | ⟨4, _⟩ => rfl
  · exact congrFun (Pipeline.withArrays_arr spec0 launch0.win.arr_inj c _ _ 5) _

theorem tail (c : Dev nD) :
    Pipeline.afterTail₀ cfgs (dats m) 0 (V0 m) [hostOps1] c main_v36
      = Cert.Spec.resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (tail_of m (dats m) c).trans (funext fun k =>
    (congrFun (final m c) (ix5 (k 0) (k 2) (k 3) (k 4) (k 1))).trans (Garr_spec m c k))

theorem run : θ_run (defs (F := Ideal)) (onTc (τ := τ) (main (F := Ideal))) ⟨m, fun _ => 0, ρ⟩ (fun r => ∀ c : Dev nD,
      r.2.mem ((c.tc : Thread nD τ).loc main_v36) = Cert.Spec.resultR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).2 main_v36 (Pipeline.mem_restRefs_of main_v36 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩) (run_main m ρ)

end Cert.ReferenceIdeal.Value

end
-- ==== Proof.Bridge.lean ====
/- The banded and the plain form of the residual block are one function: the scale, the rectifier, and a sum whose extra products have a zero weight. -/
import proofs.«102070_g2000507141466659_pallasbulk_1049_20_alg».proof.Proof.Spec

noncomputable section

open scoped BigOperators
open Idealize.ShloMosaic Idealize.ShloMosaic.ValueIdx

namespace Cert.Spec

theorem eps_val : eps = (((10995116 : ℝ) * (2 : ℝ) ^ (-40 : ℤ) : ℝ) : EReal) := by
  simp [eps, Ideal.ofBits, Ideal.ieee, -EReal.coe_mul]

theorem slope_val : slope = (((10066330 : ℝ) * (2 : ℝ) ^ (-25 : ℤ) : ℝ) : EReal) := by
  simp [slope, Ideal.ofBits, Ideal.ieee, -EReal.coe_mul]

theorem eps_pos : ∃ e : ℝ, 0 < e ∧ eps = (e : EReal) :=
  ⟨_, by positivity, eps_val⟩

theorem slope_bounds : ∃ c : ℝ, 0 < c ∧ c < 1 ∧ slope = (c : EReal) :=
  ⟨_, by positivity, by norm_num, slope_val⟩

theorem scale_eq (g v : SC.Idx → EReal) (hv : ∀ i, ∃ r : ℝ, 0 ≤ r ∧ v i = (r : EReal)) :
    scaleK g v = scaleR g v := by
  funext i
  obtain ⟨r, hr, hvi⟩ := hv i
  obtain ⟨e, he, hee⟩ := eps_pos
  have hpos : 0 < r + e := by linarith
  have hs : Real.sqrt (r + e) ≠ 0 := (Real.sqrt_pos.mpr hpos).ne'
  unfold scaleK scaleR
  rw [hvi, hee, ← EReal.coe_add, Ideal.rsqrt_coe, Ideal.sqrt_coe, if_neg (not_lt.mpr hpos.le), if_neg hpos.ne',
    if_neg (not_lt.mpr hpos.le), Ideal.div_coe hs, one_div]

theorem leaky_eq (v : EReal) : leakyK v = leakyR v := by
  obtain ⟨c, hc0, hc1, hc⟩ := slope_bounds
  unfold leakyK leakyR
  rw [hc]
  induction v using EReal.rec with
  | bot => simp [EReal.coe_mul_bot_of_pos hc0]
  | top => simp
  | coe r =>
    rw [← EReal.coe_mul]
    by_cases hr : 0 ≤ r
    · rw [if_pos (EReal.coe_nonneg.mpr hr)]
      exact max_eq_left (EReal.coe_le_coe_iff.mpr (by nlinarith))
    · rw [if_neg (fun h => hr (EReal.coe_nonneg.mp h))]
      exact max_eq_right (EReal.coe_le_coe_iff.mpr (by nlinarith))

private theorem sum_window (o : Nat) (ho : o + 384 ≤ 512) (f : Fin 512 → EReal) (g : Fin 384 → EReal)
    (h1 : ∀ k : Fin 384, f ⟨k.val + o, by omega⟩ = g k)
    (h2 : ∀ k : Fin 512, (k.val < o ∨ o + 384 ≤ k.val) → f k = 0) :
    ∑ k, f k = ∑ k, g k := by
  symm
  refine Finset.sum_of_injOn (fun k : Fin 384 => (⟨k.val + o, by omega⟩ : Fin 512)) ?_ ?_ ?_ ?_
  · intro x _ y _ hxy
    have := congrArg Fin.val hxy
    simp only at this
    exact Fin.ext (by omega)
  · intro _ _; exact Finset.mem_coe.mpr (Finset.mem_univ _)
  · intro k _ hk
    apply h2
    by_contra hcon
    apply hk
    exact ⟨⟨k.val - o, by omega⟩, Finset.mem_coe.mpr (Finset.mem_univ _), Fin.ext (by simp only; omega)⟩
  · intro k _; exact (h1 k).symm

theorem conv_eq (a : Fin 8 → Fin 8 → Fin 8 → Fin 128 → EReal) (w : SW.Idx → EReal) (s : SC.Idx → EReal)
    (d h ww : Fin 8) (co : Fin 128) :
    convK a w s d h ⟨ww.val / 2, by omega⟩ ⟨(ww.val % 2) * 128 + co.val, by omega⟩ = convR a w s d h ww co := by
  unfold convK convR
  refine Finset.sum_congr rfl fun t _ => ?_
  refine sum_window ((ww.val % 2) * 128) (by omega) _ _ ?_ ?_
  · intro k
    have e1 : (k.val + ww.val % 2 * 128) / 128 - (ww.val % 2 * 128 + co.val) / 128 = k.val / 128 := by omega
    have e2 : (k.val + ww.val % 2 * 128) % 128 = k.val % 128 := by omega
    have e4 : (ww.val % 2 * 128 + co.val) % 128 = co.val := by omega
    have e5 : 2 * (ww.val / 2) + (k.val + ww.val % 2 * 128) / 128 = ww.val + k.val / 128 := by omega
    have hc : (ww.val % 2 * 128 + co.val) / 128 ≤ (k.val + ww.val % 2 * 128) / 128
        ∧ (k.val + ww.val % 2 * 128) / 128 ≤ (ww.val % 2 * 128 + co.val) / 128 + 2 := by
      constructor <;> omega
    unfold band
    simp only [dif_pos hc, e1, e2, e4, e5]
  · intro k hk
    have hc : ¬ ((ww.val % 2 * 128 + co.val) / 128 ≤ k.val / 128
        ∧ k.val / 128 ≤ (ww.val % 2 * 128 + co.val) / 128 + 2) := by
      omega
    unfold band
    simp only [dif_neg hc, mul_zero]

theorem block_eq (a : Fin 8 → Fin 8 → Fin 8 → Fin 128 → EReal)
    (w1 : SW.Idx → EReal) (s1 t1 : SC.Idx → EReal) (w2 : SW.Idx → EReal) (s2 t2 : SC.Idx → EReal)
    (d h ww : Fin 8) (co : Fin 128) :
    blockK leakyK a w1 s1 t1 w2 s2 t2 d h ww co = blockR leakyR a w1 s1 t1 w2 s2 t2 d h ww co := by
  have hl : leakyK = leakyR := funext leaky_eq
  unfold blockK blockR
  simp only [hl, conv_eq]

theorem result_eq (x : SX.Idx → EReal) (w1 : SW.Idx → EReal) (b1 g1 be1 mu1 v1 : SC.Idx → EReal)
    (w2 : SW.Idx → EReal) (b2 g2 be2 mu2 v2 : SC.Idx → EReal)
    (hv1 : ∀ i, ∃ r : ℝ, 0 ≤ r ∧ v1 i = (r : EReal)) (hv2 : ∀ i, ∃ r : ℝ, 0 ≤ r ∧ v2 i = (r : EReal)) :
    resultK x w1 b1 g1 be1 mu1 v1 w2 b2 g2 be2 mu2 v2 = resultR x w1 b1 g1 be1 mu1 v1 w2 b2 g2 be2 mu2 v2 := by
  funext j
  unfold resultK resultR
  rw [scale_eq g1 v1 hv1, scale_eq g2 v2 hv2]
  exact block_eq _ _ _ _ _ _ _ _ _ _ _

end Cert.Spec

end
-- ==== Proof.PreFacts.lean ====
/- From the precondition: every float entry is real and the two variance arrays are non-negative. -/
import proofs.«102070_g2000507141466659_pallasbulk_1049_20_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

open Idealize.ShloMosaic Idealize.ShloMosaic.ValueIdx
open Cert.Pre_finite_inputs

namespace Cert.PreFacts

instance : Subsingleton S_.Idx := ⟨fun a b => funext fun d => d.elim0⟩

theorem real_of_abs_lt_top (x : EReal) (hfin : max x (-x) < ⊤) (hpos : (0 : EReal) ≤ x) :
    ∃ r : ℝ, 0 ≤ r ∧ x = (r : EReal) := by
  induction x using EReal.rec with
  | bot => simp at hpos
  | coe r => exact ⟨r, EReal.coe_nonneg.1 hpos, rfl⟩
  | top => simp at hfin

theorem lt_of_cmp_olt {a b : EReal} (h : Ideal.cmp .olt a b = 1#1) : a < b := by
  by_contra hn
  simp [Ideal.cmp, hn] at h

theorem le_of_cmp_oge {a b : EReal} (h : Ideal.cmp .oge a b = 1#1) : b ≤ a := by
  by_contra hn
  simp [Ideal.cmp, hn] at h

theorem ofBits_inf_f32 : Ideal.ofBits .f32 0x7F800000#32 = ⊤ := by simp [Ideal.ofBits, Ideal.ieee]

variable [Facts]

theorem abs_lt_top_at (x : FVec Ideal S128 .f32) (i : S128.Idx)
    (h : cmpf .olt (Host.absf x) (broadcastInDim S128 ![] Facts.bcast_S_S128 (constant S_ .f32 0x7F800000#32)) i = 1#1) :
    max (x i) (-(x i)) < ⊤ := by
  have h' : Ideal.cmp .olt (max (x i) (-(x i))) (Ideal.ofBits .f32 0x7F800000#32) = 1#1 := h
  rw [ofBits_inf_f32] at h'
  exact lt_of_cmp_olt h'

theorem nonneg_at (x : FVec Ideal S128 .f32) (i : S128.Idx)
    (h : cmpf .oge x (broadcastInDim S128 ![] Facts.bcast_S_S128 (constant S_ .f32 0x00000000#32)) i = 1#1) :
    (0 : EReal) ≤ x i := by
  have h' : Ideal.cmp .oge (x i) (Ideal.ofBits .f32 0x00000000#32) = 1#1 := h
  rw [Ideal.ofBits_zero_f32] at h'
  exact le_of_cmp_oge h'

theorem conjuncts (a0 : FVec Ideal S128x128x8x8x8 .f32) (a1 : FVec Ideal S128x128x3x3x3 .f32)
    (a2 a3 a4 a5 a6 : FVec Ideal S128 .f32) (a7 : FVec Ideal S128x128x3x3x3 .f32) (a8 a9 a10 a11 a12 : FVec Ideal S128 .f32)
    (h : Cert.Pre_finite_inputs.fn (F := Ideal) a0 a1 a2 a3 a4 a5 a6 a7 a8 a9 a10 a11 a12 = fun _ => 1#1) (i : S128.Idx) :
    (max (a6 i) (-(a6 i)) < ⊤ ∧ (0 : EReal) ≤ a6 i) ∧ (max (a12 i) (-(a12 i)) < ⊤ ∧ (0 : EReal) ≤ a12 i) := by
  have e := congrFun h ix0
  simp only [fn, fn_part1, fn_part2, fn_part3, fn_part4, andi, IntOp.andi_eq_one] at e
  exact ⟨⟨abs_lt_top_at a6 i (Host.reduce_andi_all _ _ _ _ _ e.1.1.1.1.1.1.1.1.2 i),
      nonneg_at a6 i (Host.reduce_andi_all _ _ _ _ _ e.1.2 i)⟩,
    ⟨abs_lt_top_at a12 i (Host.reduce_andi_all _ _ _ _ _ e.1.1.2 i),
      nonneg_at a12 i (Host.reduce_andi_all _ _ _ _ _ e.2 i)⟩⟩

theorem var1_nonneg (a0 : FVec Ideal S128x128x8x8x8 .f32) (a1 : FVec Ideal S128x128x3x3x3 .f32)
    (a2 a3 a4 a5 a6 : FVec Ideal S128 .f32) (a7 : FVec Ideal S128x128x3x3x3 .f32) (a8 a9 a10 a11 a12 : FVec Ideal S128 .f32)
    (h : Cert.Pre_finite_inputs.fn (F := Ideal) a0 a1 a2 a3 a4 a5 a6 a7 a8 a9 a10 a11 a12 = fun _ => 1#1) :
    ∀ i, ∃ r : ℝ, 0 ≤ r ∧ a6 i = (r : EReal) := fun i =>
  let c := (conjuncts a0 a1 a2 a3 a4 a5 a6 a7 a8 a9 a10 a11 a12 h i).1
  real_of_abs_lt_top _ c.1 c.2

theorem var2_nonneg (a0 : FVec Ideal S128x128x8x8x8 .f32) (a1 : FVec Ideal S128x128x3x3x3 .f32)
    (a2 a3 a4 a5 a6 : FVec Ideal S128 .f32) (a7 : FVec Ideal S128x128x3x3x3 .f32) (a8 a9 a10 a11 a12 : FVec Ideal S128 .f32)
    (h : Cert.Pre_finite_inputs.fn (F := Ideal) a0 a1 a2 a3 a4 a5 a6 a7 a8 a9 a10 a11 a12 = fun _ => 1#1) :
    ∀ i, ∃ r : ℝ, 0 ≤ r ∧ a12 i = (r : EReal) := fun i =>
  let c := (conjuncts a0 a1 a2 a3 a4 a5 a6 a7 a8 a9 a10 a11 a12 h i).2
  real_of_abs_lt_top _ c.1 c.2

end Cert.PreFacts

end
-- ==== Proof.lean ====
/- The certificate assembled: three frames, the empty ledger, and the two idealized programs agreeing through one function of the thirteen arguments. -/
import proofs.«102070_g2000507141466659_pallasbulk_1049_20_alg».proof.Defs
import proofs.«102070_g2000507141466659_pallasbulk_1049_20_alg».proof.Proof.Gen.Kernel
import proofs.«102070_g2000507141466659_pallasbulk_1049_20_alg».proof.Proof.Gen.KernelIdeal
import proofs.«102070_g2000507141466659_pallasbulk_1049_20_alg».proof.Proof.Gen.ReferenceIdeal
import proofs.«102070_g2000507141466659_pallasbulk_1049_20_alg».proof.Proof.Gen.Pre_finite_inputs
import proofs.«102070_g2000507141466659_pallasbulk_1049_20_alg».proof.Proof.KFrameB
import proofs.«102070_g2000507141466659_pallasbulk_1049_20_alg».proof.Proof.KValue
import proofs.«102070_g2000507141466659_pallasbulk_1049_20_alg».proof.Proof.RValue
import proofs.«102070_g2000507141466659_pallasbulk_1049_20_alg».proof.Proof.Bridge
import proofs.«102070_g2000507141466659_pallasbulk_1049_20_alg».proof.Proof.PreFacts

noncomputable section

namespace Cert.Proof

open Idealize.ShloMosaic Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => Cert.ReferenceIdeal.Hand.frame m ρ

theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.Value.run m ρ, ?_⟩
  refine (θ_run (Cert.ReferenceIdeal.defs (F := Ideal)) _ _).mono (fun r h c => ⟨(h c).1.trans ?_, (h c).2⟩)
    (Cert.ReferenceIdeal.Value.run m' ρ')
  obtain ⟨h0, h1, h2, h3, h4, h5, h6, h7, h8, h9, h10, h11, h12⟩ := hagree c
  rw [h0, h1, h2, h3, h4, h5, h6, h7, h8, h9, h10, h11, h12]
  exact (Cert.Spec.result_eq _ _ _ _ _ _ _ _ _ _ _ _ _
    (Cert.PreFacts.var1_nonneg _ _ _ _ _ _ _ _ _ _ _ _ _ (hpre c))
    (Cert.PreFacts.var2_nonneg _ _ _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
